-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg2 : IVec S100000 32) (main_v63 : IVec S_ 1) (main_v65 : IVec S2x1600000 1) (main_v67 : IVec S2x1600000 1) : IVec S_ 1 :=
  let main_v68 : IVec S2x1600000 1 := andi main_v65 main_v67
  let main_c_26 : IVec S_ 1 := constantI S_ 1 1#1
  let main_v69 : IVec S_ 1 := (fun x v => Host.reduce IntOp.andi x v reducesTo_S2x1600000_S_d0_1 h_S_) main_v68 main_c_26
  let main_v70 : IVec S_ 1 := andi main_v63 main_v69
  let main_c_27 : IVec S_ 32 := constantI S_ 32 0#32
  let main_v71 : IVec S100000 32 := broadcastInDim S100000 ![] bcast_S_S100000 main_c_27
  let main_v72 : IVec S100000 1 := cmpi .sge main_arg2 main_v71
  let main_c_28 : IVec S_ 32 := constantI S_ 32 64#32
  let main_v73 : IVec S100000 32 := broadcastInDim S100000 ![] bcast_S_S100000 main_c_28
  let main_v74 : IVec S100000 1 := cmpi .slt main_arg2 main_v73
  let main_v75 : IVec S100000 1 := andi main_v72 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v70 main_v76
  main_v77

def fn_part3 {F : FTy → Type} [FloatOps F] (main_arg1 : IVec S2x1600000 32) (main_arg2 : IVec S100000 32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg1 main_v64
  let main_c_25 : IVec S_ 32 := constantI S_ 32 100000#32
  let main_v66 : IVec S2x1600000 32 := broadcastInDim S2x1600000 ![] bcast_S_S2x1600000 main_c_25
  let main_v67 : IVec S2x1600000 1 := cmpi .slt main_arg1 main_v66
  fn_part4 (F := F) main_arg2 main_v63 main_v65 main_v67

def fn_part2 {F : FTy → Type} [FloatOps F] (main_arg1 : IVec S2x1600000 32) (main_arg2 : IVec S100000 32) (main_arg9 : FVec F S128x1 .f32) (main_arg10 : FVec F S1 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_v48 main_v49 main_v50

def fn_part1 {F : FTy → Type} [FloatOps F] (main_arg1 : IVec S2x1600000 32) (main_arg2 : IVec S100000 32) (main_arg6 : FVec F S3x128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x128 .f32) (main_arg14 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg2 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S100000x1 : Shape := ⟨2, ![100000, 1]⟩
abbrev S1x128 : Shape := ⟨2, ![1, 128]⟩
abbrev S1x128x128 : Shape := ⟨3, ![1, 128, 128]⟩
abbrev S5000x128 : Shape := ⟨2, ![5000, 128]⟩
abbrev S5000x1 : Shape := ⟨2, ![5000, 1]⟩
abbrev S1600000x128 : Shape := ⟨2, ![1600000, 128]⟩
abbrev S2x1x128 : Shape := ⟨3, ![2, 1, 128]⟩
abbrev S1x1x128 : Shape := ⟨3, ![1, 1, 128]⟩
abbrev S1x1 : Shape := ⟨2, ![1, 1]⟩
abbrev S2x64x128 : Shape := ⟨3, ![2, 64, 128]⟩
abbrev S2x64x1 : Shape := ⟨3, ![2, 64, 1]⟩
abbrev S1x64x128 : Shape := ⟨3, ![1, 64, 128]⟩
abbrev S1x64x1 : Shape := ⟨3, ![1, 64, 1]⟩
abbrev S64x128 : Shape := ⟨2, ![64, 128]⟩
abbrev S64x1 : Shape := ⟨2, ![64, 1]⟩
abbrev S1x64 : Shape := ⟨2, ![1, 64]⟩
abbrev S5000x64 : Shape := ⟨2, ![5000, 64]⟩
abbrev S64 : Shape := ⟨1, ![64]⟩

abbrev nBuf : Space → Nat
  | .hbm => 228
  | .vmem => 115
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x128, .f32⟩
  | 14 => ⟨S128, .f32⟩
  | 15 => ⟨S_, .i32⟩
  | 16 => ⟨S_, .i32⟩
  | 17 => ⟨S_, .i32⟩
  | 18 => ⟨S2x1600000, .i32⟩
  | 19 => ⟨S2x1600000, .i32⟩
  | 20 => ⟨S_, .i32⟩
  | 21 => ⟨S2x1600000, .i32⟩
  | 22 => ⟨S2x1600000, .i32⟩
  | 23 => ⟨S1x1600000, .i32⟩
  | 24 => ⟨S1600000, .i32⟩
  | 25 => ⟨S1x1600000, .i32⟩
  | 26 => ⟨S1600000, .i32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S100000x1, .f32⟩
  | 38 => ⟨S1x128, .f32⟩
  | 39 => ⟨S128, .f32⟩
  | 40 => ⟨S1x128, .f32⟩
  | 41 => ⟨S1x128x128, .f32⟩
  | 42 => ⟨S128x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S2x1x128, .f32⟩
  | 58 => ⟨S2x1x128, .f32⟩
  | 59 => ⟨S_, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S1x128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S1x128, .f32⟩
  | 82 => ⟨S128, .f32⟩
  | 83 => ⟨S128, .f32⟩
  | 84 => ⟨S128, .f32⟩
  | 85 => ⟨S1x128, .f32⟩
  | 86 => ⟨S1x128, .f32⟩
  | 87 => ⟨S100000x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S2x1x128, .f32⟩
  | 108 => ⟨S2x1x128, .f32⟩
  | 109 => ⟨S_, .f32⟩
  | 110 => ⟨S128, .f32⟩
  | 111 => ⟨S_, .f32⟩
  | 112 => ⟨S128, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S1x128, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S128, .f32⟩
  | 5 => ⟨S128, .f32⟩
  | 6 => ⟨S128, .f32⟩
  | 7 => ⟨S1x128, .f32⟩
  | 8 => ⟨S1x128, .f32⟩
  | 9 => ⟨S100000x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S2x1x128, .f32⟩
  | 30 => ⟨S2x1x128, .f32⟩
  | 31 => ⟨S_, .f32⟩
  | 32 => ⟨S128, .f32⟩
  | 33 => ⟨S_, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S1x128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S1x128, .f32⟩
  | 54 => ⟨S128, .f32⟩
  | 55 => ⟨S128, .f32⟩
  | 56 => ⟨S128, .f32⟩
  | 57 => ⟨S1x128, .f32⟩
  | 58 => ⟨S1x128, .f32⟩
  | 59 => ⟨S100000x128, .f32⟩
  | 60 => ⟨S1x128, .f32⟩
  | 61 => ⟨S1x1, .f32⟩
  | 62 => ⟨S100000x1, .f32⟩
  | 63 => ⟨S_, .f32⟩
  | 64 => ⟨S1, .f32⟩
  | 65 => ⟨S_, .f32⟩
  | 66 => ⟨S1, .f32⟩
  | 67 => ⟨S1, .f32⟩
  | 68 => ⟨S1x1, .f32⟩
  | 69 => ⟨S100000x1, .f32⟩
  | 70 => ⟨S100000x1, .f32⟩
  | 71 => ⟨S100000x1, .f32⟩
  | 72 => ⟨S_, .f32⟩
  | 73 => ⟨S1, .f32⟩
  | 74 => ⟨S1x1, .f32⟩
  | 75 => ⟨S100000x1, .f32⟩
  | 76 => ⟨S100000x1, .f32⟩
  | 77 => ⟨S_, .i32⟩
  | 78 => ⟨S_, .i32⟩
  | 79 => ⟨S_, .i32⟩
  | 80 => ⟨S100000, .i32⟩
  | 81 => ⟨S100000, .i32⟩
  | 82 => ⟨S_, .i32⟩
  | 83 => ⟨S100000, .i32⟩
  | 84 => ⟨S100000, .i32⟩
  | 85 => ⟨S100000x1, .i32⟩
  | 86 => ⟨S2x64x128, .f32⟩
  | 87 => ⟨S2x64x1, .f32⟩
  | 88 => ⟨S_, .f32⟩
  | 89 => ⟨S64x128, .f32⟩
  | 90 => ⟨S_, .f32⟩
  | 91 => ⟨S64x1, .f32⟩
  | 92 => ⟨S_, .f32⟩
  | 93 => ⟨S64x1, .f32⟩
  | 94 => ⟨S64x1, .f32⟩
  | 95 => ⟨S64x128, .f32⟩
  | 96 => ⟨S64x128, .f32⟩
  | 97 => ⟨S1x128, .f32⟩
  | 98 => ⟨S1x128, .f32⟩
  | 99 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S5000x1, .f32⟩
  | .local _ .vmem, ⟨64, _⟩ => ⟨S5000x1, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x1, .f32⟩
  | .local _ .vmem, ⟨72, _⟩ => ⟨S5000x1, .f32⟩
  | .local _ .vmem, ⟨73, _⟩ => ⟨S1x128, .f32⟩
  | .local _ .vmem, ⟨74, _⟩ => ⟨S1x1x128, .f32⟩
  | .local _ .vmem, ⟨75, _⟩ => ⟨S1x1x128, .f32⟩
  | .local _ .vmem, ⟨76, _⟩ => ⟨S1x1x128, .f32⟩
  | .local _ .vmem, ⟨77, _⟩ => ⟨S1x1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x1, .f32⟩
  | .local _ .vmem, ⟨83, _⟩ => ⟨S5000x1, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S128x128, .f32⟩
  | .local _ .vmem, ⟨94, _⟩ => ⟨S1x128, .f32⟩
  | .local _ .vmem, ⟨95, _⟩ => ⟨S128x1, .f32⟩
  | .local _ .vmem, ⟨96, _⟩ => ⟨S1x1, .f32⟩
  | .local _ .vmem, ⟨97, _⟩ => ⟨S5000x1, .f32⟩
  | .local _ .vmem, ⟨98, _⟩ => ⟨S5000x1, .f32⟩
  | .local _ .vmem, ⟨99, _⟩ => ⟨S5000x128, .f32⟩
  | .local _ .vmem, ⟨100, _⟩ => ⟨S5000x128, .f32⟩
  | .local _ .vmem, ⟨101, _⟩ => ⟨S5000x1, .f32⟩
  | .local _ .vmem, ⟨102, _⟩ => ⟨S5000x1, .f32⟩
  | .local _ .vmem, ⟨103, _⟩ => ⟨S5000x1, .i32⟩
  | .local _ .vmem, ⟨104, _⟩ => ⟨S5000x1, .i32⟩
  | .local _ .vmem, ⟨105, _⟩ => ⟨S1x64x128, .f32⟩
  | .local _ .vmem, ⟨106, _⟩ => ⟨S1x64x128, .f32⟩
  | .local _ .vmem, ⟨107, _⟩ => ⟨S1x64x1, .f32⟩
  | .local _ .vmem, ⟨108, _⟩ => ⟨S1x64x1, .f32⟩
  | .local _ .vmem, ⟨109, _⟩ => ⟨S64x128, .f32⟩
  | .local _ .vmem, ⟨110, _⟩ => ⟨S128x128, .f32⟩
  | .local _ .vmem, ⟨111, _⟩ => ⟨S1x128, .f32⟩
  | .local _ .vmem, ⟨112, _⟩ => ⟨S128x128, .f32⟩
  | .local _ .vmem, ⟨113, _⟩ => ⟨S1x128, .f32⟩
  | .local _ .vmem, ⟨114, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29_0 : Ref sig .tc := ⟨.hbm, 57, rfl⟩
abbrev main_v29_1 : Ref sig .tc := ⟨.hbm, 58, rfl⟩
abbrev main_cst_6 : Ref sig .tc := ⟨.hbm, 59, rfl⟩
abbrev main_v30 : Ref sig .tc := ⟨.hbm, 60, rfl⟩
abbrev main_cst_7 : Ref sig .tc := ⟨.hbm, 61, rfl⟩
abbrev main_v31 : Ref sig .tc := ⟨.hbm, 62, rfl⟩
abbrev main_cst_8 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_10 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_c_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69_0 : Ref sig .tc := ⟨.hbm, 107, rfl⟩
abbrev main_v69_1 : Ref sig .tc := ⟨.hbm, 108, rfl⟩
abbrev main_cst_15 : Ref sig .tc := ⟨.hbm, 109, rfl⟩
abbrev main_v70 : Ref sig .tc := ⟨.hbm, 110, rfl⟩
abbrev main_cst_16 : Ref sig .tc := ⟨.hbm, 111, rfl⟩
abbrev main_v71 : Ref sig .tc := ⟨.hbm, 112, rfl⟩
abbrev main_cst_17 : Ref sig .tc := ⟨.hbm, 113, rfl⟩
abbrev main_v72 : Ref sig .tc := ⟨.hbm, 114, rfl⟩
abbrev main_v73 : Ref sig .tc := ⟨.hbm, 115, rfl⟩
abbrev main_cst_18 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_19 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_21 : Ref sig .tc := ⟨.hbm, 144, rfl⟩
abbrev main_v99 : Ref sig .tc := ⟨.hbm, 145, rfl⟩
abbrev main_v100 : Ref sig .tc := ⟨.hbm, 146, rfl⟩
abbrev main_c_22 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_23 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109_0 : Ref sig .tc := ⟨.hbm, 157, rfl⟩
abbrev main_v109_1 : Ref sig .tc := ⟨.hbm, 158, rfl⟩
abbrev main_cst_24 : Ref sig .tc := ⟨.hbm, 159, rfl⟩
abbrev main_v110 : Ref sig .tc := ⟨.hbm, 160, rfl⟩
abbrev main_cst_25 : Ref sig .tc := ⟨.hbm, 161, rfl⟩
abbrev main_v111 : Ref sig .tc := ⟨.hbm, 162, rfl⟩
abbrev main_cst_26 : Ref sig .tc := ⟨.hbm, 163, rfl⟩
abbrev main_v112 : Ref sig .tc := ⟨.hbm, 164, rfl⟩
abbrev main_v113 : Ref sig .tc := ⟨.hbm, 165, rfl⟩
abbrev main_cst_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_28 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_30 : Ref sig .tc := ⟨.hbm, 191, rfl⟩
abbrev main_v136 : Ref sig .tc := ⟨.hbm, 192, rfl⟩
abbrev main_cst_31 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_32 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_33 : Ref sig .tc := ⟨.hbm, 205, rfl⟩
abbrev main_c_34 : Ref sig .tc := ⟨.hbm, 206, rfl⟩
abbrev main_call1_v0 : Ref sig .tc := ⟨.hbm, 207, rfl⟩
abbrev main_call1_v1 : Ref sig .tc := ⟨.hbm, 208, rfl⟩
abbrev main_call1_v2 : Ref sig .tc := ⟨.hbm, 209, rfl⟩
abbrev main_call1_v3 : Ref sig .tc := ⟨.hbm, 210, rfl⟩
abbrev main_call1_v4 : Ref sig .tc := ⟨.hbm, 211, rfl⟩
abbrev main_v147 : Ref sig .tc := ⟨.hbm, 212, rfl⟩
abbrev main_v148 : Ref sig .tc := ⟨.hbm, 213, rfl⟩
abbrev main_v149_0 : Ref sig .tc := ⟨.hbm, 214, rfl⟩
abbrev main_v149_1 : Ref sig .tc := ⟨.hbm, 215, rfl⟩
abbrev main_cst_35 : Ref sig .tc := ⟨.hbm, 216, rfl⟩
abbrev main_v150 : Ref sig .tc := ⟨.hbm, 217, rfl⟩
abbrev main_cst_36 : Ref sig .tc := ⟨.hbm, 218, rfl⟩
abbrev main_v151 : Ref sig .tc := ⟨.hbm, 219, rfl⟩
abbrev main_cst_37 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg4_1 : Ref sig .tc := ⟨.vmem, 75, rfl⟩
abbrev cc7_stg5_0 : Ref sig .tc := ⟨.vmem, 76, rfl⟩
abbrev cc7_stg5_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg6_0 : Ref sig .tc := ⟨.vmem, 87, rfl⟩
abbrev cc8_stg6_1 : Ref sig .tc := ⟨.vmem, 88, rfl⟩
abbrev cc8_stg7_0 : Ref sig .tc := ⟨.vmem, 89, rfl⟩
abbrev cc8_stg7_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg5_0 : Ref sig .tc := ⟨.vmem, 97, rfl⟩
abbrev cc9_stg5_1 : Ref sig .tc := ⟨.vmem, 98, rfl⟩
abbrev cc10_stg0_0 : Ref sig .tc := ⟨.vmem, 99, rfl⟩
abbrev cc10_stg0_1 : Ref sig .tc := ⟨.vmem, 100, rfl⟩
abbrev cc10_stg1_0 : Ref sig .tc := ⟨.vmem, 101, rfl⟩
abbrev cc10_stg1_1 : Ref sig .tc := ⟨.vmem, 102, rfl⟩
abbrev cc10_stg2_0 : Ref sig .tc := ⟨.vmem, 103, rfl⟩
abbrev cc10_stg2_1 : Ref sig .tc := ⟨.vmem, 104, rfl⟩
abbrev cc10_stg3_0 : Ref sig .tc := ⟨.vmem, 105, rfl⟩
abbrev cc10_stg3_1 : Ref sig .tc := ⟨.vmem, 106, rfl⟩
abbrev cc10_stg4_0 : Ref sig .tc := ⟨.vmem, 107, rfl⟩
abbrev cc10_stg4_1 : Ref sig .tc := ⟨.vmem, 108, rfl⟩
abbrev cc11_stg0_0 : Ref sig .tc := ⟨.vmem, 109, rfl⟩
abbrev cc11_stg1_0 : Ref sig .tc := ⟨.vmem, 110, rfl⟩
abbrev cc11_stg2_0 : Ref sig .tc := ⟨.vmem, 111, rfl⟩
abbrev cc11_stg3_0 : Ref sig .tc := ⟨.vmem, 112, rfl⟩
abbrev cc11_stg4_0 : Ref sig .tc := ⟨.vmem, 113, rfl⟩
abbrev cc11_stg5_0 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem6_1 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc6_sem3_0 : DmaSem sig := 65
abbrev cc6_sem3_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc7_sem3_0 : DmaSem sig := 73
abbrev cc7_sem4_0 : DmaSem sig := 74
abbrev cc7_sem4_1 : DmaSem sig := 75
abbrev cc7_sem5_0 : DmaSem sig := 76
abbrev cc7_sem5_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem4_0 : DmaSem sig := 85
abbrev cc8_sem5_0 : DmaSem sig := 86
abbrev cc8_sem6_0 : DmaSem sig := 87
abbrev cc8_sem6_1 : DmaSem sig := 88
abbrev cc8_sem7_0 : DmaSem sig := 89
abbrev cc8_sem7_1 : DmaSem sig := 90
abbrev cc9_sem0_0 : DmaSem sig := 91
abbrev cc9_sem0_1 : DmaSem sig := 92
abbrev cc9_sem1_0 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem5_1 : DmaSem sig := 98
abbrev cc10_sem0_0 : DmaSem sig := 99
abbrev cc10_sem0_1 : DmaSem sig := 100
abbrev cc10_sem1_0 : DmaSem sig := 101
abbrev cc10_sem1_1 : DmaSem sig := 102
abbrev cc10_sem2_0 : DmaSem sig := 103
abbrev cc10_sem2_1 : DmaSem sig := 104
abbrev cc10_sem3_0 : DmaSem sig := 105
abbrev cc10_sem3_1 : DmaSem sig := 106
abbrev cc10_sem4_0 : DmaSem sig := 107
abbrev cc10_sem4_1 : DmaSem sig := 108
abbrev cc11_sem0_0 : DmaSem sig := 109
abbrev cc11_sem1_0 : DmaSem sig := 110
abbrev cc11_sem2_0 : DmaSem sig := 111
abbrev cc11_sem3_0 : DmaSem sig := 112
abbrev cc11_sem4_0 : DmaSem sig := 113
abbrev cc11_sem5_0 : DmaSem sig := 114

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![2, 10], ![false, false]⟩

def cc7_transform_0 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_1 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_2 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x1x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![2, 10], ![false, false]⟩

def cc10_transform_0 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_1 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_2 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_4 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S5000x1 .i32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x64x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev stage10_4 : Fin 2 → Memref sig .tc .vmem S1x64x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S64x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  bcast_S_S2x1600000 : S_.BroadcastsInDim S2x1600000 (![] : Fin 0 → Fin S2x1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  reducesTo_S2x1x128_S128_d0_1 : S2x1x128.ReducesTo [0, 1] S128
  h_S_ : 0 < S_.numel
  bcast_S_S128 : S_.BroadcastsInDim S128 (![] : Fin 0 → Fin S128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  reducesTo_S100000x1_S1_d0 : S100000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  reduces_S5000x64_S64 : S5000x64.Reduces [0] S64
  shapeCasts_S64_S64x1 : S64.ShapeCasts S64x1
  reducesTo_S2x64x128_S64x128_d0 : S2x64x128.ReducesTo [0] S64x128
  reducesTo_S2x64x1_S64x1_d0 : S2x64x1.ReducesTo [0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  dot_S5000x64_S5000x128_S64x128_0_0_1_1_n_n_wf : DotDims.WF S5000x64 S5000x128 S64x128 [0] [0] [1] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x128.size a ≤ S2x1x128.size a
  hwx4_4 : ∀ i : grid4.Coords, EltTy.bits .f32 = 32 ∨ (Rect.block (s := S2x1x128) S1x1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x128.size a ≤ S2x1x128.size a
  hwx4_5 : ∀ i : grid4.Coords, EltTy.bits .f32 = 32 ∨ (Rect.block (s := S2x1x128) S1x1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x128.size a ≤ S2x1x128.size a
  hwx7_4 : ∀ i : grid7.Coords, EltTy.bits .f32 = 32 ∨ (Rect.block (s := S2x1x128) S1x1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S2x1x128.size a
  hwx7_5 : ∀ i : grid7.Coords, EltTy.bits .f32 = 32 ∨ (Rect.block (s := S2x1x128) S1x1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S100000x128.size a
  hwx8_7 : ∀ i : grid8.Coords, EltTy.bits .f32 = 32 ∨ (Rect.block (s := S100000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x1.size a ≤ S128x1.size a
  hwx9_3 : ∀ i : grid9.Coords, EltTy.bits .f32 = 32 ∨ (Rect.block (s := S128x1) S128x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x1.size a ≤ S100000x1.size a
  hwx9_5 : ∀ i : grid9.Coords, EltTy.bits .f32 = 32 ∨ (Rect.block (s := S100000x1) S5000x1.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .i32 = 32 ∨ (Rect.block (s := S100000x1) S5000x1.size (cc10_transform_2 i) (hinb10_2 i)).WholeWords (EltTy.packing .i32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x64x128.size a ≤ S2x64x128.size a
  hwx10_3 : ∀ i : grid10.Coords, EltTy.bits .f32 = 32 ∨ (Rect.block (s := S2x64x128) S1x64x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x64x1.size a ≤ S2x64x1.size a
  hwx10_4 : ∀ i : grid10.Coords, EltTy.bits .f32 = 32 ∨ (Rect.block (s := S2x64x1) S1x64x1.size (cc10_transform_4 i) (hinb10_4 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S64x128.size a ≤ S64x128.size a
  hwx11_0 : ∀ i : grid11.Coords, EltTy.bits .f32 = 32 ∨ (Rect.block (s := S64x128) S64x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x128.size a ≤ S64x128.size a
  hwx11_5 : ∀ i : grid11.Coords, EltTy.bits .f32 = 32 ∨ (Rect.block (s := S64x128) S64x128.size (cc11_transform_5 i) (hinb11_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29_0) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29_1) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69_0) S1x1x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v69_1) S1x1x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v52) S5000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v92) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v92) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v108) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109_0) S1x1x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v109_1) S1x1x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v108) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v98) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v95) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v130) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v131) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v92) S5000x128.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v132) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v132) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S128x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v134) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v135) S5000x1.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v132) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v146) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v148) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v149_0) S1x64x128.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v149_1) S1x64x1.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v155) S64x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg11) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v156) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg13) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v157) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v158) S64x128.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩
abbrev S64x128 : Shape := ⟨2, ![64, 128]⟩
abbrev S64x1 : Shape := ⟨2, ![64, 1]⟩

abbrev nBuf : Space → Nat
  | .hbm => 282
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x128, .f32⟩
  | 14 => ⟨S128, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S1x128x128, .f32⟩
  | 50 => ⟨S128x128, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x1, .f32⟩
  | 109 => ⟨S1x1, .f32⟩
  | 110 => ⟨S100000x1, .f32⟩
  | 111 => ⟨S100000x1, .f32⟩
  | 112 => ⟨S_, .f32⟩
  | 113 => ⟨S1, .f32⟩
  | 114 => ⟨S_, .f32⟩
  | 115 => ⟨S1, .f32⟩
  | 116 => ⟨S1, .f32⟩
  | 117 => ⟨S1x1, .f32⟩
  | 118 => ⟨S100000x1, .f32⟩
  | 119 => ⟨S100000x1, .f32⟩
  | 120 => ⟨S100000x1, .f32⟩
  | 121 => ⟨S_, .f32⟩
  | 122 => ⟨S1, .f32⟩
  | 123 => ⟨S1x1, .f32⟩
  | 124 => ⟨S100000x1, .f32⟩
  | 125 => ⟨S100000x1, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S64x128, .f32⟩
  | 2 => ⟨S100000x1, .i32⟩
  | 3 => ⟨S64x128, .f32⟩
  | 4 => ⟨S_, .f32⟩
  | 5 => ⟨S100000x1, .f32⟩
  | 6 => ⟨S_, .f32⟩
  | 7 => ⟨S64x1, .f32⟩
  | 8 => ⟨S100000x1, .i32⟩
  | 9 => ⟨S64x1, .f32⟩
  | 10 => ⟨S_, .f32⟩
  | 11 => ⟨S64x1, .f32⟩
  | 12 => ⟨S64x1, .f32⟩
  | 13 => ⟨S64x128, .f32⟩
  | 14 => ⟨S64x128, .f32⟩
  | 15 => ⟨S64x128, .f32⟩
  | 16 => ⟨S1x128, .f32⟩
  | 17 => ⟨S64x128, .f32⟩
  | 18 => ⟨S64x128, .f32⟩
  | 19 => ⟨S_, .f32⟩
  | 20 => ⟨S64x128, .f32⟩
  | 21 => ⟨S64x128, .f32⟩
  | 22 => ⟨S64x128, .f32⟩
  | 23 => ⟨S1x128, .f32⟩
  | 24 => ⟨S64x128, .f32⟩
  | 25 => ⟨S64x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call0_cst : Ref sig .tc := ⟨.hbm, 106, rfl⟩
abbrev main_call0_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_12 : Ref sig .tc := ⟨.hbm, 112, rfl⟩
abbrev main_v81 : Ref sig .tc := ⟨.hbm, 113, rfl⟩
abbrev main_v82 : Ref sig .tc := ⟨.hbm, 114, rfl⟩
abbrev main_c_13 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_14 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_17 : Ref sig .tc := ⟨.hbm, 141, rfl⟩
abbrev main_v105 : Ref sig .tc := ⟨.hbm, 142, rfl⟩
abbrev main_cst_18 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_19 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call1_cst : Ref sig .tc := ⟨.hbm, 166, rfl⟩
abbrev main_call1_v0 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_20 : Ref sig .tc := ⟨.hbm, 173, rfl⟩
abbrev main_v132 : Ref sig .tc := ⟨.hbm, 174, rfl⟩
abbrev main_v133 : Ref sig .tc := ⟨.hbm, 175, rfl⟩
abbrev main_c_21 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_22 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_23 : Ref sig .tc := ⟨.hbm, 193, rfl⟩
abbrev main_v149 : Ref sig .tc := ⟨.hbm, 194, rfl⟩
abbrev main_cst_24 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_25 : Ref sig .tc := ⟨.hbm, 202, rfl⟩
abbrev main_v156 : Ref sig .tc := ⟨.hbm, 203, rfl⟩
abbrev main_cst_26 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_27 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_call2_cst : Ref sig .tc := ⟨.hbm, 227, rfl⟩
abbrev main_call2_v0 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_28 : Ref sig .tc := ⟨.hbm, 240, rfl⟩
abbrev main_v189 : Ref sig .tc := ⟨.hbm, 241, rfl⟩
abbrev main_cst_29 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_cst_30 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_31 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_32 : Ref sig .tc := ⟨.hbm, 260, rfl⟩
abbrev main_v205 : Ref sig .tc := ⟨.hbm, 261, rfl⟩
abbrev main_cst_33 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_34 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_call3_cst : Ref sig .tc := ⟨.hbm, 275, rfl⟩
abbrev main_call3_v0 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  bcast_S_S1 : S_.BroadcastsInDim S1 (![] : Fin 0 → Fin S1.rank)
  bcast_S100000x1_S100000x128_0_1 : S100000x1.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x128_S64x128_1_0_0_1_n_n_wf : DotDims.WF S64x128 S128x128 S64x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.RefRunOps.lean ====
import proofs.«401495_j83210696393026_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem wsub {W : List (Ref sig .tc)} (y : Ref sig .tc) {op : HloOp τ sig (Elt F)}
    (hw : op.writes = ({Proc.devRef .tc y} : Finset (DevRef τ sig))) (hy : y ∈ W) :
    op.writes ⊆ (W.map (Proc.devRef (τ := τ) .tc)).toFinset := by
  rw [hw, Finset.singleton_subset_iff, List.mem_toFinset]
  exact List.mem_map_of_mem hy

/-- Every operation of the segment writes inside the list W of references. -/
abbrev Writes (seg : List (HloOp τ sig (Elt F))) (W : List (Ref sig .tc)) : Prop :=
  seg.Forall fun op => op.writes ⊆ (W.map (Proc.devRef (τ := τ) .tc)).toFinset

abbrev seg0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]
abbrev W0 : List (Ref sig .tc) := [main_v0, main_v1, main_v2]
theorem seg0_writes : Writes (F := F) seg0 W0 := by
  repeat' apply And.intro
  all_goals exact wsub _ rfl (by decide)

abbrev seg1 : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]
abbrev W1 : List (Ref sig .tc) := [main_v3, main_v4, main_v5]
theorem seg1_writes : Writes (F := F) seg1 W1 := by
  repeat' apply And.intro
  all_goals exact wsub _ rfl (by decide)

abbrev seg2 : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)) ]
abbrev W2 : List (Ref sig .tc) := [main_v6, main_cst, main_v7, main_cst_0, main_v8, main_v9, main_v10, main_v11]
theorem seg2_writes : Writes (F := F) seg2 W2 := by
  repeat' apply And.intro
  all_goals exact wsub _ rfl (by decide)

abbrev seg3 : List (HloOp τ sig (Elt F)) :=
  [ nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)) ]
abbrev W3 : List (Ref sig .tc) := [main_c, main_v12, main_v13, main_c_1, main_v14, main_v15, main_v16, main_v17]
theorem seg3_writes : Writes (F := F) seg3 W3 := by
  repeat' apply And.intro
  all_goals exact wsub _ rfl (by decide)

abbrev seg4 : List (HloOp τ sig (Elt F)) :=
  [ binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)) ]
abbrev W4 : List (Ref sig .tc) := [main_v18, main_c_2, main_v19, main_v20, main_c_3, main_v21, main_v22, main_v23, main_v24, main_v25, main_v26]
theorem seg4_writes : Writes (F := F) seg4 W4 := by
  repeat' apply And.intro
  all_goals exact wsub _ rfl (by decide)

abbrev seg5 : List (HloOp τ sig (Elt F)) :=
  [ unary main_v26 main_v27 (broadcastInDim S1700000x1 ![0] bcast_S1700000_S1700000x1_0 : (⟨S1700000, .f32⟩ : BufTy).Contents (Elt F) → (⟨S1700000x1, .f32⟩ : BufTy).Contents (Elt F)),
    unary main_arg3 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v28 main_v29 rfl shapeCasts_S1x128x128_S128x128,
    binary main_arg0 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ]
abbrev W5 : List (Ref sig .tc) := [main_v27, main_v28, main_v29, main_v30, main_c_4, main_v31, main_v32, main_c_5, main_v33, main_v34, main_v35, main_v36, main_v37]
theorem seg5_writes : Writes (F := F) seg5 W5 := by
  repeat' apply And.intro
  all_goals exact wsub _ rfl (by decide)

abbrev seg6 : List (HloOp τ sig (Elt F)) :=
  [ unary main_v27 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v43 ((extractStridedSlice S1x128 ![0, 0] · slices_S3x128_S1x128_0_0) : (⟨S3x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v42 main_v46 main_v47 (addf : (⟨S100000x128, .f32⟩ : BufTy).Contents (Elt F) → (⟨S100000x128, .f32⟩ : BufTy).Contents (Elt F) → (⟨S100000x128, .f32⟩ : BufTy).Contents (Elt F)) ]
abbrev W6 : List (Ref sig .tc) := [main_v38, main_v39, main_cst_6, main_v40, main_v41, main_v42, main_v43, main_v44, main_v45, main_v46, main_v47]
theorem seg6_writes : Writes (F := F) seg6 W6 := by
  repeat' apply And.intro
  all_goals exact wsub _ rfl (by decide)

abbrev seg7 : List (HloOp τ sig (Elt F)) :=
  [ nullary main_cst_7 (constant S_ .f32 0x00000000#32),
    binary main_v47 main_cst_7 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_8 (constant S_ .f32 0x47C35000#32),
    unary main_cst_8 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v47 main_v52 main_v53 (subf : (⟨S100000x128, .f32⟩ : BufTy).Contents (Elt F) → (⟨S100000x128, .f32⟩ : BufTy).Contents (Elt F) → (⟨S100000x128, .f32⟩ : BufTy).Contents (Elt F)) ]
abbrev W7 : List (Ref sig .tc) := [main_cst_7, main_v48, main_cst_8, main_v49, main_v50, main_v51, main_v52, main_v53]
theorem seg7_writes : Writes (F := F) seg7 W7 := by
  repeat' apply And.intro
  all_goals exact wsub _ rfl (by decide)

abbrev seg8 : List (HloOp τ sig (Elt F)) :=
  [ binary main_v53 main_v53 main_v54 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v54 main_cst_9 main_v55 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v50 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v47 main_v59 main_v60 (subf : (⟨S100000x128, .f32⟩ : BufTy).Contents (Elt F) → (⟨S100000x128, .f32⟩ : BufTy).Contents (Elt F) → (⟨S100000x128, .f32⟩ : BufTy).Contents (Elt F)) ]
abbrev W8 : List (Ref sig .tc) := [main_v54, main_cst_9, main_v55, main_cst_10, main_v56, main_v57, main_v58, main_v59, main_v60]
theorem seg8_writes : Writes (F := F) seg8 W8 := by
  repeat' apply And.intro
  all_goals exact wsub _ rfl (by decide)

abbrev seg9 : List (HloOp τ sig (Elt F)) :=
  [ nullary main_cst_11 (constant S_ .f32 0x3727C5AC#32),
    unary main_cst_11 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg5 main_v67 ((extractStridedSlice S1x128 ![0, 0] · slices_S3x128_S1x128_0_0) : (⟨S3x128, .f32⟩ : BufTy).Contents (Elt F) → (⟨S1x128, .f32⟩ : BufTy).Contents (Elt F)),
    reshape main_v67 main_v68 rfl shapeCasts_S1x128_S128,
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v66 main_v70 main_v71 (mulf : (⟨S100000x128, .f32⟩ : BufTy).Contents (Elt F) → (⟨S100000x128, .f32⟩ : BufTy).Contents (Elt F) → (⟨S100000x128, .f32⟩ : BufTy).Contents (Elt F)) ]
abbrev W9 : List (Ref sig .tc) := [main_cst_11, main_v61, main_v62, main_v63, main_v64, main_v65, main_v66, main_v67, main_v68, main_v69, main_v70, main_v71]
theorem seg9_writes : Writes (F := F) seg9 W9 := by
  repeat' apply And.intro
  all_goals exact wsub _ rfl (by decide)

abbrev seg10 : List (HloOp τ sig (Elt F)) :=
  [ unary main_arg6 main_v72 ((extractStridedSlice S1x128 ![0, 0] · slices_S3x128_S1x128_0_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v71 main_v75 main_v76 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v76) (TRef.of (T := ⟨S100000x128, .f32⟩) main_call0_v0) (TRef.of (T := ⟨S100000x128, .f32⟩) main_v77) maximumf ]
abbrev W10 : List (Ref sig .tc) := [main_v72, main_v73, main_v74, main_v75, main_v76, main_call0_cst, main_call0_v0, main_v77]
theorem seg10_writes : Writes (F := F) seg10 W10 := by
  repeat' apply And.intro
  all_goals exact wsub _ rfl (by decide)

abbrev seg11 : List (HloOp τ sig (Elt F)) :=
  [ unary main_arg3 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v78 main_v79 rfl shapeCasts_S1x128x128_S128x128,
    binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v81 (broadcastInDim S1700000 ![] bcast_S_S1700000 : (⟨S_, .i32⟩ : BufTy).Contents (Elt F) → (⟨S1700000, .i32⟩ : BufTy).Contents (Elt F)),
    binary main_v3 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v83 (broadcastInDim S1700000 ![] bcast_S_S1700000 : (⟨S_, .i32⟩ : BufTy).Contents (Elt F) → (⟨S1700000, .i32⟩ : BufTy).Contents (Elt F)),
    binary main_v3 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v3 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v80 main_v86 main_v87 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ]
abbrev W11 : List (Ref sig .tc) := [main_v78, main_v79, main_v80, main_c_12, main_v81, main_v82, main_c_13, main_v83, main_v84, main_v85, main_v86, main_v87]
theorem seg11_writes : Writes (F := F) seg11 W11 := by
  repeat' apply And.intro
  all_goals exact wsub _ rfl (by decide)

abbrev seg12 : List (HloOp τ sig (Elt F)) :=
  [ unary main_v27 main_v88 (broadcastInDim S1700000x128 ![0, 1] bcast_S1700000x1_S1700000x128_0_1 : (⟨S1700000x1, .f32⟩ : BufTy).Contents (Elt F) → (⟨S1700000x128, .f32⟩ : BufTy).Contents (Elt F)),
    binary main_v87 main_v88 main_v89 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v90 (broadcastInDim S100000x128 ![] bcast_S_S100000x128 : (⟨S_, .f32⟩ : BufTy).Contents (Elt F) → (⟨S100000x128, .f32⟩ : BufTy).Contents (Elt F)),
    unary main_v6 main_v91 (broadcastInDim S1700000x1 ![0] bcast_S1700000_S1700000x1_0 : (⟨S1700000, .i32⟩ : BufTy).Contents (Elt F) → (⟨S1700000x1, .i32⟩ : BufTy).Contents (Elt F)),
    ternary main_v90 main_v91 main_v89 main_v92 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v93 ((extractStridedSlice S1x128 ![1, 0] · slices_S3x128_S1x128_1_0) : (⟨S3x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v92 main_v96 main_v97 (addf : (⟨S100000x128, .f32⟩ : BufTy).Contents (Elt F) → (⟨S100000x128, .f32⟩ : BufTy).Contents (Elt F) → (⟨S100000x128, .f32⟩ : BufTy).Contents (Elt F)) ]
abbrev W12 : List (Ref sig .tc) := [main_v88, main_v89, main_cst_14, main_v90, main_v91, main_v92, main_v93, main_v94, main_v95, main_v96, main_v97]
theorem seg12_writes : Writes (F := F) seg12 W12 := by
  repeat' apply And.intro
  all_goals exact wsub _ rfl (by decide)

abbrev seg13 : List (HloOp τ sig (Elt F)) :=
  [ nullary main_cst_15 (constant S_ .f32 0x00000000#32),
    binary main_v97 main_cst_15 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v97 main_v102 main_v103 (subf : (⟨S100000x128, .f32⟩ : BufTy).Contents (Elt F) → (⟨S100000x128, .f32⟩ : BufTy).Contents (Elt F) → (⟨S100000x128, .f32⟩ : BufTy).Contents (Elt F)) ]
abbrev W13 : List (Ref sig .tc) := [main_cst_15, main_v98, main_cst_16, main_v99, main_v100, main_v101, main_v102, main_v103]
theorem seg13_writes : Writes (F := F) seg13 W13 := by
  repeat' apply And.intro
  all_goals exact wsub _ rfl (by decide)

abbrev seg14 : List (HloOp τ sig (Elt F)) :=
  [ binary main_v103 main_v103 main_v104 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v104 main_cst_17 main_v105 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v106 (broadcastInDim S128 ![] bcast_S_S128 : (⟨S_, .f32⟩ : BufTy).Contents (Elt F) → (⟨S128, .f32⟩ : BufTy).Contents (Elt F)),
    binary main_v105 main_v106 main_v107 (Host.divf : (⟨S128, .f32⟩ : BufTy).Contents (Elt F) → (⟨S128, .f32⟩ : BufTy).Contents (Elt F) → (⟨S128, .f32⟩ : BufTy).Contents (Elt F)),
    unary main_v100 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v97 main_v109 main_v110 (subf : (⟨S100000x128, .f32⟩ : BufTy).Contents (Elt F) → (⟨S100000x128, .f32⟩ : BufTy).Contents (Elt F) → (⟨S100000x128, .f32⟩ : BufTy).Contents (Elt F)) ]
abbrev W14 : List (Ref sig .tc) := [main_v104, main_cst_17, main_v105, main_cst_18, main_v106, main_v107, main_v108, main_v109, main_v110]
theorem seg14_writes : Writes (F := F) seg14 W14 := by
  repeat' apply And.intro
  all_goals exact wsub _ rfl (by decide)

abbrev seg15 : List (HloOp τ sig (Elt F)) :=
  [ nullary main_cst_19 (constant S_ .f32 0x3727C5AC#32),
    unary main_cst_19 main_v111 (broadcastInDim S128 ![] bcast_S_S128 : (⟨S_, .f32⟩ : BufTy).Contents (Elt F) → (⟨S128, .f32⟩ : BufTy).Contents (Elt F)),
    binary main_v107 main_v111 main_v112 (addf : (⟨S128, .f32⟩ : BufTy).Contents (Elt F) → (⟨S128, .f32⟩ : BufTy).Contents (Elt F) → (⟨S128, .f32⟩ : BufTy).Contents (Elt F)),
    unary main_v112 main_v113 (Host.rsqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v110 main_v115 main_v116 (mulf : (⟨S100000x128, .f32⟩ : BufTy).Contents (Elt F) → (⟨S100000x128, .f32⟩ : BufTy).Contents (Elt F) → (⟨S100000x128, .f32⟩ : BufTy).Contents (Elt F)),
    unary main_arg5 main_v117 ((extractStridedSlice S1x128 ![1, 0] · slices_S3x128_S1x128_1_0) : (⟨S3x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v116 main_v120 main_v121 (mulf : (⟨S100000x128, .f32⟩ : BufTy).Contents (Elt F) → (⟨S100000x128, .f32⟩ : BufTy).Contents (Elt F) → (⟨S100000x128, .f32⟩ : BufTy).Contents (Elt F)) ]
abbrev W15 : List (Ref sig .tc) := [main_cst_19, main_v111, main_v112, main_v113, main_v114, main_v115, main_v116, main_v117, main_v118, main_v119, main_v120, main_v121]
theorem seg15_writes : Writes (F := F) seg15 W15 := by
  repeat' apply And.intro
  all_goals exact wsub _ rfl (by decide)

abbrev seg16 : List (HloOp τ sig (Elt F)) :=
  [ unary main_arg6 main_v122 ((extractStridedSlice S1x128 ![1, 0] · slices_S3x128_S1x128_1_0) : (⟨S3x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v121 main_v125 main_v126 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v126) (TRef.of (T := ⟨S100000x128, .f32⟩) main_call1_v0) (TRef.of (T := ⟨S100000x128, .f32⟩) main_v127) maximumf,
    binary main_v127 main_v77 main_v128 (addf : (⟨S100000x128, .f32⟩ : BufTy).Contents (Elt F) → (⟨S100000x128, .f32⟩ : BufTy).Contents (Elt F) → (⟨S100000x128, .f32⟩ : BufTy).Contents (Elt F)) ]
abbrev W16 : List (Ref sig .tc) := [main_v122, main_v123, main_v124, main_v125, main_v126, main_call1_cst, main_call1_v0, main_v127, main_v128]
theorem seg16_writes : Writes (F := F) seg16 W16 := by
  repeat' apply And.intro
  all_goals exact wsub _ rfl (by decide)

abbrev seg17 : List (HloOp τ sig (Elt F)) :=
  [ unary main_arg3 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v129 main_v130 rfl shapeCasts_S1x128x128_S128x128,
    binary main_v128 main_v130 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_20 (constantI S_ 32 0#32),
    unary main_c_20 main_v132 (broadcastInDim S1700000 ![] bcast_S_S1700000 : (⟨S_, .i32⟩ : BufTy).Contents (Elt F) → (⟨S1700000, .i32⟩ : BufTy).Contents (Elt F)),
    binary main_v3 main_v132 main_v133 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v134 (broadcastInDim S1700000 ![] bcast_S_S1700000 : (⟨S_, .i32⟩ : BufTy).Contents (Elt F) → (⟨S1700000, .i32⟩ : BufTy).Contents (Elt F)),
    binary main_v3 main_v134 main_v135 (addi : (⟨S1700000, .i32⟩ : BufTy).Contents (Elt F) → (⟨S1700000, .i32⟩ : BufTy).Contents (Elt F) → (⟨S1700000, .i32⟩ : BufTy).Contents (Elt F)),
    ternary main_v133 main_v135 main_v3 main_v136 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v136 main_v137 (broadcastInDim S1700000x1 ![0] bcast_S1700000_S1700000x1_0 : (⟨S1700000, .i32⟩ : BufTy).Contents (Elt F) → (⟨S1700000x1, .i32⟩ : BufTy).Contents (Elt F)),
    binary main_v131 main_v137 main_v138 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v139 (broadcastInDim S1700000x128 ![0, 1] bcast_S1700000x1_S1700000x128_0_1 : (⟨S1700000x1, .f32⟩ : BufTy).Contents (Elt F) → (⟨S1700000x128, .f32⟩ : BufTy).Contents (Elt F)),
    binary main_v138 main_v139 main_v140 (mulf : (⟨S1700000x128, .f32⟩ : BufTy).Contents (Elt F) → (⟨S1700000x128, .f32⟩ : BufTy).Contents (Elt F) → (⟨S1700000x128, .f32⟩ : BufTy).Contents (Elt F)) ]
abbrev W17 : List (Ref sig .tc) := [main_v129, main_v130, main_v131, main_c_20, main_v132, main_v133, main_c_21, main_v134, main_v135, main_v136, main_v137, main_v138, main_v139, main_v140]
theorem seg17_writes : Writes (F := F) seg17 W17 := by
  repeat' apply And.intro
  all_goals exact wsub _ rfl (by decide)

abbrev seg18 : List (HloOp τ sig (Elt F)) :=
  [ nullary main_cst_22 (constant S_ .f32 0x00000000#32),
    unary main_cst_22 main_v141 (broadcastInDim S100000x128 ![] bcast_S_S100000x128 : (⟨S_, .f32⟩ : BufTy).Contents (Elt F) → (⟨S100000x128, .f32⟩ : BufTy).Contents (Elt F)),
    unary main_v6 main_v142 (broadcastInDim S1700000x1 ![0] bcast_S1700000_S1700000x1_0 : (⟨S1700000, .i32⟩ : BufTy).Contents (Elt F) → (⟨S1700000x1, .i32⟩ : BufTy).Contents (Elt F)),
    ternary main_v141 main_v142 main_v140 main_v143 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v144 ((extractStridedSlice S1x128 ![2, 0] · slices_S3x128_S1x128_2_0) : (⟨S3x128, .f32⟩ : BufTy).Contents (Elt F) → (⟨S1x128, .f32⟩ : BufTy).Contents (Elt F)),
    reshape main_v144 main_v145 rfl shapeCasts_S1x128_S128,
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v143 main_v147 main_v148 (addf : (⟨S100000x128, .f32⟩ : BufTy).Contents (Elt F) → (⟨S100000x128, .f32⟩ : BufTy).Contents (Elt F) → (⟨S100000x128, .f32⟩ : BufTy).Contents (Elt F)) ]
abbrev W18 : List (Ref sig .tc) := [main_cst_22, main_v141, main_v142, main_v143, main_v144, main_v145, main_v146, main_v147, main_v148]
theorem seg18_writes : Writes (F := F) seg18 W18 := by
  repeat' apply And.intro
  all_goals exact wsub _ rfl (by decide)

abbrev seg19 : List (HloOp τ sig (Elt F)) :=
  [ nullary main_cst_23 (constant S_ .f32 0x00000000#32),
    binary main_v148 main_cst_23 main_v149 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v150 (broadcastInDim S128 ![] bcast_S_S128 : (⟨S_, .f32⟩ : BufTy).Contents (Elt F) → (⟨S128, .f32⟩ : BufTy).Contents (Elt F)),
    binary main_v149 main_v150 main_v151 (Host.divf : (⟨S128, .f32⟩ : BufTy).Contents (Elt F) → (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v148 main_v153 main_v154 (subf : (⟨S100000x128, .f32⟩ : BufTy).Contents (Elt F) → (⟨S100000x128, .f32⟩ : BufTy).Contents (Elt F) → (⟨S100000x128, .f32⟩ : BufTy).Contents (Elt F)) ]
abbrev W19 : List (Ref sig .tc) := [main_cst_23, main_v149, main_cst_24, main_v150, main_v151, main_v152, main_v153, main_v154]
theorem seg19_writes : Writes (F := F) seg19 W19 := by
  repeat' apply And.intro
  all_goals exact wsub _ rfl (by decide)

abbrev seg20 : List (HloOp τ sig (Elt F)) :=
  [ binary main_v154 main_v154 main_v155 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v155 main_cst_25 main_v156 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v157 (broadcastInDim S128 ![] bcast_S_S128 : (⟨S_, .f32⟩ : BufTy).Contents (Elt F) → (⟨S128, .f32⟩ : BufTy).Contents (Elt F)),
    binary main_v156 main_v157 main_v158 (Host.divf : (⟨S128, .f32⟩ : BufTy).Contents (Elt F) → (⟨S128, .f32⟩ : BufTy).Contents (Elt F) → (⟨S128, .f32⟩ : BufTy).Contents (Elt F)),
    unary main_v151 main_v159 (broadcastInDim S1x128 ![1] bcast_S128_S1x128_1 : (⟨S128, .f32⟩ : BufTy).Contents (Elt F) → (⟨S1x128, .f32⟩ : BufTy).Contents (Elt F)),
    unary main_v159 main_v160 (broadcastInDim S100000x128 ![0, 1] bcast_S1x128_S100000x128_0_1 : (⟨S1x128, .f32⟩ : BufTy).Contents (Elt F) → (⟨S100000x128, .f32⟩ : BufTy).Contents (Elt F)),
    binary main_v148 main_v160 main_v161 (subf : (⟨S100000x128, .f32⟩ : BufTy).Contents (Elt F) → (⟨S100000x128, .f32⟩ : BufTy).Contents (Elt F) → (⟨S100000x128, .f32⟩ : BufTy).Contents (Elt F)) ]
abbrev W20 : List (Ref sig .tc) := [main_v155, main_cst_25, main_v156, main_cst_26, main_v157, main_v158, main_v159, main_v160, main_v161]
theorem seg20_writes : Writes (F := F) seg20 W20 := by
  repeat' apply And.intro
  all_goals exact wsub _ rfl (by decide)

abbrev seg21 : List (HloOp τ sig (Elt F)) :=
  [ nullary main_cst_27 (constant S_ .f32 0x3727C5AC#32),
    unary main_cst_27 main_v162 (broadcastInDim S128 ![] bcast_S_S128 : (⟨S_, .f32⟩ : BufTy).Contents (Elt F) → (⟨S128, .f32⟩ : BufTy).Contents (Elt F)),
    binary main_v158 main_v162 main_v163 (addf : (⟨S128, .f32⟩ : BufTy).Contents (Elt F) → (⟨S128, .f32⟩ : BufTy).Contents (Elt F) → (⟨S128, .f32⟩ : BufTy).Contents (Elt F)),
    unary main_v163 main_v164 (Host.rsqrt : (⟨S128, .f32⟩ : BufTy).Contents (Elt F) → (⟨S128, .f32⟩ : BufTy).Contents (Elt F)),
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v161 main_v166 main_v167 (mulf : (⟨S100000x128, .f32⟩ : BufTy).Contents (Elt F) → (⟨S100000x128, .f32⟩ : BufTy).Contents (Elt F) → (⟨S100000x128, .f32⟩ : BufTy).Contents (Elt F)),
    unary main_arg5 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S100000x128 ![0, 1] bcast_S1x128_S100000x128_0_1 : (⟨S1x128, .f32⟩ : BufTy).Contents (Elt F) → (⟨S100000x128, .f32⟩ : BufTy).Contents (Elt F)),
    binary main_v167 main_v171 main_v172 (mulf : (⟨S100000x128, .f32⟩ : BufTy).Contents (Elt F) → (⟨S100000x128, .f32⟩ : BufTy).Contents (Elt F) → (⟨S100000x128, .f32⟩ : BufTy).Contents (Elt F)) ]
abbrev W21 : List (Ref sig .tc) := [main_cst_27, main_v162, main_v163, main_v164, main_v165, main_v166, main_v167, main_v168, main_v169, main_v170, main_v171, main_v172]
theorem seg21_writes : Writes (F := F) seg21 W21 := by
  repeat' apply And.intro
  all_goals exact wsub _ rfl (by decide)

abbrev seg22 : List (HloOp τ sig (Elt F)) :=
  [ unary main_arg6 main_v173 ((extractStridedSlice S1x128 ![2, 0] · slices_S3x128_S1x128_2_0) : (⟨S3x128, .f32⟩ : BufTy).Contents (Elt F) → (⟨S1x128, .f32⟩ : BufTy).Contents (Elt F)),
    reshape main_v173 main_v174 rfl shapeCasts_S1x128_S128,
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S100000x128 ![0, 1] bcast_S1x128_S100000x128_0_1 : (⟨S1x128, .f32⟩ : BufTy).Contents (Elt F) → (⟨S100000x128, .f32⟩ : BufTy).Contents (Elt F)),
    binary main_v172 main_v176 main_v177 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v177) (TRef.of (T := ⟨S100000x128, .f32⟩) main_call2_v0) (TRef.of (T := ⟨S100000x128, .f32⟩) main_v178) maximumf,
    binary main_v178 main_v128 main_v179 (addf : (⟨S100000x128, .f32⟩ : BufTy).Contents (Elt F) → (⟨S100000x128, .f32⟩ : BufTy).Contents (Elt F) → (⟨S100000x128, .f32⟩ : BufTy).Contents (Elt F)) ]
abbrev W22 : List (Ref sig .tc) := [main_v173, main_v174, main_v175, main_v176, main_v177, main_call2_cst, main_call2_v0, main_v178, main_v179]
theorem seg22_writes : Writes (F := F) seg22 W22 := by
  repeat' apply And.intro
  all_goals exact wsub _ rfl (by decide)

abbrev seg23 : List (HloOp τ sig (Elt F)) :=
  [ binary main_v179 main_arg7 main_v180 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v180 main_v182 main_v183 (addf : (⟨S100000x128, .f32⟩ : BufTy).Contents (Elt F) → (⟨S100000x128, .f32⟩ : BufTy).Contents (Elt F) → (⟨S100000x128, .f32⟩ : BufTy).Contents (Elt F)),
    unary main_v183 main_v184 (Host.tanh : (⟨S100000x128, .f32⟩ : BufTy).Contents (Elt F) → (⟨S100000x128, .f32⟩ : BufTy).Contents (Elt F)),
    binary main_v184 main_arg9 main_v185 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg10 main_v186 (broadcastInDim S1x1 ![1] bcast_S1_S1x1_1 : (⟨S1, .f32⟩ : BufTy).Contents (Elt F) → (⟨S1x1, .f32⟩ : BufTy).Contents (Elt F)),
    unary main_v186 main_v187 (broadcastInDim S100000x1 ![0, 1] bcast_S1x1_S100000x1_0_1 : (⟨S1x1, .f32⟩ : BufTy).Contents (Elt F) → (⟨S100000x1, .f32⟩ : BufTy).Contents (Elt F)),
    binary main_v185 main_v187 main_v188 (addf : (⟨S100000x1, .f32⟩ : BufTy).Contents (Elt F) → (⟨S100000x1, .f32⟩ : BufTy).Contents (Elt F) → (⟨S100000x1, .f32⟩ : BufTy).Contents (Elt F)) ]
abbrev W23 : List (Ref sig .tc) := [main_v180, main_v181, main_v182, main_v183, main_v184, main_v185, main_v186, main_v187, main_v188]
theorem seg23_writes : Writes (F := F) seg23 W23 := by
  repeat' apply And.intro
  all_goals exact wsub _ rfl (by decide)

abbrev seg24 : List (HloOp τ sig (Elt F)) :=
  [ nullary main_cst_28 (constant S_ .f32 0xFF800000#32),
    binary main_v188 main_cst_28 main_v189 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    nullary main_cst_29 (constant S_ .f32 0xFF800000#32),
    unary main_cst_29 main_v190 (broadcastInDim S1 ![] bcast_S_S1 : (⟨S_, .f32⟩ : BufTy).Contents (Elt F) → (⟨S1, .f32⟩ : BufTy).Contents (Elt F)),
    binary main_v190 main_v189 main_v191 (maximumf : (⟨S1, .f32⟩ : BufTy).Contents (Elt F) → (⟨S1, .f32⟩ : BufTy).Contents (Elt F) → (⟨S1, .f32⟩ : BufTy).Contents (Elt F)),
    unary main_v191 main_v192 (broadcastInDim S1x1 ![1] bcast_S1_S1x1_1 : (⟨S1, .f32⟩ : BufTy).Contents (Elt F) → (⟨S1x1, .f32⟩ : BufTy).Contents (Elt F)),
    unary main_v192 main_v193 (broadcastInDim S100000x1 ![0, 1] bcast_S1x1_S100000x1_0_1 : (⟨S1x1, .f32⟩ : BufTy).Contents (Elt F) → (⟨S100000x1, .f32⟩ : BufTy).Contents (Elt F)),
    binary main_v188 main_v193 main_v194 (subf : (⟨S100000x1, .f32⟩ : BufTy).Contents (Elt F) → (⟨S100000x1, .f32⟩ : BufTy).Contents (Elt F) → (⟨S100000x1, .f32⟩ : BufTy).Contents (Elt F)) ]
abbrev W24 : List (Ref sig .tc) := [main_cst_28, main_v189, main_cst_29, main_v190, main_v191, main_v192, main_v193, main_v194]
theorem seg24_writes : Writes (F := F) seg24 W24 := by
  repeat' apply And.intro
  all_goals exact wsub _ rfl (by decide)

abbrev seg25 : List (HloOp τ sig (Elt F)) :=
  [ unary main_v194 main_v195 (Host.exp : (⟨S100000x1, .f32⟩ : BufTy).Contents (Elt F) → (⟨S100000x1, .f32⟩ : BufTy).Contents (Elt F)),
    nullary main_cst_30 (constant S_ .f32 0x00000000#32),
    binary main_v195 main_cst_30 main_v196 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)),
    unary main_v196 main_v197 (broadcastInDim S1x1 ![1] bcast_S1_S1x1_1 : (⟨S1, .f32⟩ : BufTy).Contents (Elt F) → (⟨S1x1, .f32⟩ : BufTy).Contents (Elt F)),
    unary main_v197 main_v198 (broadcastInDim S100000x1 ![0, 1] bcast_S1x1_S100000x1_0_1 : (⟨S1x1, .f32⟩ : BufTy).Contents (Elt F) → (⟨S100000x1, .f32⟩ : BufTy).Contents (Elt F)),
    binary main_v195 main_v198 main_v199 (Host.divf : (⟨S100000x1, .f32⟩ : BufTy).Contents (Elt F) → (⟨S100000x1, .f32⟩ : BufTy).Contents (Elt F) → (⟨S100000x1, .f32⟩ : BufTy).Contents (Elt F)),
    unary main_v199 main_v200 (broadcastInDim S100000x128 ![0, 1] bcast_S100000x1_S100000x128_0_1 : (⟨S100000x1, .f32⟩ : BufTy).Contents (Elt F) → (⟨S100000x128, .f32⟩ : BufTy).Contents (Elt F)),
    binary main_v179 main_v200 main_v201 (mulf : (⟨S100000x128, .f32⟩ : BufTy).Contents (Elt F) → (⟨S100000x128, .f32⟩ : BufTy).Contents (Elt F) → (⟨S100000x128, .f32⟩ : BufTy).Contents (Elt F)) ]
abbrev W25 : List (Ref sig .tc) := [main_v195, main_cst_30, main_v196, main_v197, main_v198, main_v199, main_v200, main_v201]
theorem seg25_writes : Writes (F := F) seg25 W25 := by
  repeat' apply And.intro
  all_goals exact wsub _ rfl (by decide)

abbrev seg26 : List (HloOp τ sig (Elt F)) :=
  [ nullary main_cst_31 (constant S_ .f32 0x00000000#32),
    unary main_cst_31 main_v202 (broadcastInDim S64x128 ![] bcast_S_S64x128 : (⟨S_, .f32⟩ : BufTy).Contents (Elt F) → (⟨S64x128, .f32⟩ : BufTy).Contents (Elt F)),
    unary main_arg2 main_v203 (broadcastInDim S100000x1 ![0] bcast_S100000_S100000x1_0 : (⟨S100000, .i32⟩ : BufTy).Contents (Elt F) → (⟨S100000x1, .i32⟩ : BufTy).Contents (Elt F)),
    ternary main_v202 main_v203 main_v201 main_v204 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_32 (constant S_ .f32 0x3F800000#32),
    unary main_cst_32 main_v205 (broadcastInDim S100000x1 ![] bcast_S_S100000x1 : (⟨S_, .f32⟩ : BufTy).Contents (Elt F) → (⟨S100000x1, .f32⟩ : BufTy).Contents (Elt F)),
    nullary main_cst_33 (constant S_ .f32 0x00000000#32),
    unary main_cst_33 main_v206 (broadcastInDim S64x1 ![] bcast_S_S64x1 : (⟨S_, .f32⟩ : BufTy).Contents (Elt F) → (⟨S64x1, .f32⟩ : BufTy).Contents (Elt F)),
    unary main_arg2 main_v207 (broadcastInDim S100000x1 ![0] bcast_S100000_S100000x1_0 : (⟨S100000, .i32⟩ : BufTy).Contents (Elt F) → (⟨S100000x1, .i32⟩ : BufTy).Contents (Elt F)),
    ternary main_v206 main_v207 main_v205 main_v208 ((fun x i u => Host.scatterAdd scatter_S64x1_S100000x1_S100000x1_1_0_0_1 x i u) : (⟨S64x1, .f32⟩ : BufTy).Contents (Elt F) → (⟨S100000x1, .i32⟩ : BufTy).Contents (Elt F) → (⟨S100000x1, .f32⟩ : BufTy).Contents (Elt F) → (⟨S64x1, .f32⟩ : BufTy).Contents (Elt F)) ]
abbrev W26 : List (Ref sig .tc) := [main_cst_31, main_v202, main_v203, main_v204, main_cst_32, main_v205, main_cst_33, main_v206, main_v207, main_v208]
theorem seg26_writes : Writes (F := F) seg26 W26 := by
  repeat' apply And.intro
  all_goals exact wsub _ rfl (by decide)

abbrev seg27 : List (HloOp τ sig (Elt F)) :=
  [ nullary main_cst_34 (constant S_ .f32 0x3F800000#32),
    unary main_cst_34 main_v209 (broadcastInDim S64x1 ![] bcast_S_S64x1 : (⟨S_, .f32⟩ : BufTy).Contents (Elt F) → (⟨S64x1, .f32⟩ : BufTy).Contents (Elt F)),
    binary main_v208 main_v209 main_v210 (maximumf : (⟨S64x1, .f32⟩ : BufTy).Contents (Elt F) → (⟨S64x1, .f32⟩ : BufTy).Contents (Elt F) → (⟨S64x1, .f32⟩ : BufTy).Contents (Elt F)),
    unary main_v210 main_v211 (broadcastInDim S64x128 ![0, 1] bcast_S64x1_S64x128_0_1 : (⟨S64x1, .f32⟩ : BufTy).Contents (Elt F) → (⟨S64x128, .f32⟩ : BufTy).Contents (Elt F)),
    binary main_v204 main_v211 main_v212 (Host.divf : (⟨S64x128, .f32⟩ : BufTy).Contents (Elt F) → (⟨S64x128, .f32⟩ : BufTy).Contents (Elt F) → (⟨S64x128, .f32⟩ : BufTy).Contents (Elt F)),
    binary main_v212 main_arg11 main_v213 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg12 main_v214 (broadcastInDim S1x128 ![1] bcast_S128_S1x128_1 : (⟨S128, .f32⟩ : BufTy).Contents (Elt F) → (⟨S1x128, .f32⟩ : BufTy).Contents (Elt F)),
    unary main_v214 main_v215 (broadcastInDim S64x128 ![0, 1] bcast_S1x128_S64x128_0_1 : (⟨S1x128, .f32⟩ : BufTy).Contents (Elt F) → (⟨S64x128, .f32⟩ : BufTy).Contents (Elt F)),
    binary main_v213 main_v215 main_v216 (addf : (⟨S64x128, .f32⟩ : BufTy).Contents (Elt F) → (⟨S64x128, .f32⟩ : BufTy).Contents (Elt F) → (⟨S64x128, .f32⟩ : BufTy).Contents (Elt F)) ]
abbrev W27 : List (Ref sig .tc) := [main_cst_34, main_v209, main_v210, main_v211, main_v212, main_v213, main_v214, main_v215, main_v216]
theorem seg27_writes : Writes (F := F) seg27 W27 := by
  repeat' apply And.intro
  all_goals exact wsub _ rfl (by decide)

abbrev seg28 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S64x128, .f32⟩) main_call3_v0) (broadcastInDim S64x128 ![] bcast_S_S64x128),
    TRef.binary (TRef.of (T := ⟨S64x128, .f32⟩) main_v216) (TRef.of (T := ⟨S64x128, .f32⟩) main_call3_v0) (TRef.of (T := ⟨S64x128, .f32⟩) main_v217) maximumf,
    binary main_v217 main_arg13 main_v218 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg14 main_v219 (broadcastInDim S1x128 ![1] bcast_S128_S1x128_1 : (⟨S128, .f32⟩ : BufTy).Contents (Elt F) → (⟨S1x128, .f32⟩ : BufTy).Contents (Elt F)),
    unary main_v219 main_v220 (broadcastInDim S64x128 ![0, 1] bcast_S1x128_S64x128_0_1 : (⟨S1x128, .f32⟩ : BufTy).Contents (Elt F) → (⟨S64x128, .f32⟩ : BufTy).Contents (Elt F)),
    binary main_v218 main_v220 main_v221 (addf : (⟨S64x128, .f32⟩ : BufTy).Contents (Elt F) → (⟨S64x128, .f32⟩ : BufTy).Contents (Elt F) → (⟨S64x128, .f32⟩ : BufTy).Contents (Elt F)) ]
abbrev W28 : List (Ref sig .tc) := [main_call3_cst, main_call3_v0, main_v217, main_v218, main_v219, main_v220, main_v221]
theorem seg28_writes : Writes (F := F) seg28 W28 := by
  repeat' apply And.intro
  all_goals exact wsub _ rfl (by decide)
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28))))))))))))))))))))))))))))

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem ops_fresh : ∀ op ∈ (ops : List (HloOp τ sig (Elt F))), op.fresh = ∅ :=
  List.forall_iff_forall_mem.1 (by repeat' apply And.intro
                                   all_goals rfl)

end Cert.RefRun

end
-- ==== Proof.RefRunInv.lean ====
import proofs.«401495_j83210696393026_3_alg».proof.Proof.RefRunOps
import proofs.«401495_j83210696393026_3_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]
variable (V : Valuation τ sig (Elt F))
variable (x0 : (⟨S100000x128, .f32⟩ : BufTy).Contents (Elt F))
variable (x1 : (⟨S2x1600000, .i32⟩ : BufTy).Contents (Elt F))
variable (x2 : (⟨S100000, .i32⟩ : BufTy).Contents (Elt F))
variable (x3 : (⟨S3x128x128, .f32⟩ : BufTy).Contents (Elt F))
variable (x4 : (⟨S3x128, .f32⟩ : BufTy).Contents (Elt F))
variable (x5 : (⟨S3x128, .f32⟩ : BufTy).Contents (Elt F))
variable (x6 : (⟨S3x128, .f32⟩ : BufTy).Contents (Elt F))
variable (x7 : (⟨S128x128, .f32⟩ : BufTy).Contents (Elt F))
variable (x8 : (⟨S128, .f32⟩ : BufTy).Contents (Elt F))
variable (x9 : (⟨S128x1, .f32⟩ : BufTy).Contents (Elt F))
variable (x10 : (⟨S1, .f32⟩ : BufTy).Contents (Elt F))
variable (x11 : (⟨S128x128, .f32⟩ : BufTy).Contents (Elt F))
variable (x12 : (⟨S128, .f32⟩ : BufTy).Contents (Elt F))
variable (x13 : (⟨S128x128, .f32⟩ : BufTy).Contents (Elt F))
variable (x14 : (⟨S128, .f32⟩ : BufTy).Contents (Elt F))

def Args : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_arg7) = x7 ∧ V (Proc.devRef .tc main_arg8) = x8 ∧ V (Proc.devRef .tc main_arg9) = x9 ∧ V (Proc.devRef .tc main_arg10) = x10 ∧ V (Proc.devRef .tc main_arg11) = x11 ∧ V (Proc.devRef .tc main_arg12) = x12 ∧ V (Proc.devRef .tc main_arg13) = x13 ∧ V (Proc.devRef .tc main_arg14) = x14

theorem keepAt {V : Valuation τ sig (Elt F)} {seg : List (HloOp τ sig (Elt F))} {W : List (Ref sig .tc)}
    (hw : Writes seg W) {r : Ref sig .tc} (hr : r ∉ W) {v : r.ty.Contents (Elt F)} (h : V (Proc.devRef .tc r) = v) : after seg V (Proc.devRef .tc r) = v :=
  (after_of_writes_sub seg V hw hr).trans h

variable {V x0 x1 x2 x3 x4 x5 x6 x7 x8 x9 x10 x11 x12 x13 x14} in
/-- A segment that writes none of the argument buffers leaves them as they were. -/
theorem Args.step {seg : List (HloOp τ sig (Elt F))} {W : List (Ref sig .tc)} (h : Args V x0 x1 x2 x3 x4 x5 x6 x7 x8 x9 x10 x11 x12 x13 x14)
    (hw : Writes seg W)
    (hW : ∀ a ∈ [main_arg0, main_arg1, main_arg2, main_arg3, main_arg4, main_arg5, main_arg6, main_arg7, main_arg8, main_arg9, main_arg10, main_arg11, main_arg12, main_arg13, main_arg14], a ∉ W) : Args (after seg V) x0 x1 x2 x3 x4 x5 x6 x7 x8 x9 x10 x11 x12 x13 x14 := by
  obtain ⟨a0, a1, a2, a3, a4, a5, a6, a7, a8, a9, a10, a11, a12, a13, a14⟩ := h
  have k {r : Ref sig .tc} {v : r.ty.Contents (Elt F)} (hr : r ∈ [main_arg0, main_arg1, main_arg2, main_arg3, main_arg4, main_arg5, main_arg6, main_arg7, main_arg8, main_arg9, main_arg10, main_arg11, main_arg12, main_arg13, main_arg14]) (h : V (Proc.devRef .tc r) = v) := keepAt hw (hW r hr) h
  exact ⟨k (by decide) a0, k (by decide) a1, k (by decide) a2, k (by decide) a3, k (by decide) a4, k (by decide) a5, k (by decide) a6, k (by decide) a7, k (by decide) a8, k (by decide) a9, k (by decide) a10, k (by decide) a11, k (by decide) a12, k (by decide) a13, k (by decide) a14⟩

def Inv0 : Prop :=
  Args V x0 x1 x2 x3 x4 x5 x6 x7 x8 x9 x10 x11 x12 x13 x14

def Inv1 : Prop :=
  Args V x0 x1 x2 x3 x4 x5 x6 x7 x8 x9 x10 x11 x12 x13 x14
  ∧ V (Proc.devRef .tc main_v0) = val_main_v0 (F := F)
  ∧ V (Proc.devRef .tc main_v2) = val_main_v2 (F := F) x1

def Inv2 : Prop :=
  Args V x0 x1 x2 x3 x4 x5 x6 x7 x8 x9 x10 x11 x12 x13 x14
  ∧ V (Proc.devRef .tc main_v0) = val_main_v0 (F := F)
  ∧ V (Proc.devRef .tc main_v3) = val_main_v3 (F := F) x1
  ∧ V (Proc.devRef .tc main_v5) = val_main_v5 (F := F) x1

def Inv3 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v11) = val_main_v11 (F := F) x1

def Inv4 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v11) = val_main_v11 (F := F) x1
  ∧ V (Proc.devRef .tc main_v17) = val_main_v17 (F := F) x1

def Inv5 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v26) = val_main_v26 (F := F) x1

def Inv6 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v37) = val_main_v37 (F := F) x0 x1 x3

def Inv7 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v47) = val_main_v47 (F := F) x0 x1 x3 x4

def Inv8 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v47) = val_main_v47 (F := F) x0 x1 x3 x4
  ∧ V (Proc.devRef .tc main_v50) = val_main_v50 (F := F) x0 x1 x3 x4
  ∧ V (Proc.devRef .tc main_v53) = val_main_v53 (F := F) x0 x1 x3 x4

def Inv9 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v57) = val_main_v57 (F := F) x0 x1 x3 x4
  ∧ V (Proc.devRef .tc main_v60) = val_main_v60 (F := F) x0 x1 x3 x4

def Inv10 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v71) = val_main_v71 (F := F) x0 x1 x3 x4 x5

def Inv11 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6

def Inv12 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6
  ∧ V (Proc.devRef .tc main_v87) = val_main_v87 (F := F) x0 x1 x3 x4 x5 x6

def Inv13 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6
  ∧ V (Proc.devRef .tc main_v97) = val_main_v97 (F := F) x0 x1 x3 x4 x5 x6

def Inv14 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6
  ∧ V (Proc.devRef .tc main_v97) = val_main_v97 (F := F) x0 x1 x3 x4 x5 x6
  ∧ V (Proc.devRef .tc main_v100) = val_main_v100 (F := F) x0 x1 x3 x4 x5 x6
  ∧ V (Proc.devRef .tc main_v103) = val_main_v103 (F := F) x0 x1 x3 x4 x5 x6

def Inv15 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6
  ∧ V (Proc.devRef .tc main_v107) = val_main_v107 (F := F) x0 x1 x3 x4 x5 x6
  ∧ V (Proc.devRef .tc main_v110) = val_main_v110 (F := F) x0 x1 x3 x4 x5 x6

def Inv16 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v77) = val_main_v77 (F := F) x0 x1 x3 x4 x5 x6
  ∧ V (Proc.devRef .tc main_v121) = val_main_v121 (F := F) x0 x1 x3 x4 x5 x6

def Inv17 : Prop :=
  Args V x0 x1 x2 x3 x4 x5 x6 x7 x8 x9 x10 x11 x12 x13 x14
  ∧ V (Proc.devRef .tc main_v3) = val_main_v3 (F := F) x1
  ∧ V (Proc.devRef .tc main_v6) = val_main_v6 (F := F) x1
  ∧ V (Proc.devRef .tc main_v27) = val_main_v27 (F := F) x1
  ∧ V (Proc.devRef .tc main_v128) = val_main_v128 (F := F) x0 x1 x3 x4 x5 x6

def Inv18 : Prop :=
  Args V x0 x1 x2 x3 x4 x5 x6 x7 x8 x9 x10 x11 x12 x13 x14
  ∧ V (Proc.devRef .tc main_v6) = val_main_v6 (F := F) x1
  ∧ V (Proc.devRef .tc main_v128) = val_main_v128 (F := F) x0 x1 x3 x4 x5 x6
  ∧ V (Proc.devRef .tc main_v140) = val_main_v140 (F := F) x0 x1 x3 x4 x5 x6

def Inv19 : Prop :=
  Args V x0 x1 x2 x3 x4 x5 x6 x7 x8 x9 x10 x11 x12 x13 x14
  ∧ V (Proc.devRef .tc main_v128) = val_main_v128 (F := F) x0 x1 x3 x4 x5 x6
  ∧ V (Proc.devRef .tc main_v148) = val_main_v148 (F := F) x0 x1 x3 x4 x5 x6

def Inv20 : Prop :=
  Args V x0 x1 x2 x3 x4 x5 x6 x7 x8 x9 x10 x11 x12 x13 x14
  ∧ V (Proc.devRef .tc main_v128) = val_main_v128 (F := F) x0 x1 x3 x4 x5 x6
  ∧ V (Proc.devRef .tc main_v148) = val_main_v148 (F := F) x0 x1 x3 x4 x5 x6
  ∧ V (Proc.devRef .tc main_v151) = val_main_v151 (F := F) x0 x1 x3 x4 x5 x6
  ∧ V (Proc.devRef .tc main_v154) = val_main_v154 (F := F) x0 x1 x3 x4 x5 x6

def Inv21 : Prop :=
  Args V x0 x1 x2 x3 x4 x5 x6 x7 x8 x9 x10 x11 x12 x13 x14
  ∧ V (Proc.devRef .tc main_v128) = val_main_v128 (F := F) x0 x1 x3 x4 x5 x6
  ∧ V (Proc.devRef .tc main_v158) = val_main_v158 (F := F) x0 x1 x3 x4 x5 x6
  ∧ V (Proc.devRef .tc main_v161) = val_main_v161 (F := F) x0 x1 x3 x4 x5 x6

def Inv22 : Prop :=
  Args V x0 x1 x2 x3 x4 x5 x6 x7 x8 x9 x10 x11 x12 x13 x14
  ∧ V (Proc.devRef .tc main_v128) = val_main_v128 (F := F) x0 x1 x3 x4 x5 x6
  ∧ V (Proc.devRef .tc main_v172) = val_main_v172 (F := F) x0 x1 x3 x4 x5 x6

def Inv23 : Prop :=
  Args V x0 x1 x2 x3 x4 x5 x6 x7 x8 x9 x10 x11 x12 x13 x14
  ∧ V (Proc.devRef .tc main_v179) = val_main_v179 (F := F) x0 x1 x3 x4 x5 x6

def Inv24 : Prop :=
  Args V x0 x1 x2 x3 x4 x5 x6 x7 x8 x9 x10 x11 x12 x13 x14
  ∧ V (Proc.devRef .tc main_v179) = val_main_v179 (F := F) x0 x1 x3 x4 x5 x6
  ∧ V (Proc.devRef .tc main_v188) = val_main_v188 (F := F) x0 x1 x3 x4 x5 x6 x7 x8 x9 x10

def Inv25 : Prop :=
  Args V x0 x1 x2 x3 x4 x5 x6 x7 x8 x9 x10 x11 x12 x13 x14
  ∧ V (Proc.devRef .tc main_v179) = val_main_v179 (F := F) x0 x1 x3 x4 x5 x6
  ∧ V (Proc.devRef .tc main_v194) = val_main_v194 (F := F) x0 x1 x3 x4 x5 x6 x7 x8 x9 x10

def Inv26 : Prop :=
  Args V x0 x1 x2 x3 x4 x5 x6 x7 x8 x9 x10 x11 x12 x13 x14
  ∧ V (Proc.devRef .tc main_v201) = val_main_v201 (F := F) x0 x1 x3 x4 x5 x6 x7 x8 x9 x10

def Inv27 : Prop :=
  Args V x0 x1 x2 x3 x4 x5 x6 x7 x8 x9 x10 x11 x12 x13 x14
  ∧ V (Proc.devRef .tc main_v204) = val_main_v204 (F := F) x0 x1 x2 x3 x4 x5 x6 x7 x8 x9 x10
  ∧ V (Proc.devRef .tc main_v208) = val_main_v208 (F := F) x2

def Inv28 : Prop :=
  Args V x0 x1 x2 x3 x4 x5 x6 x7 x8 x9 x10 x11 x12 x13 x14
  ∧ V (Proc.devRef .tc main_v216) = val_main_v216 (F := F) x0 x1 x2 x3 x4 x5 x6 x7 x8 x9 x10 x11 x12

def Inv29 : Prop :=
  Args V x0 x1 x2 x3 x4 x5 x6 x7 x8 x9 x10 x11 x12 x13 x14
  ∧ V (Proc.devRef .tc main_v221) = val_main_v221 (F := F) x0 x1 x2 x3 x4 x5 x6 x7 x8 x9 x10 x11 x12 x13 x14

end Cert.RefRun

end
-- ==== Proof.RefRunSteps.lean ====
import proofs.«401495_j83210696393026_3_alg».proof.Proof.RefRunInv

noncomputable section

namespace Cert.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]
variable {V : Valuation τ sig (Elt F)}
variable {x0 : (⟨S100000x128, .f32⟩ : BufTy).Contents (Elt F)}
variable {x1 : (⟨S2x1600000, .i32⟩ : BufTy).Contents (Elt F)}
variable {x2 : (⟨S100000, .i32⟩ : BufTy).Contents (Elt F)}
variable {x3 : (⟨S3x128x128, .f32⟩ : BufTy).Contents (Elt F)}
variable {x4 : (⟨S3x128, .f32⟩ : BufTy).Contents (Elt F)}
variable {x5 : (⟨S3x128, .f32⟩ : BufTy).Contents (Elt F)}
variable {x6 : (⟨S3x128, .f32⟩ : BufTy).Contents (Elt F)}
variable {x7 : (⟨S128x128, .f32⟩ : BufTy).Contents (Elt F)}
variable {x8 : (⟨S128, .f32⟩ : BufTy).Contents (Elt F)}
variable {x9 : (⟨S128x1, .f32⟩ : BufTy).Contents (Elt F)}
variable {x10 : (⟨S1, .f32⟩ : BufTy).Contents (Elt F)}
variable {x11 : (⟨S128x128, .f32⟩ : BufTy).Contents (Elt F)}
variable {x12 : (⟨S128, .f32⟩ : BufTy).Contents (Elt F)}
variable {x13 : (⟨S128x128, .f32⟩ : BufTy).Contents (Elt F)}
variable {x14 : (⟨S128, .f32⟩ : BufTy).Contents (Elt F)}

section
theorem step0 (h : Inv0 V x0 x1 x2 x3 x4 x5 x6 x7 x8 x9 x10 x11 x12 x13 x14) : Inv1 (after seg0 V) x0 x1 x2 x3 x4 x5 x6 x7 x8 x9 x10 x11 x12 x13 x14 := by
  have ha : Args V x0 x1 x2 x3 x4 x5 x6 x7 x8 x9 x10 x11 x12 x13 x14 := h
  have ⟨_, a1, _⟩ := ha
  refine ⟨ha.step seg0_writes (by decide), ?_, ?_⟩
  · after_results_simp
    rfl
  · after_results_simp
    rw [a1] <;> rfl
end

section
attribute [local irreducible] val_main_v0 val_main_v2
theorem step1 (h : Inv1 V x0 x1 x2 x3 x4 x5 x6 x7 x8 x9 x10 x11 x12 x13 x14) : Inv2 (after seg1 V) x0 x1 x2 x3 x4 x5 x6 x7 x8 x9 x10 x11 x12 x13 x14 := by
  obtain ⟨ha, h_v0, h_v2⟩ := h
  have ⟨_, a1, _⟩ := ha
  refine ⟨ha.step seg1_writes (by decide), keepAt seg1_writes (by decide) h_v0, ?_, ?_⟩
  · after_results_simp
    rw [h_v2, h_v0] <;> rfl
  · after_results_simp
    rw [a1] <;> rfl
end

section
attribute [local irreducible] val_main_v0 val_main_v3 val_main_v5
theorem step2 (h : Inv2 V x0 x1 x2 x3 x4 x5 x6 x7 x8 x9 x10 x11 x12 x13 x14) : Inv3 (after seg2 V) x0 x1 x2 x3 x4 x5 x6 x7 x8 x9 x10 x11 x12 x13 x14 := by
  obtain ⟨ha, h_v0, h_v3, h_v5⟩ := h
  refine ⟨ha.step seg2_writes (by decide), keepAt seg2_writes (by decide) h_v3, ?_, ?_⟩
  · after_results_simp
    rw [h_v5, h_v0] <;> rfl
  · after_results_simp
    rw [h_v5, h_v0] <;> rfl
end

section
attribute [local irreducible] val_main_v3 val_main_v6 val_main_v11
theorem step3 (h : Inv3 V x0 x1 x2 x3 x4 x5 x6 x7 x8 x9 x10 x11 x12 x13 x14) : Inv4 (after seg3 V) x0 x1 x2 x3 x4 x5 x6 x7 x8 x9 x10 x11 x12 x13 x14 := by
  obtain ⟨ha, h_v3, h_v6, h_v11⟩ := h
  refine ⟨ha.step seg3_writes (by decide), keepAt seg3_writes (by decide) h_v3, keepAt seg3_writes (by decide) h_v6, keepAt seg3_writes (by decide) h_v11, ?_⟩
  after_results_simp
  rw [h_v3] <;> rfl
end

section
attribute [local irreducible] val_main_v3 val_main_v6 val_main_v11 val_main_v17
theorem step4 (h : Inv4 V x0 x1 x2 x3 x4 x5 x6 x7 x8 x9 x10 x11 x12 x13 x14) : Inv5 (after seg4 V) x0 x1 x2 x3 x4 x5 x6 x7 x8 x9 x10 x11 x12 x13 x14 := by
  obtain ⟨ha, h_v3, h_v6, h_v11, h_v17⟩ := h
  refine ⟨ha.step seg4_writes (by decide), keepAt seg4_writes (by decide) h_v3, keepAt seg4_writes (by decide) h_v6, ?_⟩
  after_results_simp
  rw [h_v11, h_v17, h_v6] <;> rfl
end

section
attribute [local irreducible] val_main_v3 val_main_v6 val_main_v26
theorem step5 (h : Inv5 V x0 x1 x2 x3 x4 x5 x6 x7 x8 x9 x10 x11 x12 x13 x14) : Inv6 (after seg5 V) x0 x1 x2 x3 x4 x5 x6 x7 x8 x9 x10 x11 x12 x13 x14 := by
  obtain ⟨ha, h_v3, h_v6, h_v26⟩ := h
  have ⟨a0, _, _, a3, _⟩ := ha
  refine ⟨ha.step seg5_writes (by decide), keepAt seg5_writes (by decide) h_v3, keepAt seg5_writes (by decide) h_v6, ?_, ?_⟩
  · after_results_simp
    rw [h_v26] <;> rfl
  · after_results_simp
    rw [a0, a3, h_v3] <;> rfl
end

section
attribute [local irreducible] val_main_v3 val_main_v6 val_main_v27 val_main_v37
theorem step6 (h : Inv6 V x0 x1 x2 x3 x4 x5 x6 x7 x8 x9 x10 x11 x12 x13 x14) : Inv7 (after seg6 V) x0 x1 x2 x3 x4 x5 x6 x7 x8 x9 x10 x11 x12 x13 x14 := by
  obtain ⟨ha, h_v3, h_v6, h_v27, h_v37⟩ := h
  have ⟨_, _, _, _, a4, _⟩ := ha
  refine ⟨ha.step seg6_writes (by decide), keepAt seg6_writes (by decide) h_v3, keepAt seg6_writes (by decide) h_v6, keepAt seg6_writes (by decide) h_v27, ?_⟩
  after_results_simp
  rw [h_v6, h_v37, h_v27, a4] <;> rfl
end

section
attribute [local irreducible] val_main_v3 val_main_v6 val_main_v27 val_main_v47
theorem step7 (h : Inv7 V x0 x1 x2 x3 x4 x5 x6 x7 x8 x9 x10 x11 x12 x13 x14) : Inv8 (after seg7 V) x0 x1 x2 x3 x4 x5 x6 x7 x8 x9 x10 x11 x12 x13 x14 := by
  obtain ⟨ha, h_v3, h_v6, h_v27, h_v47⟩ := h
  refine ⟨ha.step seg7_writes (by decide), keepAt seg7_writes (by decide) h_v3, keepAt seg7_writes (by decide) h_v6, keepAt seg7_writes (by decide) h_v27, keepAt seg7_writes (by decide) h_v47, ?_, ?_⟩
  · after_results_simp
    rw [h_v47] <;> rfl
  · after_results_simp
    rw [h_v47] <;> rfl
end

section
attribute [local irreducible] val_main_v3 val_main_v6 val_main_v27 val_main_v47 val_main_v50 val_main_v53
theorem step8 (h : Inv8 V x0 x1 x2 x3 x4 x5 x6 x7 x8 x9 x10 x11 x12 x13 x14) : Inv9 (after seg8 V) x0 x1 x2 x3 x4 x5 x6 x7 x8 x9 x10 x11 x12 x13 x14 := by
  obtain ⟨ha, h_v3, h_v6, h_v27, h_v47, h_v50, h_v53⟩ := h
  refine ⟨ha.step seg8_writes (by decide), keepAt seg8_writes (by decide) h_v3, keepAt seg8_writes (by decide) h_v6, keepAt seg8_writes (by decide) h_v27, ?_, ?_⟩
  · after_results_simp
    rw [h_v53] <;> rfl
  · after_results_simp
    rw [h_v47, h_v50] <;> rfl
end

section
attribute [local irreducible] val_main_v3 val_main_v6 val_main_v27 val_main_v57 val_main_v60
theorem step9 (h : Inv9 V x0 x1 x2 x3 x4 x5 x6 x7 x8 x9 x10 x11 x12 x13 x14) : Inv10 (after seg9 V) x0 x1 x2 x3 x4 x5 x6 x7 x8 x9 x10 x11 x12 x13 x14 := by
  obtain ⟨ha, h_v3, h_v6, h_v27, h_v57, h_v60⟩ := h
  have ⟨_, _, _, _, _, a5, _⟩ := ha
  refine ⟨ha.step seg9_writes (by decide), keepAt seg9_writes (by decide) h_v3, keepAt seg9_writes (by decide) h_v6, keepAt seg9_writes (by decide) h_v27, ?_⟩
  after_results_simp
  rw [h_v60, h_v57, a5] <;> rfl
end

section
attribute [local irreducible] val_main_v3 val_main_v6 val_main_v27 val_main_v71
theorem step10 (h : Inv10 V x0 x1 x2 x3 x4 x5 x6 x7 x8 x9 x10 x11 x12 x13 x14) : Inv11 (after seg10 V) x0 x1 x2 x3 x4 x5 x6 x7 x8 x9 x10 x11 x12 x13 x14 := by
  obtain ⟨ha, h_v3, h_v6, h_v27, h_v71⟩ := h
  have ⟨_, _, _, _, _, _, a6, _⟩ := ha
  refine ⟨ha.step seg10_writes (by decide), keepAt seg10_writes (by decide) h_v3, keepAt seg10_writes (by decide) h_v6, keepAt seg10_writes (by decide) h_v27, ?_⟩
  after_results_simp
  rw [h_v71, a6] <;> rfl
end

section
attribute [local irreducible] val_main_v3 val_main_v6 val_main_v27 val_main_v77
theorem step11 (h : Inv11 V x0 x1 x2 x3 x4 x5 x6 x7 x8 x9 x10 x11 x12 x13 x14) : Inv12 (after seg11 V) x0 x1 x2 x3 x4 x5 x6 x7 x8 x9 x10 x11 x12 x13 x14 := by
  obtain ⟨ha, h_v3, h_v6, h_v27, h_v77⟩ := h
  have ⟨_, _, _, a3, _⟩ := ha
  refine ⟨ha.step seg11_writes (by decide), keepAt seg11_writes (by decide) h_v3, keepAt seg11_writes (by decide) h_v6, keepAt seg11_writes (by decide) h_v27, keepAt seg11_writes (by decide) h_v77, ?_⟩
  after_results_simp
  rw [h_v77, a3, h_v3] <;> rfl
end

section
attribute [local irreducible] val_main_v3 val_main_v6 val_main_v27 val_main_v77 val_main_v87
theorem step12 (h : Inv12 V x0 x1 x2 x3 x4 x5 x6 x7 x8 x9 x10 x11 x12 x13 x14) : Inv13 (after seg12 V) x0 x1 x2 x3 x4 x5 x6 x7 x8 x9 x10 x11 x12 x13 x14 := by
  obtain ⟨ha, h_v3, h_v6, h_v27, h_v77, h_v87⟩ := h
  have ⟨_, _, _, _, a4, _⟩ := ha
  refine ⟨ha.step seg12_writes (by decide), keepAt seg12_writes (by decide) h_v3, keepAt seg12_writes (by decide) h_v6, keepAt seg12_writes (by decide) h_v27, keepAt seg12_writes (by decide) h_v77, ?_⟩
  after_results_simp
  rw [h_v6, h_v87, h_v27, a4] <;> rfl
end

section
attribute [local irreducible] val_main_v3 val_main_v6 val_main_v27 val_main_v77 val_main_v97
theorem step13 (h : Inv13 V x0 x1 x2 x3 x4 x5 x6 x7 x8 x9 x10 x11 x12 x13 x14) : Inv14 (after seg13 V) x0 x1 x2 x3 x4 x5 x6 x7 x8 x9 x10 x11 x12 x13 x14 := by
  obtain ⟨ha, h_v3, h_v6, h_v27, h_v77, h_v97⟩ := h
  refine ⟨ha.step seg13_writes (by decide), keepAt seg13_writes (by decide) h_v3, keepAt seg13_writes (by decide) h_v6, keepAt seg13_writes (by decide) h_v27, keepAt seg13_writes (by decide) h_v77, keepAt seg13_writes (by decide) h_v97, ?_, ?_⟩
  · after_results_simp
    rw [h_v97] <;> rfl
  · after_results_simp
    rw [h_v97] <;> rfl
end

section
attribute [local irreducible] val_main_v3 val_main_v6 val_main_v27 val_main_v77 val_main_v97 val_main_v100 val_main_v103
theorem step14 (h : Inv14 V x0 x1 x2 x3 x4 x5 x6 x7 x8 x9 x10 x11 x12 x13 x14) : Inv15 (after seg14 V) x0 x1 x2 x3 x4 x5 x6 x7 x8 x9 x10 x11 x12 x13 x14 := by
  obtain ⟨ha, h_v3, h_v6, h_v27, h_v77, h_v97, h_v100, h_v103⟩ := h
  refine ⟨ha.step seg14_writes (by decide), keepAt seg14_writes (by decide) h_v3, keepAt seg14_writes (by decide) h_v6, keepAt seg14_writes (by decide) h_v27, keepAt seg14_writes (by decide) h_v77, ?_, ?_⟩
  · after_results_simp
    rw [h_v103] <;> rfl
  · after_results_simp
    rw [h_v97, h_v100] <;> rfl
end

section
attribute [local irreducible] val_main_v3 val_main_v6 val_main_v27 val_main_v77 val_main_v107 val_main_v110
theorem step15 (h : Inv15 V x0 x1 x2 x3 x4 x5 x6 x7 x8 x9 x10 x11 x12 x13 x14) : Inv16 (after seg15 V) x0 x1 x2 x3 x4 x5 x6 x7 x8 x9 x10 x11 x12 x13 x14 := by
  obtain ⟨ha, h_v3, h_v6, h_v27, h_v77, h_v107, h_v110⟩ := h
  have ⟨_, _, _, _, _, a5, _⟩ := ha
  refine ⟨ha.step seg15_writes (by decide), keepAt seg15_writes (by decide) h_v3, keepAt seg15_writes (by decide) h_v6, keepAt seg15_writes (by decide) h_v27, keepAt seg15_writes (by decide) h_v77, ?_⟩
  after_results_simp
  rw [h_v110, h_v107, a5] <;> rfl
end

section
attribute [local irreducible] val_main_v3 val_main_v6 val_main_v27 val_main_v77 val_main_v121
theorem step16 (h : Inv16 V x0 x1 x2 x3 x4 x5 x6 x7 x8 x9 x10 x11 x12 x13 x14) : Inv17 (after seg16 V) x0 x1 x2 x3 x4 x5 x6 x7 x8 x9 x10 x11 x12 x13 x14 := by
  obtain ⟨ha, h_v3, h_v6, h_v27, h_v77, h_v121⟩ := h
  have ⟨_, _, _, _, _, _, a6, _⟩ := ha
  refine ⟨ha.step seg16_writes (by decide), keepAt seg16_writes (by decide) h_v3, keepAt seg16_writes (by decide) h_v6, keepAt seg16_writes (by decide) h_v27, ?_⟩
  after_results_simp
  rw [h_v121, a6, h_v77] <;> rfl
end

section
attribute [local irreducible] val_main_v3 val_main_v6 val_main_v27 val_main_v128
theorem step17 (h : Inv17 V x0 x1 x2 x3 x4 x5 x6 x7 x8 x9 x10 x11 x12 x13 x14) : Inv18 (after seg17 V) x0 x1 x2 x3 x4 x5 x6 x7 x8 x9 x10 x11 x12 x13 x14 := by
  obtain ⟨ha, h_v3, h_v6, h_v27, h_v128⟩ := h
  have ⟨_, _, _, a3, _⟩ := ha
  refine ⟨ha.step seg17_writes (by decide), keepAt seg17_writes (by decide) h_v6, keepAt seg17_writes (by decide) h_v128, ?_⟩
  after_results_simp
  rw [h_v128, a3, h_v3, h_v27] <;> rfl
end

section
attribute [local irreducible] val_main_v6 val_main_v128 val_main_v140
theorem step18 (h : Inv18 V x0 x1 x2 x3 x4 x5 x6 x7 x8 x9 x10 x11 x12 x13 x14) : Inv19 (after seg18 V) x0 x1 x2 x3 x4 x5 x6 x7 x8 x9 x10 x11 x12 x13 x14 := by
  obtain ⟨ha, h_v6, h_v128, h_v140⟩ := h
  have ⟨_, _, _, _, a4, _⟩ := ha
  refine ⟨ha.step seg18_writes (by decide), keepAt seg18_writes (by decide) h_v128, ?_⟩
  after_results_simp
  rw [h_v6, h_v140, a4] <;> rfl
end

section
attribute [local irreducible] val_main_v128 val_main_v148
theorem step19 (h : Inv19 V x0 x1 x2 x3 x4 x5 x6 x7 x8 x9 x10 x11 x12 x13 x14) : Inv20 (after seg19 V) x0 x1 x2 x3 x4 x5 x6 x7 x8 x9 x10 x11 x12 x13 x14 := by
  obtain ⟨ha, h_v128, h_v148⟩ := h
  refine ⟨ha.step seg19_writes (by decide), keepAt seg19_writes (by decide) h_v128, keepAt seg19_writes (by decide) h_v148, ?_, ?_⟩
  · after_results_simp
    rw [h_v148] <;> rfl
  · after_results_simp
    rw [h_v148] <;> rfl
end

section
attribute [local irreducible] val_main_v128 val_main_v148 val_main_v151 val_main_v154
theorem step20 (h : Inv20 V x0 x1 x2 x3 x4 x5 x6 x7 x8 x9 x10 x11 x12 x13 x14) : Inv21 (after seg20 V) x0 x1 x2 x3 x4 x5 x6 x7 x8 x9 x10 x11 x12 x13 x14 := by
  obtain ⟨ha, h_v128, h_v148, h_v151, h_v154⟩ := h
  refine ⟨ha.step seg20_writes (by decide), keepAt seg20_writes (by decide) h_v128, ?_, ?_⟩
  · after_results_simp
    rw [h_v154] <;> rfl
  · after_results_simp
    rw [h_v148, h_v151] <;> rfl
end

section
attribute [local irreducible] val_main_v128 val_main_v158 val_main_v161
theorem step21 (h : Inv21 V x0 x1 x2 x3 x4 x5 x6 x7 x8 x9 x10 x11 x12 x13 x14) : Inv22 (after seg21 V) x0 x1 x2 x3 x4 x5 x6 x7 x8 x9 x10 x11 x12 x13 x14 := by
  obtain ⟨ha, h_v128, h_v158, h_v161⟩ := h
  have ⟨_, _, _, _, _, a5, _⟩ := ha
  refine ⟨ha.step seg21_writes (by decide), keepAt seg21_writes (by decide) h_v128, ?_⟩
  after_results_simp
  rw [h_v161, h_v158, a5] <;> rfl
end

section
attribute [local irreducible] val_main_v128 val_main_v172
theorem step22 (h : Inv22 V x0 x1 x2 x3 x4 x5 x6 x7 x8 x9 x10 x11 x12 x13 x14) : Inv23 (after seg22 V) x0 x1 x2 x3 x4 x5 x6 x7 x8 x9 x10 x11 x12 x13 x14 := by
  obtain ⟨ha, h_v128, h_v172⟩ := h
  have ⟨_, _, _, _, _, _, a6, _⟩ := ha
  refine ⟨ha.step seg22_writes (by decide), ?_⟩
  after_results_simp
  rw [h_v172, a6, h_v128] <;> rfl
end

section
attribute [local irreducible] val_main_v179
theorem step23 (h : Inv23 V x0 x1 x2 x3 x4 x5 x6 x7 x8 x9 x10 x11 x12 x13 x14) : Inv24 (after seg23 V) x0 x1 x2 x3 x4 x5 x6 x7 x8 x9 x10 x11 x12 x13 x14 := by
  obtain ⟨ha, h_v179⟩ := h
  have ⟨_, _, _, _, _, _, _, a7, a8, a9, a10, _⟩ := ha
  refine ⟨ha.step seg23_writes (by decide), keepAt seg23_writes (by decide) h_v179, ?_⟩
  after_results_simp
  rw [h_v179, a7, a8, a9, a10] <;> rfl
end

section
attribute [local irreducible] val_main_v179 val_main_v188
theorem step24 (h : Inv24 V x0 x1 x2 x3 x4 x5 x6 x7 x8 x9 x10 x11 x12 x13 x14) : Inv25 (after seg24 V) x0 x1 x2 x3 x4 x5 x6 x7 x8 x9 x10 x11 x12 x13 x14 := by
  obtain ⟨ha, h_v179, h_v188⟩ := h
  refine ⟨ha.step seg24_writes (by decide), keepAt seg24_writes (by decide) h_v179, ?_⟩
  after_results_simp
  rw [h_v188] <;> rfl
end

section
attribute [local irreducible] val_main_v179 val_main_v194
theorem step25 (h : Inv25 V x0 x1 x2 x3 x4 x5 x6 x7 x8 x9 x10 x11 x12 x13 x14) : Inv26 (after seg25 V) x0 x1 x2 x3 x4 x5 x6 x7 x8 x9 x10 x11 x12 x13 x14 := by
  obtain ⟨ha, h_v179, h_v194⟩ := h
  refine ⟨ha.step seg25_writes (by decide), ?_⟩
  after_results_simp
  rw [h_v179, h_v194] <;> rfl
end

section
attribute [local irreducible] val_main_v201
theorem step26 (h : Inv26 V x0 x1 x2 x3 x4 x5 x6 x7 x8 x9 x10 x11 x12 x13 x14) : Inv27 (after seg26 V) x0 x1 x2 x3 x4 x5 x6 x7 x8 x9 x10 x11 x12 x13 x14 := by
  obtain ⟨ha, h_v201⟩ := h
  have ⟨_, _, a2, _⟩ := ha
  refine ⟨ha.step seg26_writes (by decide), ?_, ?_⟩
  · after_results_simp
    rw [a2, h_v201] <;> rfl
  · after_results_simp
    rw [a2] <;> rfl
end

section
attribute [local irreducible] val_main_v204 val_main_v208
theorem step27 (h : Inv27 V x0 x1 x2 x3 x4 x5 x6 x7 x8 x9 x10 x11 x12 x13 x14) : Inv28 (after seg27 V) x0 x1 x2 x3 x4 x5 x6 x7 x8 x9 x10 x11 x12 x13 x14 := by
  obtain ⟨ha, h_v204, h_v208⟩ := h
  have ⟨_, _, _, _, _, _, _, _, _, _, _, a11, a12, _⟩ := ha
  refine ⟨ha.step seg27_writes (by decide), ?_⟩
  after_results_simp
  rw [h_v204, h_v208, a11, a12] <;> rfl
end

section
attribute [local irreducible] val_main_v216
theorem step28 (h : Inv28 V x0 x1 x2 x3 x4 x5 x6 x7 x8 x9 x10 x11 x12 x13 x14) : Inv29 (after seg28 V) x0 x1 x2 x3 x4 x5 x6 x7 x8 x9 x10 x11 x12 x13 x14 := by
  obtain ⟨ha, h_v216⟩ := h
  have ⟨_, _, _, _, _, _, _, _, _, _, _, _, _, a13, a14⟩ := ha
  refine ⟨ha.step seg28_writes (by decide), ?_⟩
  after_results_simp
  rw [h_v216, a13, a14] <;> rfl
end

/-- The segments in a row take the arguments to the result's stage function and leave the arguments as they were. -/
theorem after_ops (h : Args V x0 x1 x2 x3 x4 x5 x6 x7 x8 x9 x10 x11 x12 x13 x14) :
    after ops V (Proc.devRef .tc main_v221) = val_main_v221 (F := F) x0 x1 x2 x3 x4 x5 x6 x7 x8 x9 x10 x11 x12 x13 x14 ∧ Args (after ops V) x0 x1 x2 x3 x4 x5 x6 x7 x8 x9 x10 x11 x12 x13 x14 := by
  have h29 := step28 (step27 (step26 (step25 (step24 (step23 (step22 (step21 (step20 (step19 (step18 (step17 (step16 (step15 (step14 (step13 (step12 (step11 (step10 (step9 (step8 (step7 (step6 (step5 (step4 (step3 (step2 (step1 (step0 h))))))))))))))))))))))))))))
  simp only [ops, after_append]
  exact ⟨h29.2, h29.1⟩

end Cert.RefRun

end
-- ==== Proof.RefRun.lean ====
import proofs.«401495_j83210696393026_3_alg».proof.Proof.RefRunSteps

noncomputable section

namespace Cert.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Every weakly fair run of the reference program ends with the result buffer at its stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221) = val_main_v221 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
    obtain ⟨hr, a0, a1, a2, a3, a4, a5, a6, a7, a8, a9, a10, a11, a12, a13, a14⟩ := after_ops (V := launchContents m c)
      ⟨rfl, rfl, rfl, rfl, rfl, rfl, rfl, rfl, rfl, rfl, rfl, rfl, rfl, rfl, rfl⟩
    exact ⟨(h c main_v221).trans hr, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14⟩)
    (run_seq scopedRefs_eq scopedSems_eq defs main (fun _ => ops) main_eq (fun _ => ops_sub) m ρ (fun _ => ops_fresh))

end Cert.RefRun

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

def arr1 {n : Nat} (f : Fin n → EReal) : (⟨1, ![n]⟩ : Shape).Idx → EReal := fun i => f (i 0)
def arr2 {n m : Nat} (f : Fin n → Fin m → EReal) : (⟨2, ![n, m]⟩ : Shape).Idx → EReal := fun i => f (i 0) (i 1)
def arr3 {n m k : Nat} (f : Fin n → Fin m → Fin k → EReal) : (⟨3, ![n, m, k]⟩ : Shape).Idx → EReal :=
  fun i => f (i 0) (i 1) (i 2)
def vec1 {n : Nat} (A : (⟨1, ![n]⟩ : Shape).Idx → EReal) : Fin n → EReal := fun p => A (ix1 p)
def mat2 {n m : Nat} (A : (⟨2, ![n, m]⟩ : Shape).Idx → EReal) : Fin n → Fin m → EReal := fun p q => A (ix2 p q)
def col {n : Nat} (A : (⟨2, ![n, 1]⟩ : Shape).Idx → EReal) : Fin n → EReal := fun p => A (ix2 p 0)
def row {m : Nat} (A : (⟨2, ![1, m]⟩ : Shape).Idx → EReal) : Fin m → EReal := fun q => A (ix2 0 q)
def ten3 {n m k : Nat} (A : (⟨3, ![n, m, k]⟩ : Shape).Idx → EReal) : Fin n → Fin m → Fin k → EReal :=
  fun p q r => A (ix3 p q r)
def colArr {n : Nat} (f : Fin n → EReal) : (⟨2, ![n, 1]⟩ : Shape).Idx → EReal := fun i => f (i 0)
def rowArr {m : Nat} (f : Fin m → EReal) : (⟨2, ![1, m]⟩ : Shape).Idx → EReal := fun i => f (i 1)

theorem arr2_mat2 {n m : Nat} (A : (⟨2, ![n, m]⟩ : Shape).Idx → EReal) : arr2 (mat2 A) = A :=
  funext fun i => (congrArg A (eq_ix2 i)).symm

def cN : EReal := Ideal.ofBits .f32 0x47C35000#32
def cEps : EReal := Ideal.ofBits .f32 0x3727C5AC#32
def cOne : EReal := Ideal.ofBits .f32 0x3F800000#32
def cNegInf : EReal := Ideal.ofBits .f32 0xFF800000#32

section Graph
variable (src dst : Fin 1600000 → Fin 100000)

def srcL (e : Fin 1700000) : Fin 100000 :=
  if h : e.val < 1600000 then src ⟨e.val, h⟩ else ⟨e.val - 1600000, by have := e.isLt; omega⟩
def dstL (e : Fin 1700000) : Fin 100000 :=
  if h : e.val < 1600000 then dst ⟨e.val, h⟩ else ⟨e.val - 1600000, by have := e.isLt; omega⟩

def degK (i : Fin 100000) : EReal := (∑ _e ∈ Finset.univ.filter (fun e => dst e = i), cOne) + cOne
def degR (i : Fin 100000) : EReal := ∑ _e ∈ Finset.univ.filter (fun e => dstL dst e = i), cOne
def dinvK (i : Fin 100000) : EReal := Ideal.rsqrt (degK dst i)
def dinvR (i : Fin 100000) : EReal := Ideal.rsqrt (degR dst i)

def feat (h : Fin 100000 → Fin 128 → EReal) (W : Fin 128 → Fin 128 → EReal) : Fin 100000 → Fin 128 → EReal :=
  fun i j => ∑ k : Fin 128, h i k * W k j

def zprime (h : Fin 100000 → Fin 128 → EReal) (W : Fin 128 → Fin 128 → EReal) (d : Fin 100000 → EReal) :
    Fin 100000 → Fin 128 → EReal := fun i j => feat h W i j * d i

def scat (zp : Fin 100000 → Fin 128 → EReal) : Fin 100000 → Fin 128 → EReal :=
  fun i j => ∑ e ∈ Finset.univ.filter (fun e => dst e = i), zp (src e) j

def aggK (sc zp : Fin 100000 → Fin 128 → EReal) (d : Fin 100000 → EReal) (b : Fin 128 → EReal) :
    Fin 100000 → Fin 128 → EReal := fun i j => (sc i j + zp i j) * d i + b j

def aggR (h : Fin 100000 → Fin 128 → EReal) (W : Fin 128 → Fin 128 → EReal) (d : Fin 100000 → EReal) (b : Fin 128 → EReal) :
    Fin 100000 → Fin 128 → EReal :=
  fun i j => (∑ e ∈ Finset.univ.filter (fun e => dstL dst e = i),
      feat h W (srcL src e) j * (d (srcL src e) * d (dstL dst e))) + b j

end Graph

def colSum (a : Fin 100000 → Fin 128 → EReal) (j : Fin 128) : EReal := ∑ i : Fin 100000, a i j

def meanOf (a : Fin 100000 → Fin 128 → EReal) (j : Fin 128) : EReal := Ideal.div (colSum a j) cN

def varK (a : Fin 100000 → Fin 128 → EReal) (j : Fin 128) : EReal :=
  max (Ideal.div (colSum (fun i j => a i j * a i j) j) cN - meanOf a j * meanOf a j) 0
def scaleK (a : Fin 100000 → Fin 128 → EReal) (g : Fin 128 → EReal) (j : Fin 128) : EReal :=
  g j * Ideal.rsqrt (varK a j + cEps)
def shiftK (a : Fin 100000 → Fin 128 → EReal) (g β : Fin 128 → EReal) (j : Fin 128) : EReal :=
  β j - meanOf a j * scaleK a g j
def bnK (a : Fin 100000 → Fin 128 → EReal) (g β : Fin 128 → EReal) : Fin 100000 → Fin 128 → EReal :=
  fun i j => max (a i j * scaleK a g j + shiftK a g β j) 0

def varR (a : Fin 100000 → Fin 128 → EReal) (j : Fin 128) : EReal :=
  Ideal.div (colSum (fun i j => (a i j - meanOf a j) * (a i j - meanOf a j)) j) cN
def bnR (a : Fin 100000 → Fin 128 → EReal) (g β : Fin 128 → EReal) : Fin 100000 → Fin 128 → EReal :=
  fun i j => max ((a i j - meanOf a j) * Ideal.rsqrt (varR a j + cEps) * g j + β j) 0

section Layers
variable (src dst : Fin 1600000 → Fin 100000)
variable (cw : Fin 3 → Fin 128 → Fin 128 → EReal) (cb bg bb : Fin 3 → Fin 128 → EReal)

def layerK (l : Fin 3) (h : Fin 100000 → Fin 128 → EReal) : Fin 100000 → Fin 128 → EReal :=
  bnK (aggK (scat src dst (zprime h (cw l) (dinvK dst))) (zprime h (cw l) (dinvK dst)) (dinvK dst) (cb l)) (bg l) (bb l)
def layerR (l : Fin 3) (h : Fin 100000 → Fin 128 → EReal) : Fin 100000 → Fin 128 → EReal :=
  bnR (aggR src dst h (cw l) (dinvR dst) (cb l)) (bg l) (bb l)

def h1K (x : Fin 100000 → Fin 128 → EReal) := layerK src dst cw cb bg bb 0 x
def h2K (x : Fin 100000 → Fin 128 → EReal) : Fin 100000 → Fin 128 → EReal :=
  fun i j => layerK src dst cw cb bg bb 1 (h1K src dst cw cb bg bb x) i j + h1K src dst cw cb bg bb x i j
def h3K (x : Fin 100000 → Fin 128 → EReal) : Fin 100000 → Fin 128 → EReal :=
  fun i j => layerK src dst cw cb bg bb 2 (h2K src dst cw cb bg bb x) i j + h2K src dst cw cb bg bb x i j

def h1R (x : Fin 100000 → Fin 128 → EReal) := layerR src dst cw cb bg bb 0 x
def h2R (x : Fin 100000 → Fin 128 → EReal) : Fin 100000 → Fin 128 → EReal :=
  fun i j => layerR src dst cw cb bg bb 1 (h1R src dst cw cb bg bb x) i j + h1R src dst cw cb bg bb x i j
def h3R (x : Fin 100000 → Fin 128 → EReal) : Fin 100000 → Fin 128 → EReal :=
  fun i j => layerR src dst cw cb bg bb 2 (h2R src dst cw cb bg bb x) i j + h2R src dst cw cb bg bb x i j

end Layers

def score (h : Fin 100000 → Fin 128 → EReal) (w1 : Fin 128 → Fin 128 → EReal) (b1 : Fin 128 → EReal)
    (w2 : Fin 128 → EReal) (b2 : EReal) (i : Fin 100000) : EReal :=
  (∑ k : Fin 128, Ideal.tanh ((∑ l : Fin 128, h i l * w1 l k) + b1 k) * w2 k) + b2

def softmax (s : Fin 100000 → EReal) (i : Fin 100000) : EReal :=
  Ideal.div (Ideal.exp (s i - max cNegInf ((Finset.univ : Finset (Fin 100000)).fold max cNegInf s)))
    (∑ i' : Fin 100000, Ideal.exp (s i' - max cNegInf ((Finset.univ : Finset (Fin 100000)).fold max cNegInf s)))

section Pool
variable (bat : Fin 100000 → Fin 64)

def poolSumK (h : Fin 100000 → Fin 128 → EReal) (a : Fin 100000 → EReal) : Fin 64 → Fin 128 → EReal :=
  fun g j => ∑ i : Fin 100000, (if bat i = g then (1 : EReal) else 0) * (h i j * a i)
def poolCntK : Fin 64 → EReal := fun g => ∑ i : Fin 100000, (if bat i = g then (1 : EReal) else 0)
def poolSumR (h : Fin 100000 → Fin 128 → EReal) (a : Fin 100000 → EReal) : Fin 64 → Fin 128 → EReal :=
  fun g j => ∑ i ∈ Finset.univ.filter (fun i => bat i = g), h i j * a i
def poolCntR : Fin 64 → EReal := fun g => ∑ _i ∈ Finset.univ.filter (fun i => bat i = g), cOne

end Pool

def pooled (s : Fin 64 → Fin 128 → EReal) (n : Fin 64 → EReal) : Fin 64 → Fin 128 → EReal :=
  fun g j => Ideal.div (s g j) (max (n g) cOne)

def proj (p : Fin 64 → Fin 128 → EReal) (w1 : Fin 128 → Fin 128 → EReal) (b1 : Fin 128 → EReal)
    (w2 : Fin 128 → Fin 128 → EReal) (b2 : Fin 128 → EReal) : Fin 64 → Fin 128 → EReal :=
  fun g j => (∑ k : Fin 128, max ((∑ l : Fin 128, p g l * w1 l k) + b1 k) 0 * w2 k j) + b2 j

section Whole
variable (src dst : Fin 1600000 → Fin 100000) (bat : Fin 100000 → Fin 64)
variable (x : Fin 100000 → Fin 128 → EReal)
variable (cw : Fin 3 → Fin 128 → Fin 128 → EReal) (cb bg bb : Fin 3 → Fin 128 → EReal)
variable (aw1 : Fin 128 → Fin 128 → EReal) (ab1 : Fin 128 → EReal) (aw2 : Fin 128 → EReal) (ab2 : EReal)
variable (pw1 : Fin 128 → Fin 128 → EReal) (pb1 : Fin 128 → EReal) (pw2 : Fin 128 → Fin 128 → EReal) (pb2 : Fin 128 → EReal)

def outK : Fin 64 → Fin 128 → EReal :=
  proj (pooled
      (poolSumK bat (h3K src dst cw cb bg bb x) (softmax (score (h3K src dst cw cb bg bb x) aw1 ab1 aw2 ab2)))
      (poolCntK bat)) pw1 pb1 pw2 pb2

def outR : Fin 64 → Fin 128 → EReal :=
  proj (pooled
      (poolSumR bat (h3R src dst cw cb bg bb x) (softmax (score (h3R src dst cw cb bg bb x) aw1 ab1 aw2 ab2)))
      (poolCntR bat)) pw1 pb1 pw2 pb2

end Whole

def bnApply (a : Fin 100000 → Fin 128 → EReal) (sc sh : Fin 128 → EReal) : Fin 100000 → Fin 128 → EReal :=
  fun i j => max (a i j * sc j + sh j) 0

def halfRow (cc : Fin 2) (r : Fin 50000) : Fin 100000 := ⟨50000 * cc.val + r.val, by have := cc.isLt; have := r.isLt; omega⟩

def coreSum (a : Fin 100000 → Fin 128 → EReal) (cc : Fin 2) (j : Fin 128) : EReal := ∑ r : Fin 50000, a (halfRow cc r) j

def corePoolSum (bat : Fin 100000 → Fin 64) (h : Fin 100000 → Fin 128 → EReal) (a : Fin 100000 → EReal)
    (cc : Fin 2) (g : Fin 64) (j : Fin 128) : EReal :=
  ∑ r : Fin 50000, (if bat (halfRow cc r) = g then (1 : EReal) else 0) * (h (halfRow cc r) j * a (halfRow cc r))
def corePoolCnt (bat : Fin 100000 → Fin 64) (cc : Fin 2) (g : Fin 64) : EReal :=
  ∑ r : Fin 50000, (if bat (halfRow cc r) = g then (1 : EReal) else 0)

structure InRange (ei : IVec (⟨2, ![2, 1600000]⟩ : Shape) 32) (bt : IVec (⟨1, ![100000]⟩ : Shape) 32) : Prop where
  ei_lt : ∀ i, (ei i).toNat < 100000
  bt_lt : ∀ i, (bt i).toNat < 64

structure Inputs where
  src : Fin 1600000 → Fin 100000
  dst : Fin 1600000 → Fin 100000
  bat : Fin 100000 → Fin 64
  x : Fin 100000 → Fin 128 → EReal
  cw : Fin 3 → Fin 128 → Fin 128 → EReal
  cb : Fin 3 → Fin 128 → EReal
  bg : Fin 3 → Fin 128 → EReal
  bb : Fin 3 → Fin 128 → EReal
  aw1 : Fin 128 → Fin 128 → EReal
  ab1 : Fin 128 → EReal
  aw2 : Fin 128 → EReal
  ab2 : EReal
  pw1 : Fin 128 → Fin 128 → EReal
  pb1 : Fin 128 → EReal
  pw2 : Fin 128 → Fin 128 → EReal
  pb2 : Fin 128 → EReal

structure Inputs.Real (I : Inputs) : Prop where
  x : ∀ i j, ∃ r : ℝ, I.x i j = (r : EReal)
  cw : ∀ l k j, ∃ r : ℝ, I.cw l k j = (r : EReal)
  cb : ∀ l j, ∃ r : ℝ, I.cb l j = (r : EReal)
  bg : ∀ l j, ∃ r : ℝ, I.bg l j = (r : EReal)
  bb : ∀ l j, ∃ r : ℝ, I.bb l j = (r : EReal)

def Inputs.h3K (I : Inputs) := Cert.Spec.h3K I.src I.dst I.cw I.cb I.bg I.bb I.x
def Inputs.h3R (I : Inputs) := Cert.Spec.h3R I.src I.dst I.cw I.cb I.bg I.bb I.x
def Inputs.outK (I : Inputs) : Fin 64 → Fin 128 → EReal :=
  Cert.Spec.outK I.src I.dst I.bat I.x I.cw I.cb I.bg I.bb I.aw1 I.ab1 I.aw2 I.ab2 I.pw1 I.pb1 I.pw2 I.pb2
def Inputs.outR (I : Inputs) : Fin 64 → Fin 128 → EReal :=
  Cert.Spec.outR I.src I.dst I.bat I.x I.cw I.cb I.bg I.bb I.aw1 I.ab1 I.aw2 I.ab2 I.pw1 I.pb1 I.pw2 I.pb2

def ofArrays
    (a0 : (⟨2, ![100000, 128]⟩ : Shape).Idx → EReal) (a1 : IVec (⟨2, ![2, 1600000]⟩ : Shape) 32)
    (a2 : IVec (⟨1, ![100000]⟩ : Shape) 32) (a3 : (⟨3, ![3, 128, 128]⟩ : Shape).Idx → EReal)
    (a4 a5 a6 : (⟨2, ![3, 128]⟩ : Shape).Idx → EReal) (a7 : (⟨2, ![128, 128]⟩ : Shape).Idx → EReal)
    (a8 : (⟨1, ![128]⟩ : Shape).Idx → EReal) (a9 : (⟨2, ![128, 1]⟩ : Shape).Idx → EReal)
    (a10 : (⟨1, ![1]⟩ : Shape).Idx → EReal) (a11 : (⟨2, ![128, 128]⟩ : Shape).Idx → EReal)
    (a12 : (⟨1, ![128]⟩ : Shape).Idx → EReal) (a13 : (⟨2, ![128, 128]⟩ : Shape).Idx → EReal)
    (a14 : (⟨1, ![128]⟩ : Shape).Idx → EReal) (hr : InRange a1 a2) : Inputs where
  src e := ⟨(a1 (ix2 0 e)).toNat, hr.ei_lt _⟩
  dst e := ⟨(a1 (ix2 1 e)).toNat, hr.ei_lt _⟩
  bat i := ⟨(a2 (ix1 i)).toNat, hr.bt_lt _⟩
  x := mat2 a0
  cw := ten3 a3
  cb := mat2 a4
  bg := mat2 a5
  bb := mat2 a6
  aw1 := mat2 a7
  ab1 := vec1 a8
  aw2 := col a9
  ab2 := a10 (ix1 0)
  pw1 := mat2 a11
  pb1 := vec1 a12
  pw2 := mat2 a13
  pb2 := vec1 a14

end Cert.Spec

end
-- ==== Proof.PreFacts.lean ====
import proofs.«401495_j83210696393026_3_alg».proof.Pre_finite_inputs
import proofs.«401495_j83210696393026_3_alg».proof.Proof.Gen.Pre_finite_inputs
import proofs.«401495_j83210696393026_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec
open Cert.Pre_finite_inputs

instance : Subsingleton S_.Idx := ⟨fun a b => funext fun d => d.elim0⟩

theorem inf_bits : Ideal.ofBits .f32 0x7F800000#32 = (⊤ : EReal) := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_bits] at h
  simp only [Ideal.cmp, StableHlo.Predicate.ofBool_eq_one_iff, decide_eq_true_eq] at h
  induction x using EReal.rec with
  | bot => simp at h
  | coe r => exact ⟨r, rfl⟩
  | top => simp at h

theorem toNat_lt_of_cmp (w : BitVec 32) (n : Nat) (hn : n < 2 ^ 31) (h0 : IntOp.cmpi .sge w 0#32 = 1#1)
    (h1 : IntOp.cmpi .slt w (BitVec.ofNat 32 n) = 1#1) : w.toNat < n := by
  have hw : w.toNat < 2 ^ 31 := by
    unfold IntOp.cmpi at h0
    rw [StableHlo.Predicate.ofBool_eq_one_iff] at h0
    simp only [BitVec.sle, decide_eq_true_eq] at h0
    have h32 := w.isLt
    unfold BitVec.toInt at h0
    simp at h0
    omega
  have hb : (BitVec.ofNat 32 n).toNat = n := by simp [BitVec.toNat_ofNat]; omega
  have := (StableHlo.Predicate.slt_iff_toNat hw (by rw [hb]; exact hn)).1 h1
  rwa [hb] at this

theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf (F := Ideal) .olt (Host.absf (F := Ideal) x)
        (broadcastInDim s ![] hb (constant (F := Ideal) S_ .f32 0x7F800000#32))) (constantI S_ 1 1#1) hr h0 ix0 = 1#1) :
    ∀ i, ∃ r : ℝ, x i = (r : EReal) := by
  intro i
  have hi := Host.reduce_andi_all _ _ hr h0 ix0 e i
  exact real_of_abs_lt (x i) hi

theorem lt_of_all {s : Shape} {axes : List (Fin s.rank)} (x : IVec s 32) (n : Nat) (hn : n < 2 ^ 31)
    (hb : S_.BroadcastsInDim s (![] : Fin 0 → Fin s.rank)) (hr : s.ReducesTo axes S_) (h0 : 0 < S_.numel)
    (e : Host.reduce IntOp.andi (andi (cmpi .sge x (broadcastInDim s ![] hb (constantI S_ 32 0#32)))
        (cmpi .slt x (broadcastInDim s ![] hb (constantI S_ 32 (BitVec.ofNat 32 n))))) (constantI S_ 1 1#1) hr h0 ix0 = 1#1) :
    ∀ i, (x i).toNat < n := by
  intro i
  have hi := Host.reduce_andi_all _ _ hr h0 ix0 e i
  obtain ⟨h1, h2⟩ := IntOp.andi_eq_one.1 hi
  exact toNat_lt_of_cmp (x i) n hn h1 h2

theorem decode_raw [Cert.Pre_finite_inputs.Facts]
    (a0 : FVec Ideal S100000x128 .f32) (a1 : IVec S2x1600000 32) (a2 : IVec S100000 32)
    (a3 : FVec Ideal S3x128x128 .f32) (a4 a5 a6 : FVec Ideal S3x128 .f32) (a7 : FVec Ideal S128x128 .f32)
    (a8 : FVec Ideal S128 .f32) (a9 : FVec Ideal S128x1 .f32) (a10 : FVec Ideal S1 .f32)
    (a11 : FVec Ideal S128x128 .f32) (a12 : FVec Ideal S128 .f32) (a13 : FVec Ideal S128x128 .f32)
    (a14 : FVec Ideal S128 .f32)
    (h : fn (F := Ideal) a0 a1 a2 a3 a4 a5 a6 a7 a8 a9 a10 a11 a12 a13 a14 = fun _ => 1#1) :
    (∀ i, (a1 i).toNat < 100000) ∧ (∀ i, (a2 i).toNat < 64) ∧ (∀ i, ∃ r : ℝ, a0 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have e := congrFun h ix0
  dsimp only [fn, fn_part1, fn_part2, fn_part3, fn_part4] at e
  obtain ⟨e, e2⟩ := IntOp.andi_eq_one.1 e
  obtain ⟨e, e1⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨lt_of_all a1 100000 (by norm_num) _ _ _ e1, lt_of_all a2 64 (by norm_num) _ _ _ e2,
    real_of_all a0 _ _ _ e0, real_of_all a3 _ _ _ e3, real_of_all a4 _ _ _ e4, real_of_all a5 _ _ _ e5,
    real_of_all a6 _ _ _ e6⟩

theorem decode [Cert.Pre_finite_inputs.Facts]
    (a0 : FVec Ideal S100000x128 .f32) (a1 : IVec S2x1600000 32) (a2 : IVec S100000 32)
    (a3 : FVec Ideal S3x128x128 .f32) (a4 a5 a6 : FVec Ideal S3x128 .f32) (a7 : FVec Ideal S128x128 .f32)
    (a8 : FVec Ideal S128 .f32) (a9 : FVec Ideal S128x1 .f32) (a10 : FVec Ideal S1 .f32)
    (a11 : FVec Ideal S128x128 .f32) (a12 : FVec Ideal S128 .f32) (a13 : FVec Ideal S128x128 .f32)
    (a14 : FVec Ideal S128 .f32)
    (h : fn (F := Ideal) a0 a1 a2 a3 a4 a5 a6 a7 a8 a9 a10 a11 a12 a13 a14 = fun _ => 1#1) :
    ∃ hr : InRange a1 a2, (ofArrays a0 a1 a2 a3 a4 a5 a6 a7 a8 a9 a10 a11 a12 a13 a14 hr).Real := by
  obtain ⟨h1, h2, h0, h3, h4, h5, h6⟩ := decode_raw a0 a1 a2 a3 a4 a5 a6 a7 a8 a9 a10 a11 a12 a13 a14 h
  exact ⟨⟨h1, h2⟩, ⟨fun i j => h0 (ix2 i j), fun l k j => h3 (ix3 l k j), fun l j => h4 (ix2 l j),
    fun l j => h5 (ix2 l j), fun l j => h6 (ix2 l j)⟩⟩

end Cert.PreFacts

end
-- ==== Proof.AlgBasics.lean ====
import proofs.«401495_j83210696393026_3_alg».proof.Proof.Spec
import Mathlib.Data.EReal.Basic
import Mathlib.Data.EReal.Operations
import Mathlib.Algebra.BigOperators.Fin
import Mathlib.Logic.Equiv.Fin.Basic
import Mathlib.Analysis.SpecialFunctions.Pow.Real

noncomputable section

namespace Cert.Algebra

open Cert.Spec Idealize.ShloMosaic
open scoped BigOperators

theorem cOne_eq : cOne = 1 := by
  unfold cOne; simp [Ideal.ofBits, Ideal.ieee, -EReal.coe_mul] <;> norm_num
theorem cN_eq : cN = ((100000 : ℝ) : EReal) := by
  unfold cN; simp [Ideal.ofBits, Ideal.ieee, -EReal.coe_mul] <;> norm_num
theorem cEps_pos : ∃ e : ℝ, 0 < e ∧ cEps = (e : EReal) := by
  refine ⟨(10995116 : ℝ) * (2 : ℝ) ^ (-40 : Int), by positivity, ?_⟩
  unfold cEps; simp [Ideal.ofBits, Ideal.ieee, -EReal.coe_mul] <;> norm_num

theorem dstL_castAdd (dst : Fin 1600000 → Fin 100000) (e : Fin 1600000) :
    dstL dst (Fin.castAdd 100000 e) = dst e := by
  unfold dstL
  have h : (Fin.castAdd 100000 e).val < 1600000 := by simp
  rw [dif_pos h]; rfl

theorem dstL_natAdd (dst : Fin 1600000 → Fin 100000) (k : Fin 100000) :
    dstL dst (Fin.natAdd 1600000 k) = k := by
  unfold dstL
  have h : ¬ (Fin.natAdd 1600000 k).val < 1600000 := by simp
  rw [dif_neg h]; apply Fin.ext; simp

theorem sum_split (f : Fin 1700000 → EReal) :
    ∑ e, f e = ∑ e : Fin 1600000, f (Fin.castAdd 100000 e) + ∑ k : Fin 100000, f (Fin.natAdd 1600000 k) :=
  Fin.sum_univ_add (a := 1600000) (b := 100000) f

theorem degK_eq_degR (dst : Fin 1600000 → Fin 100000) : degK dst = degR dst := by
  funext i
  unfold degK degR
  rw [Finset.sum_filter, Finset.sum_filter, sum_split]
  simp only [dstL_castAdd, dstL_natAdd]
  rw [Finset.sum_ite_eq' Finset.univ i (fun _ => cOne)]
  simp

theorem sum_one_eq_card {α : Type} (s : Finset α) : ∑ _e ∈ s, (1 : EReal) = ((s.card : ℝ) : EReal) := by
  classical
  induction s using Finset.induction_on with
  | empty => simp
  | insert a s ha ih =>
    rw [Finset.sum_insert ha, ih, Finset.card_insert_of_notMem ha]
    push_cast
    rw [add_comm]

theorem degK_real (dst : Fin 1600000 → Fin 100000) (i : Fin 100000) :
    degK dst i = (((((Finset.univ.filter (fun e => dst e = i)).card : ℝ) + 1 : ℝ)) : EReal) := by
  unfold degK
  rw [cOne_eq, sum_one_eq_card, EReal.coe_add, EReal.coe_one]

theorem dinvK_pos (dst : Fin 1600000 → Fin 100000) :
    ∃ r : Fin 100000 → ℝ, (∀ i, 0 < r i) ∧ ∀ i, dinvK dst i = ((r i : ℝ) : EReal) := by
  refine ⟨fun i => (Real.sqrt (((Finset.univ.filter (fun e => dst e = i)).card : ℝ) + 1))⁻¹, fun i => ?_, fun i => ?_⟩
  · have h : (0 : ℝ) < ((Finset.univ.filter (fun e => dst e = i)).card : ℝ) + 1 := by positivity
    exact inv_pos.mpr (Real.sqrt_pos.mpr h)
  · have h : (0 : ℝ) < ((Finset.univ.filter (fun e => dst e = i)).card : ℝ) + 1 := by positivity
    unfold dinvK
    rw [degK_real, Ideal.rsqrt_coe, if_neg (not_lt.mpr h.le), if_neg h.ne']

theorem dinvK_eq_dinvR (dst : Fin 1600000 → Fin 100000) : dinvK dst = dinvR dst := by
  funext i; unfold dinvK dinvR; rw [degK_eq_degR]

theorem poolSumK_eq_poolSumR (bat : Fin 100000 → Fin 64) (h : Fin 100000 → Fin 128 → EReal) (a : Fin 100000 → EReal) :
    poolSumK bat h a = poolSumR bat h a := by
  funext g j
  unfold poolSumK poolSumR
  rw [Finset.sum_filter]
  refine Finset.sum_congr rfl (fun i _ => ?_)
  by_cases hb : bat i = g
  · rw [if_pos hb, if_pos hb, one_mul]
  · rw [if_neg hb, if_neg hb, zero_mul]

theorem poolCntK_eq_poolCntR (bat : Fin 100000 → Fin 64) : poolCntK bat = poolCntR bat := by
  funext g
  unfold poolCntK poolCntR
  rw [cOne_eq, Finset.sum_filter]

theorem halfRow_zero (r : Fin 50000) : halfRow 0 r = Fin.castAdd 50000 r := by
  apply Fin.ext; simp [halfRow]

theorem halfRow_one (r : Fin 50000) : halfRow 1 r = Fin.natAdd 50000 r := by
  apply Fin.ext; simp [halfRow] <;> omega

theorem sum_halves {M : Type*} [AddCommMonoid M] (f : Fin 100000 → M) :
    ∑ i, f i = ∑ r : Fin 50000, f (halfRow 0 r) + ∑ r : Fin 50000, f (halfRow 1 r) := by
  simp only [halfRow_zero, halfRow_one]
  exact Fin.sum_univ_add (a := 50000) (b := 50000) f

theorem colSum_eq_coreSum (a : Fin 100000 → Fin 128 → EReal) (j : Fin 128) :
    colSum a j = coreSum a 0 j + coreSum a 1 j := by
  unfold colSum coreSum
  exact sum_halves (fun i => a i j)

theorem poolSumK_eq_core (bat : Fin 100000 → Fin 64) (h : Fin 100000 → Fin 128 → EReal) (a : Fin 100000 → EReal)
    (g : Fin 64) (j : Fin 128) : poolSumK bat h a g j = corePoolSum bat h a 0 g j + corePoolSum bat h a 1 g j := by
  unfold poolSumK corePoolSum
  exact sum_halves (fun i => (if bat i = g then (1 : EReal) else 0) * (h i j * a i))

theorem poolCntK_eq_core (bat : Fin 100000 → Fin 64) (g : Fin 64) :
    poolCntK bat g = corePoolCnt bat 0 g + corePoolCnt bat 1 g := by
  unfold poolCntK corePoolCnt
  exact sum_halves (fun i => if bat i = g then (1 : EReal) else 0)

theorem sum_half_eq_blocks {M : Type*} [AddCommMonoid M] (f : Fin 100000 → M) (cc : Fin 2) :
    ∑ r : Fin 50000, f (halfRow cc r)
      = ∑ tt : Fin 10, ∑ r : Fin 5000, f ⟨50000 * cc.val + 5000 * tt.val + r.val, by have := cc.isLt; have := tt.isLt; have := r.isLt; omega⟩ := by
  rw [← Equiv.sum_comp (finProdFinEquiv (m := 10) (n := 5000)) (fun r : Fin 50000 => f (halfRow cc r)),
    Fintype.sum_prod_type]
  refine Finset.sum_congr rfl (fun tt _ => Finset.sum_congr rfl (fun r _ => ?_))
  congr 1
  apply Fin.ext
  simp only [halfRow, finProdFinEquiv_apply_val]
  omega

end Cert.Algebra

end
-- ==== Proof.AlgAgg.lean ====
import proofs.«401495_j83210696393026_3_alg».proof.Proof.Spec
import Mathlib.Data.EReal.Operations
import Mathlib.Algebra.BigOperators.Fin

noncomputable section

namespace Cert.Algebra

open Cert.Spec
open scoped BigOperators

theorem agg_coe_sum {ι : Type} (s : Finset ι) (f : ι → ℝ) :
    ((∑ a ∈ s, f a : ℝ) : EReal) = ∑ a ∈ s, (f a : EReal) := by
  classical
  refine Finset.induction_on s (by simp) ?_
  intro a s ha ih
  rw [Finset.sum_insert ha, Finset.sum_insert ha, EReal.coe_add, ih]

theorem agg_dstL_castAdd (dst : Fin 1600000 → Fin 100000) (e : Fin 1600000) :
    dstL dst (Fin.castAdd 100000 e) = dst e := by
  have h : (Fin.castAdd 100000 e).val < 1600000 := e.isLt
  unfold dstL
  rw [dif_pos h]
  rfl

theorem agg_srcL_castAdd (src : Fin 1600000 → Fin 100000) (e : Fin 1600000) :
    srcL src (Fin.castAdd 100000 e) = src e := by
  have h : (Fin.castAdd 100000 e).val < 1600000 := e.isLt
  unfold srcL
  rw [dif_pos h]
  rfl

theorem agg_dstL_natAdd (dst : Fin 1600000 → Fin 100000) (i : Fin 100000) :
    dstL dst (Fin.natAdd 1600000 i) = i := by
  have h : ¬ (Fin.natAdd 1600000 i).val < 1600000 := by
    rw [Fin.val_natAdd]; omega
  unfold dstL
  rw [dif_neg h]
  apply Fin.ext
  show (Fin.natAdd 1600000 i).val - 1600000 = i.val
  rw [Fin.val_natAdd]; omega

theorem agg_srcL_natAdd (src : Fin 1600000 → Fin 100000) (i : Fin 100000) :
    srcL src (Fin.natAdd 1600000 i) = i := by
  have h : ¬ (Fin.natAdd 1600000 i).val < 1600000 := by
    rw [Fin.val_natAdd]; omega
  unfold srcL
  rw [dif_neg h]
  apply Fin.ext
  show (Fin.natAdd 1600000 i).val - 1600000 = i.val
  rw [Fin.val_natAdd]; omega

theorem agg_sum_loops {M : Type} [AddCommMonoid M] (src dst : Fin 1600000 → Fin 100000) (i : Fin 100000)
    (f : Fin 100000 → Fin 100000 → M) :
    ∑ e ∈ Finset.univ.filter (fun e => dstL dst e = i), f (srcL src e) (dstL dst e)
      = (∑ e ∈ Finset.univ.filter (fun e => dst e = i), f (src e) i) + f i i := by
  rw [Finset.sum_filter, Finset.sum_filter]
  have key := Fin.sum_univ_add (M := M) (a := 1600000) (b := 100000)
    (fun e : Fin (1600000 + 100000) => if dstL dst e = i then f (srcL src e) (dstL dst e) else 0)
  refine key.trans (congrArg₂ (· + ·) ?_ ?_)
  · refine Finset.sum_congr rfl (fun e _ => ?_)
    simp only [agg_dstL_castAdd, agg_srcL_castAdd]
    by_cases he : dst e = i
    · rw [if_pos he, if_pos he, he]
    · rw [if_neg he, if_neg he]
  · simp only [agg_dstL_natAdd, agg_srcL_natAdd]
    rw [Finset.sum_ite_eq']
    simp

theorem agg_eq (src dst : Fin 1600000 → Fin 100000)
    (h : Fin 100000 → Fin 128 → EReal) (W : Fin 128 → Fin 128 → EReal) (d : Fin 100000 → EReal) (b : Fin 128 → EReal)
    (hh : ∀ i j, ∃ r : ℝ, h i j = (r : EReal)) (hW : ∀ k j, ∃ r : ℝ, W k j = (r : EReal))
    (hd : ∀ i, ∃ r : ℝ, d i = (r : EReal)) (hb : ∀ j, ∃ r : ℝ, b j = (r : EReal)) :
    aggK (scat src dst (zprime h W d)) (zprime h W d) d b = aggR src dst h W d b
    ∧ ∀ i j, ∃ r : ℝ, aggR src dst h W d b i j = (r : EReal) := by
  choose hr hhr using hh
  choose Wr hWr using hW
  choose dr hdr using hd
  choose br hbr using hb
  have hR : ∀ i j, aggR src dst h W d b i j
      = (((∑ e ∈ Finset.univ.filter (fun e => dst e = i),
            (∑ k : Fin 128, hr (src e) k * Wr k j) * (dr (src e) * dr i))
          + (∑ k : Fin 128, hr i k * Wr k j) * (dr i * dr i) + br j : ℝ) : EReal) := by
    intro i j
    unfold aggR
    rw [agg_sum_loops src dst i (fun a c => feat h W a j * (d a * d c))]
    simp only [feat, hhr, hWr, hdr, hbr, EReal.coe_add, EReal.coe_mul, agg_coe_sum]
  have hK : ∀ i j, aggK (scat src dst (zprime h W d)) (zprime h W d) d b i j
      = ((((∑ e ∈ Finset.univ.filter (fun e => dst e = i),
            (∑ k : Fin 128, hr (src e) k * Wr k j) * dr (src e))
          + (∑ k : Fin 128, hr i k * Wr k j) * dr i) * dr i + br j : ℝ) : EReal) := by
    intro i j
    simp only [aggK, scat, zprime, feat, hhr, hWr, hdr, hbr, EReal.coe_add, EReal.coe_mul, agg_coe_sum]
  refine ⟨?_, fun i j => ⟨_, hR i j⟩⟩
  funext i j
  rw [hK, hR, EReal.coe_eq_coe_iff]
  rw [add_mul, Finset.sum_mul]
  simp only [mul_assoc]

end Cert.Algebra

end
-- ==== Proof.AlgBn.lean ====
import proofs.«401495_j83210696393026_3_alg».proof.Proof.Spec
import proofs.«401495_j83210696393026_3_alg».proof.Proof.AlgBasics
import Mathlib.Data.EReal.Operations
import Mathlib.Algebra.BigOperators.Ring.Finset
import Mathlib.Algebra.Order.BigOperators.Group.Finset
import Mathlib.Tactic.FieldSimp
import Mathlib.Tactic.Ring
import Mathlib.Tactic.Linarith

noncomputable section

namespace Cert.Algebra

open Cert.Spec
open Idealize.ShloMosaic
open scoped BigOperators

private theorem coe_finsum {ι : Type*} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

private theorem real_var_identity {ι : Type*} [Fintype ι] (f : ι → ℝ) (N : ℝ) (hN : N ≠ 0)
    (hcard : (Fintype.card ι : ℝ) = N) :
    (∑ i, f i * f i) * (1 / N) - ((∑ i, f i) * (1 / N)) * ((∑ i, f i) * (1 / N))
      = (∑ i, (f i - (∑ i, f i) * (1 / N)) * (f i - (∑ i, f i) * (1 / N))) * (1 / N) := by
  obtain ⟨S, hS⟩ : ∃ S : ℝ, S = ∑ i, f i := ⟨_, rfl⟩
  rw [← hS]
  have h1 : ∑ i, (f i - S * (1 / N)) * (f i - S * (1 / N))
      = (∑ i, f i * f i) - 2 * (S * (1 / N)) * S + N * ((S * (1 / N)) * (S * (1 / N))) := by
    have h2 : ∀ i, (f i - S * (1 / N)) * (f i - S * (1 / N))
        = f i * f i - 2 * (S * (1 / N)) * f i + (S * (1 / N)) * (S * (1 / N)) := fun i => by ring
    simp only [h2]
    rw [Finset.sum_add_distrib, Finset.sum_sub_distrib, ← Finset.mul_sum, Finset.sum_const, Finset.card_univ,
      nsmul_eq_mul, hcard, ← hS]
  rw [h1]
  field_simp
  ring

private theorem div_cN (x : ℝ) : Ideal.div (x : EReal) cN = ((x * (1 / 100000) : ℝ) : EReal) := by
  rw [cN_eq, Ideal.div_coe (by norm_num : (100000 : ℝ) ≠ 0), ← EReal.coe_mul]

private theorem colSum_of (a : Fin 100000 → Fin 128 → EReal) (j : Fin 128) (f : Fin 100000 → ℝ)
    (h : ∀ i, a i j = (f i : EReal)) : colSum a j = ((∑ i, f i : ℝ) : EReal) := by
  unfold colSum
  rw [← coe_finsum]
  exact Finset.sum_congr rfl fun i _ => h i

private theorem meanOf_of (a : Fin 100000 → Fin 128 → EReal) (j : Fin 128) (f : Fin 100000 → ℝ)
    (h : ∀ i, a i j = (f i : EReal)) : meanOf a j = (((∑ i, f i) * (1 / 100000) : ℝ) : EReal) := by
  unfold meanOf
  rw [colSum_of a j f h, div_cN]

private theorem bn_col (a : Fin 100000 → Fin 128 → EReal) (g β : Fin 128 → EReal) (j : Fin 128)
    (f : Fin 100000 → ℝ) (γ b : ℝ) (hf : ∀ i, a i j = (f i : EReal)) (hg : g j = (γ : EReal))
    (hβ : β j = (b : EReal)) (i : Fin 100000) :
    bnK a g β i j = bnR a g β i j ∧ ∃ r : ℝ, bnR a g β i j = (r : EReal) := by
  obtain ⟨e, he, hce⟩ := cEps_pos
  obtain ⟨μ, hμ⟩ : ∃ μ : ℝ, μ = (∑ i, f i) * (1 / 100000) := ⟨_, rfl⟩
  obtain ⟨v, hv⟩ : ∃ v : ℝ, v = (∑ i, (f i - μ) * (f i - μ)) * (1 / 100000) := ⟨_, rfl⟩
  have hv0 : 0 ≤ v := by
    rw [hv]; exact mul_nonneg (Finset.sum_nonneg fun i _ => mul_self_nonneg _) (by norm_num)
  have hmean : meanOf a j = (μ : EReal) := by rw [hμ]; exact meanOf_of a j f hf
  have hvR : varR a j = (v : EReal) := by
    unfold varR
    rw [colSum_of _ j (fun i => (f i - μ) * (f i - μ)) (fun i => by
      show (a i j - meanOf a j) * (a i j - meanOf a j) = _
      rw [hf i, hmean, ← EReal.coe_sub, ← EReal.coe_mul]), div_cN, hv]
  have hid : (∑ i, f i * f i) * (1 / 100000) - μ * μ = v := by
    rw [hv, hμ]; exact real_var_identity f 100000 (by norm_num) (by simp)
  have hvK : varK a j = (v : EReal) := by
    unfold varK
    rw [colSum_of _ j (fun i => f i * f i) (fun i => by
      show a i j * a i j = _
      rw [hf i, ← EReal.coe_mul]), div_cN, hmean, ← EReal.coe_mul, ← EReal.coe_sub, hid]
    exact max_eq_left (EReal.coe_nonneg.2 hv0)
  have hpos : 0 < v + e := by linarith
  obtain ⟨r, hr⟩ : ∃ r : ℝ, r = (Real.sqrt (v + e))⁻¹ := ⟨_, rfl⟩
  have hrs : Ideal.rsqrt ((v : EReal) + cEps) = (r : EReal) := by
    rw [hce, ← EReal.coe_add, Ideal.rsqrt_coe, if_neg (not_lt.2 hpos.le), if_neg hpos.ne', hr]
  have hscale : scaleK a g j = ((γ * r : ℝ) : EReal) := by
    unfold scaleK; rw [hg, hvK, hrs, ← EReal.coe_mul]
  have hshift : shiftK a g β j = ((b - μ * (γ * r) : ℝ) : EReal) := by
    unfold shiftK; rw [hβ, hmean, hscale, ← EReal.coe_mul, ← EReal.coe_sub]
  have hmono : Monotone (fun x : ℝ => (x : EReal)) := fun _ _ h => EReal.coe_le_coe_iff.2 h
  have hR : bnR a g β i j = ((max ((f i - μ) * r * γ + b) 0 : ℝ) : EReal) := by
    show max ((a i j - meanOf a j) * Ideal.rsqrt (varR a j + cEps) * g j + β j) 0 = _
    rw [hf i, hmean, hvR, hrs, hg, hβ, ← EReal.coe_sub, ← EReal.coe_mul, ← EReal.coe_mul, ← EReal.coe_add,
      hmono.map_max, EReal.coe_zero]
  have hK : bnK a g β i j = ((max ((f i - μ) * r * γ + b) 0 : ℝ) : EReal) := by
    show max (a i j * scaleK a g j + shiftK a g β j) 0 = _
    have hring : f i * (γ * r) + (b - μ * (γ * r)) = (f i - μ) * r * γ + b := by ring
    rw [hf i, hscale, hshift, ← EReal.coe_mul, ← EReal.coe_add, hring, hmono.map_max, EReal.coe_zero]
  exact ⟨hK.trans hR.symm, _, hR⟩

theorem bn_eq (a : Fin 100000 → Fin 128 → EReal) (g β : Fin 128 → EReal)
    (ha : ∀ i j, ∃ r : ℝ, a i j = (r : EReal)) (hg : ∀ j, ∃ r : ℝ, g j = (r : EReal)) (hβ : ∀ j, ∃ r : ℝ, β j = (r : EReal)) :
    bnK a g β = bnR a g β ∧ ∀ i j, ∃ r : ℝ, bnR a g β i j = (r : EReal) := by
  choose ar har using ha
  choose gr hgr using hg
  choose br hbr using hβ
  have key : ∀ i j, bnK a g β i j = bnR a g β i j ∧ ∃ r : ℝ, bnR a g β i j = (r : EReal) := fun i j =>
    bn_col a g β j (fun i => ar i j) (gr j) (br j) (fun i => har i j) (hgr j) (hbr j) i
  exact ⟨funext fun i => funext fun j => (key i j).1, fun i j => (key i j).2⟩

end Cert.Algebra

end
-- ==== Proof.Algebra.lean ====
import proofs.«401495_j83210696393026_3_alg».proof.Proof.Spec
import proofs.«401495_j83210696393026_3_alg».proof.Proof.AlgBasics
import proofs.«401495_j83210696393026_3_alg».proof.Proof.AlgAgg
import proofs.«401495_j83210696393026_3_alg».proof.Proof.AlgBn
import Mathlib.Data.EReal.Basic

noncomputable section

namespace Cert.Algebra

open Cert.Spec
open scoped BigOperators

theorem layer_eq (src dst : Fin 1600000 → Fin 100000)
    (cw : Fin 3 → Fin 128 → Fin 128 → EReal) (cb bg bb : Fin 3 → Fin 128 → EReal)
    (hcw : ∀ l k j, ∃ r : ℝ, cw l k j = (r : EReal)) (hcb : ∀ l j, ∃ r : ℝ, cb l j = (r : EReal))
    (hbg : ∀ l j, ∃ r : ℝ, bg l j = (r : EReal)) (hbb : ∀ l j, ∃ r : ℝ, bb l j = (r : EReal))
    (l : Fin 3) (h : Fin 100000 → Fin 128 → EReal) (hh : ∀ i j, ∃ r : ℝ, h i j = (r : EReal)) :
    layerK src dst cw cb bg bb l h = layerR src dst cw cb bg bb l h
    ∧ ∀ i j, ∃ r : ℝ, layerR src dst cw cb bg bb l h i j = (r : EReal) := by
  obtain ⟨r, _, hr⟩ := dinvK_pos dst
  obtain ⟨hagg, haggR⟩ := agg_eq src dst h (cw l) (dinvK dst) (cb l) hh (hcw l) (fun i => ⟨r i, hr i⟩) (hcb l)
  unfold layerK layerR
  rw [hagg, ← dinvK_eq_dinvR]
  exact bn_eq _ (bg l) (bb l) haggR (hbg l) (hbb l)

section Chain
variable (src dst : Fin 1600000 → Fin 100000)
variable (cw : Fin 3 → Fin 128 → Fin 128 → EReal) (cb bg bb : Fin 3 → Fin 128 → EReal)
variable (hcw : ∀ l k j, ∃ r : ℝ, cw l k j = (r : EReal)) (hcb : ∀ l j, ∃ r : ℝ, cb l j = (r : EReal))
variable (hbg : ∀ l j, ∃ r : ℝ, bg l j = (r : EReal)) (hbb : ∀ l j, ∃ r : ℝ, bb l j = (r : EReal))
variable (x : Fin 100000 → Fin 128 → EReal) (hx : ∀ i j, ∃ r : ℝ, x i j = (r : EReal))
include hcw hcb hbg hbb hx

theorem h1_eq : h1K src dst cw cb bg bb x = h1R src dst cw cb bg bb x
    ∧ ∀ i j, ∃ r : ℝ, h1R src dst cw cb bg bb x i j = (r : EReal) :=
  layer_eq src dst cw cb bg bb hcw hcb hbg hbb 0 x hx

theorem h2_eq : h2K src dst cw cb bg bb x = h2R src dst cw cb bg bb x
    ∧ ∀ i j, ∃ r : ℝ, h2R src dst cw cb bg bb x i j = (r : EReal) := by
  obtain ⟨e1, r1⟩ := h1_eq src dst cw cb bg bb hcw hcb hbg hbb x hx
  obtain ⟨e2, r2⟩ := layer_eq src dst cw cb bg bb hcw hcb hbg hbb 1 (h1R src dst cw cb bg bb x) r1
  refine ⟨?_, ?_⟩
  · funext i j
    show layerK src dst cw cb bg bb 1 (h1K src dst cw cb bg bb x) i j + h1K src dst cw cb bg bb x i j
      = layerR src dst cw cb bg bb 1 (h1R src dst cw cb bg bb x) i j + h1R src dst cw cb bg bb x i j
    rw [e1, e2]
  · intro i j
    obtain ⟨p, hp⟩ := r2 i j
    obtain ⟨q, hq⟩ := r1 i j
    refine ⟨p + q, ?_⟩
    show layerR src dst cw cb bg bb 1 (h1R src dst cw cb bg bb x) i j + h1R src dst cw cb bg bb x i j = _
    rw [hp, hq, EReal.coe_add]

theorem h3_chain : h3K src dst cw cb bg bb x = h3R src dst cw cb bg bb x
    ∧ ∀ i j, ∃ r : ℝ, h3R src dst cw cb bg bb x i j = (r : EReal) := by
  obtain ⟨e1, r1⟩ := h2_eq src dst cw cb bg bb hcw hcb hbg hbb x hx
  obtain ⟨e2, r2⟩ := layer_eq src dst cw cb bg bb hcw hcb hbg hbb 2 (h2R src dst cw cb bg bb x) r1
  refine ⟨?_, ?_⟩
  · funext i j
    show layerK src dst cw cb bg bb 2 (h2K src dst cw cb bg bb x) i j + h2K src dst cw cb bg bb x i j
      = layerR src dst cw cb bg bb 2 (h2R src dst cw cb bg bb x) i j + h2R src dst cw cb bg bb x i j
    rw [e1, e2]
  · intro i j
    obtain ⟨p, hp⟩ := r2 i j
    obtain ⟨q, hq⟩ := r1 i j
    refine ⟨p + q, ?_⟩
    show layerR src dst cw cb bg bb 2 (h2R src dst cw cb bg bb x) i j + h2R src dst cw cb bg bb x i j = _
    rw [hp, hq, EReal.coe_add]

end Chain

theorem h3_eq (I : Inputs) (hI : I.Real) : I.h3K = I.h3R :=
  (h3_chain I.src I.dst I.cw I.cb I.bg I.bb hI.cw hI.cb hI.bg hI.bb I.x hI.x).1

theorem out_eq (I : Inputs) (hI : I.Real) : I.outK = I.outR := by
  have h3 : Cert.Spec.h3K I.src I.dst I.cw I.cb I.bg I.bb I.x = Cert.Spec.h3R I.src I.dst I.cw I.cb I.bg I.bb I.x :=
    h3_eq I hI
  unfold Inputs.outK Inputs.outR outK outR
  rw [h3, poolSumK_eq_poolSumR, poolCntK_eq_poolCntR]

end Cert.Algebra

end
-- ==== Proof.KFacts.lean ====
import proofs.«401495_j83210696393026_3_alg».proof.Proof.Gen.KernelIdeal.Frame
import proofs.«401495_j83210696393026_3_alg».proof.Proof.Spec

set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)

def ins (hr : InRange (m ((c : Thread nD τ).loc main_arg1)) (m ((c : Thread nD τ).loc main_arg2))) : Inputs :=
  ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) hr

structure Graph (hr : InRange (m ((c : Thread nD τ).loc main_arg1)) (m ((c : Thread nD τ).loc main_arg2)))
    (W : Valuation τ sig (Elt Ideal)) : Prop where
  dinv : W (Proc.devRef .tc main_v12) = colArr (dinvK (ins m c hr).dst)
  srcw : W (Proc.devRef .tc main_v2) = (fun i => (m ((c : Thread nD τ).loc main_arg1)) (ix2 0 (i 0)))
  dstw : W (Proc.devRef .tc main_v4) = (fun i => (m ((c : Thread nD τ).loc main_arg1)) (ix2 1 (i 0)))
  arg0 : W (Proc.devRef .tc main_arg0) = (m ((c : Thread nD τ).loc main_arg0))
  arg1 : W (Proc.devRef .tc main_arg1) = (m ((c : Thread nD τ).loc main_arg1))
  arg2 : W (Proc.devRef .tc main_arg2) = (m ((c : Thread nD τ).loc main_arg2))
  arg3 : W (Proc.devRef .tc main_arg3) = (m ((c : Thread nD τ).loc main_arg3))
  arg4 : W (Proc.devRef .tc main_arg4) = (m ((c : Thread nD τ).loc main_arg4))
  arg5 : W (Proc.devRef .tc main_arg5) = (m ((c : Thread nD τ).loc main_arg5))
  arg6 : W (Proc.devRef .tc main_arg6) = (m ((c : Thread nD τ).loc main_arg6))
  arg7 : W (Proc.devRef .tc main_arg7) = (m ((c : Thread nD τ).loc main_arg7))
  arg8 : W (Proc.devRef .tc main_arg8) = (m ((c : Thread nD τ).loc main_arg8))
  arg9 : W (Proc.devRef .tc main_arg9) = (m ((c : Thread nD τ).loc main_arg9))
  arg10 : W (Proc.devRef .tc main_arg10) = (m ((c : Thread nD τ).loc main_arg10))
  arg11 : W (Proc.devRef .tc main_arg11) = (m ((c : Thread nD τ).loc main_arg11))
  arg12 : W (Proc.devRef .tc main_arg12) = (m ((c : Thread nD τ).loc main_arg12))
  arg13 : W (Proc.devRef .tc main_arg13) = (m ((c : Thread nD τ).loc main_arg13))
  arg14 : W (Proc.devRef .tc main_arg14) = (m ((c : Thread nD τ).loc main_arg14))

end Cert.KernelIdeal.Chain

end
-- ==== Proof.LibIndex.lean ====
import Idealize.ShloMosaic.PureOps.Ideal
import Idealize.ShloMosaic.Lib.ValueIdx
import Idealize.ShloMosaic.Lib.StableHlo.Predicate

noncomputable section

namespace Cert.LibIndex

open Idealize.ShloMosaic Idealize.ShloMosaic.ValueIdx

theorem toInt_toNat_of_lt {a : BitVec 32} (ha : a.toNat < 2 ^ 31) : a.toInt.toNat = a.toNat := by
  rw [StableHlo.Predicate.toInt_eq_toNat_of_lt ha]; simp

theorem gather_rows_inrange {α : Type} {A B M : Nat} (d : GatherDims ⟨2, ![A, B]⟩ ⟨2, ![M, 1]⟩ ⟨2, ![M, B]⟩)
    (hoff : d.offsetDims = [1]) (hcoll : d.collapsedSliceDims = [0]) (hob : d.operandBatchingDims = [])
    (hsim : d.startIndexMap = [0]) (hivd : d.indexVectorDim = 1)
    (x : (⟨2, ![A, B]⟩ : Shape).Idx → α) (idx : IVec ⟨2, ![M, 1]⟩ 32) (e : Fin M) (b : Fin B) (hA : A ≤ 2 ^ 31)
    (h : (idx (ix2 e (0 : Fin 1))).toNat < A) :
    Host.gather d x idx (ix2 e b) = x (ix2 ⟨(idx (ix2 e (0 : Fin 1))).toNat, h⟩ b) := by
  obtain ⟨od, csd, obd, sibd, sim, ivd, ss, wf⟩ := d
  dsimp only at hoff hcoll hob hsim hivd
  subst hoff hcoll hob hsim hivd
  have hsl : ss 0 = 1 :=
    GatherDims.slice_collapsed ⟨[1], [0], [], sibd, [0], 1, ss, wf⟩ 0 (List.mem_singleton.2 rfl)
  unfold Host.gather
  congr 1
  funext a
  apply Fin.ext
  match a with
  | ⟨0, _⟩ =>
    show GatherDims.start ⟨[1], [0], [], sibd, [0], 1, ss, wf⟩ (ix2 e b) idx 0
      + GatherDims.batchCoord ⟨[1], [0], [], sibd, [0], 1, ss, wf⟩ (ix2 e b) 0
      + GatherDims.offCoord ⟨[1], [0], [], sibd, [0], 1, ss, wf⟩ (ix2 e b) 0 = (idx (ix2 e (0 : Fin 1))).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx ⟨[1], [0], [], sibd, [0], 1, ss, wf⟩ (ix2 e b)
        ⟨List.idxOf (0 : Fin 2) [0], List.idxOf_lt_length_iff.2 (List.mem_singleton.mpr rfl)⟩ = ix2 e (0 : Fin 1) := by
      funext c; apply Fin.ext
      match c with
      | ⟨0, _⟩ => rfl
      | ⟨1, _⟩ => rfl
    rw [hsi]
    show min (idx (ix2 e (0 : Fin 1))).toInt.toNat (A - ss 0) = _
    rw [hsl, toInt_toNat_of_lt (by omega)]
    omega
  | ⟨1, _⟩ =>
    show GatherDims.start ⟨[1], [0], [], sibd, [0], 1, ss, wf⟩ (ix2 e b) idx 1
      + GatherDims.batchCoord ⟨[1], [0], [], sibd, [0], 1, ss, wf⟩ (ix2 e b) 1
      + GatherDims.offCoord ⟨[1], [0], [], sibd, [0], 1, ss, wf⟩ (ix2 e b) 1 = b.val
    have hs : GatherDims.start ⟨[1], [0], [], sibd, [0], 1, ss, wf⟩ (ix2 e b) idx 1 = 0 := by
      unfold GatherDims.start; rw [dif_neg (by simp)]
    have ho : GatherDims.offCoord ⟨[1], [0], [], sibd, [0], 1, ss, wf⟩ (ix2 e b) 1 = b.val := by
      rfl
    rw [GatherDims.batchCoord_eq_zero _ _ _ List.not_mem_nil, hs, ho]
    omega

theorem gather_flat_inrange {α : Type} {A M : Nat} (d : GatherDims ⟨1, ![A]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![A]⟩ : Shape).Idx → α) (idx : IVec ⟨2, ![M, 1]⟩ 32) (e : Fin M) (hA : A ≤ 2 ^ 31)
    (h : (idx (ix2 e (0 : Fin 1))).toNat < A) :
    Host.gather d x idx (ix1 e) = x (ix1 ⟨(idx (ix2 e (0 : Fin 1))).toNat, h⟩) := by
  rw [show (ix1 e : (⟨1, ![M]⟩ : Shape).Idx) = Shape.Idx.ofFin e from funext fun a => by match a with | ⟨0, _⟩ => rfl,
    StableHlo.Predicate.gather_take d hcoll hob hsim hivd x idx e (by omega)]
  refine congrArg x (funext fun a => Fin.ext ?_)
  match a with
  | ⟨0, _⟩ =>
    show min (idx (StableHlo.Predicate.ixP e)).toInt.toNat (A - 1) = (idx (ix2 e (0 : Fin 1))).toNat
    rw [show StableHlo.Predicate.ixP e = ix2 e (0 : Fin 1) from funext fun a => by match a with | ⟨0, _⟩ => rfl | ⟨1, _⟩ => rfl,
      toInt_toNat_of_lt (by omega)]
    omega

theorem clip_word (w hi : BitVec 32) (hhi : hi.toNat < 2 ^ 31) (hw : w.toNat ≤ hi.toNat) :
    IntOp.minsi hi (IntOp.maxsi 0#32 w) = w := by
  have hti : w.toInt = w.toNat := StableHlo.Predicate.toInt_eq_toNat_of_lt (by omega)
  have hth : hi.toInt = hi.toNat := StableHlo.Predicate.toInt_eq_toNat_of_lt hhi
  have h0 : (0#32 : BitVec 32).toInt = 0 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, hth, decide_eq_true_eq] at hc
  all_goals first | rfl | (apply BitVec.eq_of_toNat_eq; omega)

theorem clip_eq_self {s : Shape} (hb : (⟨0, ![]⟩ : Shape).BroadcastsInDim s (![] : Fin 0 → Fin s.rank))
    (lo hi : IVec ⟨0, ![]⟩ 32) (w : IVec s 32) (hlo : lo ix0 = 0#32) (hhi : (hi ix0).toNat < 2 ^ 31)
    (hw : ∀ i, (w i).toNat ≤ (hi ix0).toNat) :
    minsi (broadcastInDim s ![] hb hi) (maxsi (broadcastInDim s ![] hb lo) w) = w := by
  funext i
  have e1 : broadcastInDim s ![] hb hi i = hi ix0 := by
    simp only [broadcastInDim]; congr 1; funext a; exact Fin.elim0 a
  have e2 : broadcastInDim s ![] hb lo i = lo ix0 := by
    simp only [broadcastInDim]; congr 1; funext a; exact Fin.elim0 a
  show IntOp.minsi (broadcastInDim s ![] hb hi i) (IntOp.maxsi (broadcastInDim s ![] hb lo i) (w i)) = w i
  rw [e1, e2, hlo]
  exact clip_word _ _ hhi (hw i)

end Cert.LibIndex

end
-- ==== Proof.LibScatter.lean ====
import Idealize.ShloMosaic.PureOps.Ideal
import Idealize.ShloMosaic.PureOps.Contract
import Idealize.ShloMosaic.Lib.ValueIdx
import Idealize.ShloMosaic.Lib.StableHlo.Predicate

noncomputable section

namespace Cert.LibScatter

open Idealize.ShloMosaic Idealize.ShloMosaic.ValueIdx
open scoped BigOperators

theorem toInt_eq_iff_toNat_eq (w : BitVec 32) {a A : Nat} (ha : a < A) (hA : A ≤ 2 ^ 31) :
    w.toInt = (a : Int) ↔ w.toNat = a := by
  have hw := w.isLt
  rw [BitVec.toInt_eq_toNat_cond]
  split <;> omega

theorem wrap_select (w c : BitVec 32) (hw : w.toNat < 2 ^ 31) :
    Scalar.select (IntOp.cmpi .slt w 0#32) (IntOp.addi w c) w = w := by
  have h0 : IntOp.cmpi .slt w 0#32 = 0#1 := by
    apply eq_zero_of_ne_one
    intro h
    have := (StableHlo.Predicate.slt_iff_toNat hw (by decide)).1 h
    simp at this
  rw [h0, select_zero]

theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have hv := congrArg Fin.val (congrFun (Option.some.inj e) a)
      simp only at hv
      have := (h a).1
      omega
    · intro e
      congr 1
      funext a
      apply Fin.ext
      have := e a
      simp only
      omega
  · next h =>
    constructor
    · intro e; exact absurd e (by simp)
    · intro e
      exact absurd (fun a => ⟨by have := e a; omega, by have := e a; have := (i a).isLt; omega⟩) h

theorem resultIdx1_iff {A M w : Nat} (d : ScatterDims ⟨1, ![A]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![A]⟩ : Shape).Idx) :
    d.resultIdx? j idx = some i ↔ (idx (ix2 (j 0) 0)).toInt = ((i 0).val : Int) := by
  have hstart : ∀ a, d.start j idx a = (idx (ix2 (j 0) 0)).toInt := by
    intro a
    have ha0 : a = 0 := Subsingleton.elim _ _
    subst ha0
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hwin : ∀ a, d.window j a = 0 := by
    intro a
    have ha0 : a = 0 := Subsingleton.elim _ _
    subst ha0
    unfold ScatterDims.window
    rw [dif_neg]
    intro hm
    have : (0 : Fin 1) ∉ d.insertedWindowDims := by
      have := (List.mem_filter.1 hm).2
      simpa using this
    exact this (by rw [hiw]; exact List.mem_singleton.mpr rfl)
  rw [resultIdx?_eq_some_iff]
  constructor
  · intro h; have := h 0; rw [hstart, hwin] at this; omega
  · intro h a
    obtain rfl : a = 0 := Subsingleton.elim _ _
    rw [hstart, hwin]; omega

theorem resultIdx2_iff {A B M w : Nat} (d : ScatterDims ⟨2, ![A, B]⟩ ⟨2, ![M, 1]⟩ ⟨2, ![M, B]⟩)
    (huw : d.updateWindowDims = [1]) (hiw : d.insertedWindowDims = [0]) (hsd : d.scatterDimsToOperandDims = [0])
    (hivd : d.indexVectorDim = 1)
    (idx : IVec ⟨2, ![M, 1]⟩ w) (j : (⟨2, ![M, B]⟩ : Shape).Idx) (i : (⟨2, ![A, B]⟩ : Shape).Idx) :
    d.resultIdx? j idx = some i ↔ (idx (ix2 (j 0) 0)).toInt = ((i 0).val : Int) ∧ (j 1).val = (i 1).val := by
  have hus : ∀ X ∈ d.uScatter, X = 0 := by
    intro X hX
    have h1 : X ∉ d.updateWindowDims := by
      have := (List.mem_filter.1 hX).2
      simpa using this
    rw [huw] at h1
    match X with
    | ⟨0, _⟩ => rfl
    | ⟨1, _⟩ => exact absurd (List.mem_singleton.mpr rfl) h1
  have huwd : ∀ X ∈ d.updateWindowDims, X = 1 := by
    intro X hX; rw [huw] at hX; exact List.mem_singleton.mp hX
  have hstart0 : d.start j idx 0 = (idx (ix2 (j 0) 0)).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact congrArg (fun X => (j X).val) (hus _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hstart1 : d.start j idx 1 = 0 := by
    unfold ScatterDims.start
    rw [dif_neg (by rw [hsd]; simp)]
  have hwin0 : d.window j 0 = 0 := by
    unfold ScatterDims.window
    rw [dif_neg]
    intro hm
    have : (0 : Fin 2) ∉ d.insertedWindowDims := by
      have := (List.mem_filter.1 hm).2
      simpa using this
    exact this (by rw [hiw]; exact List.mem_singleton.mpr rfl)
  have hwin1 : d.window j 1 = (j 1).val := by
    have hm : (1 : Fin 2) ∈ d.sKept := by
      refine List.mem_filter.2 ⟨List.mem_finRange _, ?_⟩
      rw [hiw]; simp
    unfold ScatterDims.window
    rw [dif_pos hm]
    exact congrArg (fun X => (j X).val) (huwd _ (List.getElem_mem _))
  rw [resultIdx?_eq_some_iff]
  constructor
  · intro h
    have h0 := h 0
    have h1 := h 1
    rw [hstart0, hwin0] at h0
    rw [hstart1, hwin1] at h1
    constructor <;> omega
  · rintro ⟨e0, e1⟩ a
    match a with
    | ⟨0, _⟩ =>
      show d.start j idx 0 + ((d.window j 0 : Nat) : Int) = ((i 0).val : Int)
      rw [hstart0, hwin0]; omega
    | ⟨1, _⟩ =>
      show d.start j idx 1 + ((d.window j 1 : Nat) : Int) = ((i 1).val : Int)
      rw [hstart1, hwin1]; omega

theorem scatterAdd1_apply {φ : FTy} {A M : Nat} (d : ScatterDims ⟨1, ![A]⟩ ⟨2, ![M, 1]⟩ ⟨1, ![M]⟩)
    (hiw : d.insertedWindowDims = [0]) (hsd : d.scatterDimsToOperandDims = [0]) (hivd : d.indexVectorDim = 1)
    (hA : A ≤ 2 ^ 31) (x : FVec Ideal ⟨1, ![A]⟩ φ) (idx : IVec ⟨2, ![M, 1]⟩ 32)
    (u : FVec Ideal ⟨1, ![M]⟩ φ) (a : Fin A) :
    Host.scatterAdd (F := Ideal) d x idx u (ix1 a)
      = x (ix1 a) + ∑ e ∈ Finset.univ.filter (fun e : Fin M => (idx (ix2 e 0)).toNat = a.val), u (ix1 e) := by
  show Ideal.hostScatterAdd d x idx u _ = _
  unfold Ideal.hostScatterAdd
  congr 1
  refine Finset.sum_bij' (fun j _ => (j 0 : Fin M)) (fun e _ => ix1 e) ?_ ?_ ?_ ?_ ?_
  · intro j hj
    have hj' := (Finset.mem_filter.1 hj).2
    rw [resultIdx1_iff d hiw hsd hivd] at hj'
    exact Finset.mem_filter.2 ⟨Finset.mem_univ _, (toInt_eq_iff_toNat_eq _ a.isLt hA).1 hj'⟩
  · intro e he
    have he' := (Finset.mem_filter.1 he).2
    refine Finset.mem_filter.2 ⟨Finset.mem_univ _, ?_⟩
    rw [resultIdx1_iff d hiw hsd hivd]
    exact (toInt_eq_iff_toNat_eq _ a.isLt hA).2 he'
  · intro j _; exact (eq_ix1 j).symm
  · intro e _; rfl
  · intro j _; exact congrArg u (eq_ix1 j)

theorem scatterAdd2_apply {φ : FTy} {A B M : Nat} (d : ScatterDims ⟨2, ![A, B]⟩ ⟨2, ![M, 1]⟩ ⟨2, ![M, B]⟩)
    (huw : d.updateWindowDims = [1]) (hiw : d.insertedWindowDims = [0]) (hsd : d.scatterDimsToOperandDims = [0])
    (hivd : d.indexVectorDim = 1)
    (hA : A ≤ 2 ^ 31) (x : FVec Ideal ⟨2, ![A, B]⟩ φ) (idx : IVec ⟨2, ![M, 1]⟩ 32)
    (u : FVec Ideal ⟨2, ![M, B]⟩ φ) (a : Fin A) (b : Fin B) :
    Host.scatterAdd (F := Ideal) d x idx u (ix2 a b)
      = x (ix2 a b) + ∑ e ∈ Finset.univ.filter (fun e : Fin M => (idx (ix2 e 0)).toNat = a.val), u (ix2 e b) := by
  show Ideal.hostScatterAdd d x idx u _ = _
  unfold Ideal.hostScatterAdd
  congr 1
  refine Finset.sum_bij' (fun j _ => (j 0 : Fin M)) (fun e _ => ix2 e b) ?_ ?_ ?_ ?_ ?_
  · intro j hj
    have hj' := (Finset.mem_filter.1 hj).2
    rw [resultIdx2_iff d huw hiw hsd hivd] at hj'
    exact Finset.mem_filter.2 ⟨Finset.mem_univ _, (toInt_eq_iff_toNat_eq _ a.isLt hA).1 hj'.1⟩
  · intro e he
    have he' := (Finset.mem_filter.1 he).2
    refine Finset.mem_filter.2 ⟨Finset.mem_univ _, ?_⟩
    rw [resultIdx2_iff d huw hiw hsd hivd]
    exact ⟨(toInt_eq_iff_toNat_eq _ a.isLt hA).2 he', rfl⟩
  · intro j hj
    have hj' := (Finset.mem_filter.1 hj).2
    rw [resultIdx2_iff d huw hiw hsd hivd] at hj'
    have h1 : j 1 = b := Fin.ext hj'.2
    show ix2 (j 0) b = j
    rw [← h1]; exact (eq_ix2 j).symm
  · intro e _; rfl
  · intro j hj
    have hj' := (Finset.mem_filter.1 hj).2
    rw [resultIdx2_iff d huw hiw hsd hivd] at hj'
    have h1 : j 1 = b := Fin.ext hj'.2
    rw [← h1]; exact congrArg u (eq_ix2 j)

end Cert.LibScatter

end
-- ==== Proof.KHost.lean ====
import proofs.«401495_j83210696393026_3_alg».proof.KernelIdeal
import proofs.«401495_j83210696393026_3_alg».proof.Proof.Spec
import proofs.«401495_j83210696393026_3_alg».proof.Proof.AlgBasics
import Idealize.ShloMosaic.Lib.IdealHost
import Idealize.ShloMosaic.Lib.ValueLayout
import Idealize.ShloMosaic.Lib.Pipeline.Value
import Idealize.ShloMosaic.PureOps.Ideal.Laws
import Idealize.ShloMosaic.Lib.StableHlo.Predicate
import proofs.«401495_j83210696393026_3_alg».proof.Proof.LibIndex
import proofs.«401495_j83210696393026_3_alg».proof.Proof.LibScatter

set_option maxRecDepth 16384

noncomputable section

namespace Cert.KernelIdeal.HostRead

open Idealize.ShloMosaic Idealize.ShloMosaic.ValueIdx
open Cert.KernelIdeal Cert.Spec
open scoped BigOperators

variable [Facts₀]
open Facts₀

theorem ix1_surj {n : Nat} (j : (⟨1, ![n]⟩ : Shape).Idx) : ∃ p : Fin n, j = ix1 p := ⟨j 0, eq_ix1 j⟩
theorem ix2_surj {n0 n1 : Nat} (j : (⟨2, ![n0, n1]⟩ : Shape).Idx) : ∃ (p : Fin n0) (q : Fin n1), j = ix2 p q :=
  ⟨j 0, j 1, eq_ix2 j⟩

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem hostRsqrt_apply {s : Shape} {φ : FTy} (x : FVec Ideal s φ) (i : s.Idx) : Host.rsqrt x i = Ideal.rsqrt (x i) := rfl

theorem row_slice (A : FVec Ideal S3x128 .f32) (off : Nat) (hsl : S3x128.Slices ![off, 0] S1x128) (l : Fin 3)
    (hl : l.val = off) :
    shapeCast S128 (extractStridedSlice S1x128 ![off, 0] A hsl) shapeCasts_S1x128_S128 = arr1 (mat2 A l) := by
  funext j
  obtain ⟨q, rfl⟩ := ix1_surj j
  exact (shapeCast_1a_a_apply _ _ q).trans
    ((slice2_axis0_apply off A hsl (0 : Fin 1) q l (by rw [hl]; rfl)).trans rfl)

theorem row_slice_row (A : FVec Ideal S3x128 .f32) (off : Nat) (hsl : S3x128.Slices ![off, 0] S1x128) (l : Fin 3)
    (hl : l.val = off) :
    shapeCast S1x128 (shapeCast S128 (extractStridedSlice S1x128 ![off, 0] A hsl) shapeCasts_S1x128_S128)
        shapeCasts_S128_S1x128 = rowArr (mat2 A l) := by
  funext j
  obtain ⟨u, q, rfl⟩ := ix2_surj j
  exact (shapeCast_a_1a_apply _ _ u q).trans ((congrFun (row_slice A off hsl l hl) (ix1 q)).trans rfl)

theorem vec_row (v : FVec Ideal S128 .f32) :
    shapeCast S1x128 v shapeCasts_S128_S1x128 = rowArr (vec1 v) := by
  funext j
  obtain ⟨u, q, rfl⟩ := ix2_surj j
  exact (shapeCast_a_1a_apply _ _ u q).trans rfl

theorem vec_col (v : FVec Ideal S100000 .f32) :
    broadcastInDim S100000x1 ![0] bcast_S100000_S100000x1_0 v = colArr (vec1 v) := by
  funext j
  obtain ⟨p, u, rfl⟩ := ix2_surj j
  exact (broadcastInDim_apply _ _ v _ (ix1 p) (fun a => by
    match a with
    | ⟨0, _⟩ => exact (if_neg (show ¬ ((100000 : ℕ) = 1) by decide)).symm)).trans rfl

theorem mat_slice (A : FVec Ideal S3x128x128 .f32) (off : Nat) (hsl : S3x128x128.Slices ![off, 0, 0] S1x128x128)
    (l : Fin 3) (hl : l.val = off) :
    shapeCast S128x128 (extractStridedSlice S1x128x128 ![off, 0, 0] A hsl) shapeCasts_S1x128x128_S128x128
      = arr2 (ten3 A l) := by
  funext j
  obtain ⟨p, q, rfl⟩ := ix2_surj j
  refine (shapeCast_1ab_ab_apply _ _ p q).trans ?_
  exact (extractStridedSlice_apply _ A hsl _ (ix3 l p q) (fun ax => by
    match ax with
    | ⟨0, _⟩ => exact hl.trans (Nat.add_zero _).symm
    | ⟨1, _⟩ => exact (Nat.zero_add _).symm
    | ⟨2, _⟩ => exact (Nat.zero_add _).symm)).trans rfl

theorem reduce_halves (f : Fin 2 → Fin 128 → EReal) (q : Fin 128) :
    Host.reduceAdd (F := Ideal) (φ := .f32) (arr3 (fun cc (_ : Fin 1) r => f cc r))
        (constant (F := Ideal) S_ .f32 0x00000000#32) reducesTo_S2x1x128_S128_d0_1 h_S_ (ix1 q)
      = f 0 q + f 1 q := by
  rw [hostReduceAdd_apply]
  unfold Ideal.hostReduceAdd
  rw [constant_apply, Ideal.ofBits_zero_f32, zero_add, Finset.sum_filter, sum_idx3]
  have hd : ∀ (a : Fin 2) (b : Fin 1) (r : Fin 128),
      (reducesTo_S2x1x128_S128_d0_1.drop (ix3 a b r) = ix1 q) ↔ r = q := fun a b r =>
    ⟨fun h => Fin.ext (congrArg Fin.val (congrFun h 0)), fun h => h ▸ (eq_ix1 _).trans rfl⟩
  simp only [hd, Finset.sum_ite_eq', Finset.mem_univ, if_true, Fin.sum_univ_two, Fin.sum_univ_one]
  rfl

section Stats
variable (P0 P1 : FVec Ideal S2x1x128 .f32) (g b : FVec Ideal S128 .f32)

abbrev meanV (P : FVec Ideal S2x1x128 .f32) : FVec Ideal S128 .f32 :=
  Host.divf (Host.reduceAdd (F := Ideal) P (constant (F := Ideal) S_ .f32 0x00000000#32) reducesTo_S2x1x128_S128_d0_1 h_S_)
    (broadcastInDim S128 ![] bcast_S_S128 (constant (F := Ideal) S_ .f32 0x47C35000#32))
abbrev varV : FVec Ideal S128 .f32 :=
  maximumf (subf (meanV P1) (mulf (meanV P0) (meanV P0)))
    (broadcastInDim S128 ![] bcast_S_S128 (constant (F := Ideal) S_ .f32 0x00000000#32))
abbrev scaleV : FVec Ideal S128 .f32 :=
  mulf g (Host.rsqrt (addf (varV P0 P1) (broadcastInDim S128 ![] bcast_S_S128 (constant (F := Ideal) S_ .f32 0x3727C5AC#32))))
abbrev shiftV : FVec Ideal S128 .f32 := subf b (mulf (meanV P0) (scaleV P0 P1 g))

variable (a : Fin 100000 → Fin 128 → EReal)
variable (h0 : P0 = arr3 (fun cc (_ : Fin 1) j => coreSum a cc j))
variable (h1 : P1 = arr3 (fun cc (_ : Fin 1) j => coreSum (fun i j => a i j * a i j) cc j))

include h0 in
theorem meanV_apply (q : Fin 128) : meanV P0 (ix1 q) = meanOf a q := by
  subst h0
  show Ideal.div (Host.reduceAdd (F := Ideal) (φ := .f32) _ _ _ _ (ix1 q)) _ = _
  rw [reduce_halves (fun cc r => coreSum a cc r) q, ← Cert.Algebra.colSum_eq_coreSum]
  rfl

include h0 h1 in
theorem varV_apply (q : Fin 128) : varV P0 P1 (ix1 q) = varK a q := by
  show max (meanV P1 (ix1 q) - meanV P0 (ix1 q) * meanV P0 (ix1 q)) (Ideal.ofBits .f32 0x00000000#32) = _
  rw [meanV_apply P0 a h0 q, meanV_apply P1 (fun i j => a i j * a i j) h1 q, Ideal.ofBits_zero_f32]
  rfl

include h0 h1 in
theorem scaleV_apply (q : Fin 128) : scaleV P0 P1 g (ix1 q) = scaleK a (vec1 g) q := by
  show g (ix1 q) * Ideal.rsqrt (varV P0 P1 (ix1 q) + Ideal.ofBits .f32 0x3727C5AC#32) = _
  rw [varV_apply P0 P1 a h0 h1 q]
  rfl

include h0 h1 in
theorem shiftV_apply (q : Fin 128) : shiftV P0 P1 g b (ix1 q) = shiftK a (vec1 g) (vec1 b) q := by
  show b (ix1 q) - meanV P0 (ix1 q) * scaleV P0 P1 g (ix1 q) = _
  rw [meanV_apply P0 a h0 q, scaleV_apply P0 P1 g a h0 h1 q]
  rfl

include h0 h1 in
theorem scale_row : shapeCast S1x128 (scaleV P0 P1 g) shapeCasts_S128_S1x128 = rowArr (scaleK a (vec1 g)) :=
  (vec_row _).trans (congrArg rowArr (funext fun q => scaleV_apply P0 P1 g a h0 h1 q))

include h0 h1 in
theorem shift_row : shapeCast S1x128 (shiftV P0 P1 g b) shapeCasts_S128_S1x128 = rowArr (shiftK a (vec1 g) (vec1 b)) :=
  (vec_row _).trans (congrArg rowArr (funext fun q => shiftV_apply P0 P1 g b a h0 h1 q))

end Stats

theorem edge_row (E : IVec S2x1600000 32) (off : Nat) (hsl : S2x1600000.Slices ![off, 0] S1x1600000) (r : Fin 2)
    (hr : r.val = off) :
    shapeCast S1600000 (extractStridedSlice S1x1600000 ![off, 0] E hsl) shapeCasts_S1x1600000_S1600000
      = fun i => E (ix2 r (i 0)) := by
  funext j
  obtain ⟨e, rfl⟩ := ix1_surj j
  exact (shapeCast_1a_a_apply _ _ e).trans
    ((slice2_axis0_apply off E hsl (0 : Fin 1) e r (by rw [hr]; rfl)).trans rfl)

theorem edge_clip (E : IVec S2x1600000 32) (hE : ∀ i, (E i).toNat < 100000) :
    minsi (broadcastInDim S2x1600000 ![] bcast_S_S2x1600000 (constantI S_ 32 99999#32))
      (maxsi (broadcastInDim S2x1600000 ![] bcast_S_S2x1600000 (constantI S_ 32 0#32)) E) = E :=
  Cert.LibIndex.clip_eq_self bcast_S_S2x1600000 (constantI S_ 32 0#32) (constantI S_ 32 99999#32) E rfl (by decide)
    (fun i => by have := hE i; show (E i).toNat ≤ 99999; omega)

theorem word_col (w : IVec S1600000 32) (e : Fin 1600000) (u : Fin 1) :
    broadcastInDim S1600000x1 ![0] bcast_S1600000_S1600000x1_0 w (ix2 e u) = w (ix1 e) :=
  broadcastInDim_apply _ _ w _ (ix1 e) (fun a => by
    match a with
    | ⟨0, _⟩ => exact (if_neg (show ¬ ((1600000 : ℕ) = 1) by decide)).symm)

theorem wrap_word (w c : BitVec 32) (hw : w.toNat < 2 ^ 31) :
    Scalar.select (IntOp.cmpi .slt w 0#32) (IntOp.addi w c) w = w := by
  have h : ¬ IntOp.cmpi .slt w 0#32 = 1#1 := fun h => by
    have := (StableHlo.Predicate.slt_iff_toNat hw (by decide)).mp h
    exact absurd this (Nat.not_lt_zero _)
  rw [eq_zero_of_ne_one h, select_zero]

theorem gather_scatter (z : FVec Ideal S100000x128 .f32) (sw dw : IVec S1600000 32)
    (src dst : Fin 1600000 → Fin 100000)
    (hs : ∀ e, (sw (ix1 e)).toNat = (src e).val) (hd : ∀ e, (dw (ix1 e)).toNat = (dst e).val) :
    Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dw)
        (Host.gather gather_S100000x128_S1600000x1_S1600000x128_1_0_n_n_0_1_1128 z
          (broadcastInDim S1600000x1 ![0] bcast_S1600000_S1600000x1_0
            (select (cmpi .slt sw (broadcastInDim S1600000 ![] bcast_S_S1600000 (constantI S_ 32 0#32)))
              (addi sw (broadcastInDim S1600000 ![] bcast_S_S1600000 (constantI S_ 32 100000#32))) sw)))
      = arr2 (scat src dst (mat2 z)) := by
  funext i
  obtain ⟨p, q, rfl⟩ := ix2_surj i
  rw [Cert.LibScatter.scatterAdd2_apply scatter_S100000x128_S1600000x1_S1600000x128_1_0_0_1 rfl rfl rfl rfl
    (by norm_num), broadcastInDim_scalar_apply, constant_apply, Ideal.ofBits_zero_f32, zero_add]
  show _ = ∑ e ∈ Finset.univ.filter (fun e => dst e = p), mat2 z (src e) q
  refine Finset.sum_congr (Finset.filter_congr fun e _ => ?_) fun e _ => ?_
  · rw [word_col, hd e]; exact Fin.val_inj
  · have hw : ∀ (idx : IVec S1600000x1 32), idx (ix2 e (0 : Fin 1)) = sw (ix1 e) →
        Host.gather gather_S100000x128_S1600000x1_S1600000x128_1_0_n_n_0_1_1128 z idx (ix2 e q) = mat2 z (src e) q :=
      fun idx hidx => by
        have hlt : (idx (ix2 e (0 : Fin 1))).toNat < 100000 := by rw [hidx, hs e]; exact (src e).isLt
        rw [Cert.LibIndex.gather_rows_inrange gather_S100000x128_S1600000x1_S1600000x128_1_0_n_n_0_1_1128 rfl rfl rfl rfl rfl
          z idx e q (by norm_num) hlt]
        exact congrArg (fun r => z (ix2 r q)) (Fin.ext ((congrArg BitVec.toNat hidx).trans (hs e)))
    exact hw _ (by
      rw [word_col]
      exact wrap_word (sw (ix1 e)) _ (by have := (src e).isLt; rw [hs e]; omega))

theorem degree_col (dw : IVec S1600000 32) (dst : Fin 1600000 → Fin 100000)
    (hd : ∀ e, (dw (ix1 e)).toNat = (dst e).val) :
    broadcastInDim S100000x1 ![0] bcast_S100000_S100000x1_0
      (Host.rsqrt (addf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dw)
          (broadcastInDim S1600000 ![] bcast_S_S1600000 (constant (F := Ideal) S_ .f32 0x3F800000#32)))
        (broadcastInDim S100000 ![] bcast_S_S100000 (constant (F := Ideal) S_ .f32 0x3F800000#32))))
      = colArr (dinvK dst) := by
  rw [vec_col]
  refine congrArg colArr (funext fun p => ?_)
  show Host.rsqrt _ (ix1 p) = _
  rw [hostRsqrt_apply, addf_apply, Cert.LibScatter.scatterAdd1_apply scatter_S100000_S1600000x1_S1600000_n_0_0_1 rfl rfl rfl
    (by norm_num), broadcastInDim_scalar_apply, broadcastInDim_scalar_apply, constant_apply, constant_apply,
    Ideal.ofBits_zero_f32, zero_add]
  show Ideal.rsqrt (_ + Ideal.ofBits .f32 0x3F800000#32)
    = Ideal.rsqrt ((∑ _e ∈ Finset.univ.filter (fun e => dst e = p), Ideal.ofBits .f32 0x3F800000#32)
        + Ideal.ofBits .f32 0x3F800000#32)
  refine congrArg (fun t => Ideal.rsqrt (t + Ideal.ofBits .f32 0x3F800000#32))
    (Finset.sum_congr (Finset.filter_congr fun e _ => ?_) fun e _ => ?_)
  · rw [word_col, hd e]; exact Fin.val_inj
  · rw [broadcastInDim_scalar_apply, constant_apply]

end Cert.KernelIdeal.HostRead

end
-- ==== Proof.KPro.lean ====
import proofs.«401495_j83210696393026_3_alg».proof.Proof.Gen.KernelIdeal.Frame
import proofs.«401495_j83210696393026_3_alg».proof.Proof.Spec
import proofs.«401495_j83210696393026_3_alg».proof.Proof.KFacts
import proofs.«401495_j83210696393026_3_alg».proof.Proof.KHost

set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

namespace Pro

local macro "pro_keeps " ops:ident " using " hb:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (fun e => $hb (by rw [e]; decide)))))

theorem keep0 (b : Ref sig .tc)
    (hb : b ∉ [main_c, main_c_0, main_call0_v0, main_call0_v1, main_call0_v2, main_call0_v3, main_call0_v4, main_v0,
      main_v1, main_v2, main_v3, main_v4, main_cst, main_v5, main_cst_1, main_v6, main_v7, main_v8, main_cst_2, main_v9,
      main_v10, main_v11, main_v12, main_v13, main_v14, main_v15, main_v16, main_v17]) :
    W3 m ρ c (Proc.devRef .tc b) = W0 m ρ c (Proc.devRef .tc b) :=
  calc W3 m ρ c (Proc.devRef .tc b)
    _ = W2 m ρ c (Proc.devRef .tc b) := by pro_keeps hostOps0_2 using hb
    _ = W1 m ρ c (Proc.devRef .tc b) := by pro_keeps hostOps0_1 using hb
    _ = W0 m ρ c (Proc.devRef .tc b) := by pro_keeps hostOps0 using hb

theorem ops_v0 (X : Valuation τ sig (Elt Ideal)) :
    StableHlo.after (hostOps0_1 (F := Ideal)) (StableHlo.after (hostOps0 (F := Ideal)) X) (Proc.devRef .tc main_v0)
      = minsi (broadcastInDim S2x1600000 ![] bcast_S_S2x1600000 (constantI S_ 32 99999#32))
          (maxsi (broadcastInDim S2x1600000 ![] bcast_S_S2x1600000 (constantI S_ 32 0#32)) (X (Proc.devRef .tc main_arg1))) := by
  after_results
  simp only [StableHlo.TRef.ofBuf, StableHlo.TRef.toBuf, cast_eq]
  rfl

theorem ops_v2 (X : Valuation τ sig (Elt Ideal)) :
    StableHlo.after (hostOps0_2 (F := Ideal)) X (Proc.devRef .tc main_v2)
      = shapeCast S1600000 (extractStridedSlice S1x1600000 ![0, 0] (X (Proc.devRef .tc main_v0)) slices_S2x1600000_S1x1600000_0_0)
          shapeCasts_S1x1600000_S1600000 := by
  after_results
  rfl

theorem ops_v4 (X : Valuation τ sig (Elt Ideal)) :
    StableHlo.after (hostOps0_2 (F := Ideal)) X (Proc.devRef .tc main_v4)
      = shapeCast S1600000 (extractStridedSlice S1x1600000 ![1, 0] (X (Proc.devRef .tc main_v0)) slices_S2x1600000_S1x1600000_1_0)
          shapeCasts_S1x1600000_S1600000 := by
  after_results
  rfl

theorem ops_v12 (X : Valuation τ sig (Elt Ideal)) :
    StableHlo.after (hostOps0_2 (F := Ideal)) X (Proc.devRef .tc main_v12)
      = broadcastInDim S100000x1 ![0] bcast_S100000_S100000x1_0
          (Host.rsqrt (addf
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0
                (shapeCast S1600000 (extractStridedSlice S1x1600000 ![1, 0] (X (Proc.devRef .tc main_v0)) slices_S2x1600000_S1x1600000_1_0)
                  shapeCasts_S1x1600000_S1600000))
              (broadcastInDim S1600000 ![] bcast_S_S1600000 (constant (F := Ideal) S_ .f32 0x3F800000#32)))
            (broadcastInDim S100000 ![] bcast_S_S100000 (constant (F := Ideal) S_ .f32 0x3F800000#32)))) := by
  after_results
  rfl

include hr in
theorem v0_eq : W2 m ρ c (Proc.devRef .tc main_v0) = m ((c : Thread nD τ).loc main_arg1) :=
  (ops_v0 (W0 m ρ c)).trans (HostRead.edge_clip _ hr.ei_lt)

end Pro

open Pro in
theorem pro : Graph m c hr (W3 m ρ c) where
  dinv := by
    refine (ops_v12 (W2 m ρ c)).trans ?_
    rw [v0_eq m ρ c hr, HostRead.edge_row _ 1 _ 1 rfl]
    exact HostRead.degree_col _ _ (fun e => rfl)
  srcw := by
    refine (ops_v2 (W2 m ρ c)).trans ?_
    rw [v0_eq m ρ c hr]
    exact HostRead.edge_row _ 0 _ 0 rfl
  dstw := by
    refine (ops_v4 (W2 m ρ c)).trans ?_
    rw [v0_eq m ρ c hr]
    exact HostRead.edge_row _ 1 _ 1 rfl
  arg0 := keep0 m ρ c main_arg0 (by decide)
  arg1 := keep0 m ρ c main_arg1 (by decide)
  arg2 := keep0 m ρ c main_arg2 (by decide)
  arg3 := keep0 m ρ c main_arg3 (by decide)
  arg4 := keep0 m ρ c main_arg4 (by decide)
  arg5 := keep0 m ρ c main_arg5 (by decide)
  arg6 := keep0 m ρ c main_arg6 (by decide)
  arg7 := keep0 m ρ c main_arg7 (by decide)
  arg8 := keep0 m ρ c main_arg8 (by decide)
  arg9 := keep0 m ρ c main_arg9 (by decide)
  arg10 := keep0 m ρ c main_arg10 (by decide)
  arg11 := keep0 m ρ c main_arg11 (by decide)
  arg12 := keep0 m ρ c main_arg12 (by decide)
  arg13 := keep0 m ρ c main_arg13 (by decide)
  arg14 := keep0 m ρ c main_arg14 (by decide)

end Cert.KernelIdeal.Chain

end
-- ==== Proof.KLayerLib.lean ====
import Mathlib.Tactic.FinCases
import proofs.«401495_j83210696393026_3_alg».proof.Proof.KFacts
import proofs.«401495_j83210696393026_3_alg».proof.Proof.KHost
set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

abbrev graphBufs : List (Ref sig .tc) :=
  [main_v12, main_arg0, main_v2, main_v4, main_arg1, main_arg2, main_arg3, main_arg4, main_arg5, main_arg6, main_arg7, main_arg8, main_arg9, main_arg10, main_arg11, main_arg12, main_arg13, main_arg14]

-- Each field is an equation at one point, so it transfers along pointwise agreement.
variable {m c hr} in
theorem Graph.carry {W W' : Valuation τ sig (Elt Ideal)} (g : Graph m c hr W)
    (h : ∀ b ∈ graphBufs, W' (Proc.devRef .tc b) = W (Proc.devRef .tc b)) : Graph m c hr W' where
  dinv := (h main_v12 (by decide)).trans g.dinv
  srcw := (h main_v2 (by decide)).trans g.srcw
  dstw := (h main_v4 (by decide)).trans g.dstw
  arg0 := (h main_arg0 (by decide)).trans g.arg0
  arg1 := (h main_arg1 (by decide)).trans g.arg1
  arg2 := (h main_arg2 (by decide)).trans g.arg2
  arg3 := (h main_arg3 (by decide)).trans g.arg3
  arg4 := (h main_arg4 (by decide)).trans g.arg4
  arg5 := (h main_arg5 (by decide)).trans g.arg5
  arg6 := (h main_arg6 (by decide)).trans g.arg6
  arg7 := (h main_arg7 (by decide)).trans g.arg7
  arg8 := (h main_arg8 (by decide)).trans g.arg8
  arg9 := (h main_arg9 (by decide)).trans g.arg9
  arg10 := (h main_arg10 (by decide)).trans g.arg10
  arg11 := (h main_arg11 (by decide)).trans g.arg11
  arg12 := (h main_arg12 (by decide)).trans g.arg12
  arg13 := (h main_arg13 (by decide)).trans g.arg13
  arg14 := (h main_arg14 (by decide)).trans g.arg14

theorem zp_read {H : (⟨2, ![100000, 128]⟩ : Shape).Idx → EReal} {Wm : (⟨2, ![128, 128]⟩ : Shape).Idx → EReal}
    {D : (⟨2, ![100000, 1]⟩ : Shape).Idx → EReal}
    {h : Fin 100000 → Fin 128 → EReal} {w : Fin 128 → Fin 128 → EReal} {d : Fin 100000 → EReal}
    (e1 : H = arr2 h) (e2 : Wm = arr2 w) (e3 : D = colArr d) :
    arr2 (zprime (mat2 H) (mat2 Wm) (col D)) = arr2 (zprime h w d) := by
  subst e1 e2 e3; rfl

section
variable {S Z H : (⟨2, ![100000, 128]⟩ : Shape).Idx → EReal} {D : (⟨2, ![100000, 1]⟩ : Shape).Idx → EReal}
  {B SC SH : (⟨2, ![1, 128]⟩ : Shape).Idx → EReal}
  {sc zp h : Fin 100000 → Fin 128 → EReal} {d : Fin 100000 → EReal} {b s t : Fin 128 → EReal}
  (e1 : S = arr2 sc) (e2 : Z = arr2 zp) (e3 : D = colArr d) (e4 : B = rowArr b) (e5 : SC = rowArr s)
  (e6 : SH = rowArr t) (e7 : H = arr2 h)
include e1 e2 e3 e4

theorem sum_read :
    arr3 (fun cc (_ : Fin 1) j => coreSum (aggK (mat2 S) (mat2 Z) (col D) (row B)) cc j)
      = arr3 (fun cc (_ : Fin 1) j => coreSum (aggK sc zp d b) cc j) := by
  subst e1 e2 e3 e4; rfl

theorem sq_read :
    arr3 (fun cc (_ : Fin 1) j => coreSum (fun i j => (aggK (mat2 S) (mat2 Z) (col D) (row B)) i j
        * (aggK (mat2 S) (mat2 Z) (col D) (row B)) i j) cc j)
      = arr3 (fun cc (_ : Fin 1) j => coreSum (fun i j => aggK sc zp d b i j * aggK sc zp d b i j) cc j) := by
  subst e1 e2 e3 e4; rfl

include e5 e6

theorem bn_read :
    arr2 (bnApply (aggK (mat2 S) (mat2 Z) (col D) (row B)) (row SC) (row SH))
      = arr2 (bnApply (aggK sc zp d b) s t) := by
  subst e1 e2 e3 e4 e5 e6; rfl

include e7

theorem out_read :
    arr2 (fun i j => bnApply (aggK (mat2 S) (mat2 Z) (col D) (row B)) (row SC) (row SH) i j + mat2 H i j)
      = arr2 (fun i j => bnApply (aggK sc zp d b) s t i j + h i j) := by
  subst e1 e2 e3 e4 e5 e6 e7; rfl

end

abbrev zpL (l : Fin 3) (h : Fin 100000 → Fin 128 → EReal) : Fin 100000 → Fin 128 → EReal :=
  zprime h ((ins m c hr).cw l) (dinvK (ins m c hr).dst)

abbrev agL (l : Fin 3) (h : Fin 100000 → Fin 128 → EReal) : Fin 100000 → Fin 128 → EReal :=
  aggK (scat (ins m c hr).src (ins m c hr).dst (zpL m c hr l h)) (zpL m c hr l h) (dinvK (ins m c hr).dst)
    ((ins m c hr).cb l)

section
variable (src dst : Fin 1600000 → Fin 100000) (cw : Fin 3 → Fin 128 → Fin 128 → EReal)
  (cb bg bb : Fin 3 → Fin 128 → EReal) (l : Fin 3) (h zp ag : Fin 100000 → Fin 128 → EReal)
  (hz : zp = zprime h (cw l) (dinvK dst)) (ha : ag = aggK (scat src dst zp) zp (dinvK dst) (cb l))
include hz ha

theorem layer_eq0 :
    arr2 (bnApply ag (scaleK ag (bg l)) (shiftK ag (bg l) (bb l))) = arr2 (layerK src dst cw cb bg bb l h) := by
  subst hz ha; rfl

theorem layer_eq :
    arr2 (fun i j => bnApply ag (scaleK ag (bg l)) (shiftK ag (bg l) (bb l)) i j + h i j)
      = arr2 (fun i j => layerK src dst cw cb bg bb l h i j + h i j) := by
  subst hz ha; rfl

end

end Cert.KernelIdeal.Chain

end
-- ==== Proof.RegTile.lean ====
import proofs.«401495_j83210696393026_3_alg».proof.KernelIdeal
import Idealize.ShloMosaic.Lib.Pipeline.Value
import Idealize.ShloMosaic.Lib.ValueIdx

namespace Cert.KernelIdeal.RegVal

open Idealize.ShloMosaic Idealize.ShloMosaic.ValueIdx Cert.KernelIdeal

theorem zero_off2 : (![0, 0] : Fin 2 → Nat) = fun _ => 0 := funext fun a => by fin_cases a <;> rfl

-- `e` places a block of rows `T` rows down an array with the same columns.
def RowShift (T : ℕ) {m n bm : ℕ} (e : (⟨2, ![bm, n]⟩ : Shape).Idx → (⟨2, ![m, n]⟩ : Shape).Idx) : Prop :=
  ∀ y, (e y 0 : ℕ) = T + y 0 ∧ (e y 1 : ℕ) = y 1

theorem RowShift.apply {T m n bm : ℕ} {e : (⟨2, ![bm, n]⟩ : Shape).Idx → (⟨2, ![m, n]⟩ : Shape).Idx} (h : RowShift T e)
    (p : Fin bm) (q : Fin n) (r : Fin m) (hr : r.val = T + p.val) : e (ix2 p q) = ix2 r q :=
  Shape.idx_ext₂ ((h _).1.trans hr.symm) (h _).2

-- The rectangle starts `T` rows down, at column 0.
abbrev RowOff (T : ℕ) {m n : ℕ} (r : Rect ⟨2, ![m, n]⟩) : Prop := r.off 0 = T ∧ r.off 1 = 0

-- `e` places a block at the rectangle's offsets, unit stride.
abbrev Lays {m n bm : ℕ} (r : Rect ⟨2, ![m, n]⟩) (e : (⟨2, ![bm, n]⟩ : Shape).Idx → (⟨2, ![m, n]⟩ : Shape).Idx) : Prop :=
  ∀ y a, (e y a : ℕ) = r.off a + 1 * y a

theorem RowOff.shift {T m n bm : ℕ} {r : Rect ⟨2, ![m, n]⟩} (h : RowOff T r)
    {e : (⟨2, ![bm, n]⟩ : Shape).Idx → (⟨2, ![m, n]⟩ : Shape).Idx} (he : Lays r e) : RowShift T e :=
  fun y => ⟨by rw [he, h.1, Nat.one_mul], by rw [he, h.2, Nat.one_mul, Nat.zero_add]⟩

-- Row `i` lies in block `i / 5000`, at the block's row `i % 5000`.
theorem rowShift_cover {N : ℕ} (hN : N = 20) {e : Fin N → S5000x128.Idx → S100000x128.Idx}
    (he : ∀ t, RowShift (t.val * 5000) (e t)) (i : S100000x128.Idx) : ∃ t y, e t y = i := by
  have h0 := idx2_lt0 i
  exact ⟨⟨(i 0).val / 5000, by omega⟩, ix2 ⟨(i 0).val % 5000, Nat.mod_lt _ (by decide)⟩ (i 1),
    ((he _).apply _ _ (i 0) (Nat.div_add_mod' _ _).symm).trans (eq_ix2 i).symm⟩

theorem spread_col {α : Type} (d : S5000x1.Idx → α) (h : S5000x1.Broadcasts S5000x128) (p : Fin 5000) (q : Fin 128) :
    broadcastTo S5000x128 d h (ix2 p q) = d (ix2 p 0) :=
  broadcastTo_apply d _ _ _ fun a => by
    match a with
    | ⟨0, _⟩ => rfl
    | ⟨1, _⟩ => rfl

theorem spread_row {α : Type} (b : S1x128.Idx → α) (h : S1x128.Broadcasts S5000x128) (p : Fin 5000) (q : Fin 128) :
    broadcastTo S5000x128 b h (ix2 p q) = b (ix2 0 q) :=
  broadcastTo_apply b _ _ _ fun a => by
    match a with
    | ⟨0, _⟩ => rfl
    | ⟨1, _⟩ => rfl

end Cert.KernelIdeal.RegVal
-- ==== Proof.RegMatmul0.lean ====
import proofs.«401495_j83210696393026_3_alg».proof.Proof.Gen.KernelIdeal.Frame
import proofs.«401495_j83210696393026_3_alg».proof.Proof.Spec
import proofs.«401495_j83210696393026_3_alg».proof.Proof.RegTile
import Idealize.ShloMosaic.PureOps.Ideal.Laws

namespace Cert.KernelIdeal.RegVal

open Idealize.ShloMosaic Idealize.ShloMosaic.TcCoe Idealize.ShloMosaic.ValueIdx Idealize.SL.Sem
open Cert.KernelIdeal Cert.KernelIdeal.Gen Cert.Spec

-- The block product into a zero accumulator, entry by entry: the sum over the inner axis.
theorem featProd_apply (x : Vec Ideal S5000x128 .f32) (w : Vec Ideal S128x128 .f32) (p : Fin 5000) (q : Fin 128) :
    matmul (φ₁ := .f32) (φ₂ := .f32) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 _ 128 rfl rfl).symm]
  refine Finset.sum_congr rfl fun k _ => ?_
  have hk := contrEquiv1_symm_val dot_S5000x128_S128x128_S5000x128_1_0_0_1_n_n 128 rfl rfl k
  congr 2 <;> refine Shape.idx_ext₂ ?_ ?_
  · rfl
  · exact (DotDims.lhsIdx_val_of_single _ rfl _ _).trans hk
  · exact (DotDims.rhsIdx_val_of_single _ rfl _ _).trans hk
  · rfl

theorem pay0_apply (x : Vec Ideal S5000x128 .f32) (w : Vec Ideal S128x128 .f32) (d : Vec Ideal S5000x1 .f32)
    (p : Fin 5000) (q : Fin 128) :
    k0_pay1 (F := Ideal) x w d (ix2 p q) = (∑ k : Fin 128, x (ix2 p k) * w (ix2 k q)) * d (ix2 p 0) := by
  unfold k0_pay1
  simp only [shapeCast_self]
  rw [mulf_apply, featProd_apply, spread_col]

theorem k3_eq : @k3_pay1 Ideal _ = k0_pay1 := by
  funext x w d; unfold k3_pay1 k0_pay1; simp only [shapeCast_self]

-- Where every block sits `T` rows down its array, the payload at an entry is the scaled feature product at the entry's place.
theorem featProd_point {T : ℕ} {r0 r3 : Rect S100000x128} {r1 : Rect S128x128} {r2 : Rect S100000x1}
    {e0 e3 : S5000x128.Idx → S100000x128.Idx} {e1 : S128x128.Idx → S128x128.Idx} {e2 : S5000x1.Idx → S100000x1.Idx}
    (h : RowOff T r0 ∧ RowOff 0 r1 ∧ RowOff T r2 ∧ RowOff T r3) (g0 : Lays r0 e0) (g1 : Lays r1 e1) (g2 : Lays r2 e2)
    (g3 : Lays r3 e3) (A0 : S100000x128.Idx → EReal) (A1 : S128x128.Idx → EReal) (A2 : S100000x1.Idx → EReal)
    (j : S5000x128.Idx) :
    k0_pay1 (F := Ideal) (fun y => A0 (e0 y)) (fun y => A1 (e1 y)) (fun y => A2 (e2 y)) j
      = arr2 (zprime (mat2 A0) (mat2 A1) (col A2)) (e3 j) := by
  have h3 := h.2.2.2.shift g3
  obtain ⟨p, q, rfl⟩ : ∃ p q, j = ix2 p q := ⟨j 0, j 1, eq_ix2 j⟩
  obtain ⟨r, hr⟩ : ∃ r : Fin 100000, r.val = T + p.val := ⟨_, (h3 (ix2 p q)).1⟩
  rw [pay0_apply, h3.apply p q r hr]
  beta_reduce
  rw [(h.2.2.1.shift g2).apply p 0 r hr]
  show _ = (∑ k : Fin 128, A0 (ix2 r k) * A1 (ix2 k q)) * A2 (ix2 r 0)
  congr 1
  exact Finset.sum_congr rfl fun k _ => by
    rw [(h.1.shift g0).apply p k r hr, (h.2.1.shift g1).apply k q k (Nat.zero_add _).symm]

private theorem idx0 : ∀ t : Fin cfg0.N,
    RowOff (t.val * 5000) (win0_0.rect t) ∧ RowOff 0 (win0_1.rect t) ∧ RowOff (t.val * 5000) (win0_2.rect t) ∧ RowOff (t.val * 5000) (win0_3.rect t) :=
  (by decide +kernel : ∀ t : Fin grid0.N, _)

private theorem cov0 (i : S100000x128.Idx) :
    ∃ t : Fin cfg0.N, (cfg0.win 3).flush t = true ∧ i ∈ ((cfg0.win 3).blk t).view.set := by
  obtain ⟨t, y, h⟩ := rowShift_cover N_0 (e := fun t => ((cfg0.win 3).blk t).view.emb)
    (fun t => (idx0 t).2.2.2.shift fun _ _ => rfl) i
  exact ⟨t, flush0_3 t, by rw [← h]; exact View.emb_mem_set _ y⟩

variable (V : (c : Dev nD) → (b : Ref sig .tc) → Buf (Elt Ideal) ((c : Thread nD τ).loc b))

private theorem fl0 (c : Dev nD) (t : Fin cfg0.N) :
    (dat0 (F := Ideal) V c).flushed 3 t = k0_pay1 (iblk0 V c 0 t) (iblk0 V c 1 t) (iblk0 V c 2 t) := by
  show (cfg0.win 3).cut (grid0.coords t) ((dat0 (F := Ideal) V c).after 3 t) = _
  rw [after0_3]
  unfold out0_3
  rw [View.canon_unit_zero zero_off2]
  simp only [View.ld_unit_zero (S := S5000x128) zero_off2, View.ld_unit_zero (S := S128x128) zero_off2, View.ld_unit_zero (S := S5000x1) zero_off2]
  rfl

theorem md0 (c : Dev nD) :
    (dat0 (F := Ideal) V c).arrAt 3 cfg0.N
      = arr2 (zprime (mat2 (V c (Pipeline.arrRef spec0 0))) (mat2 (V c (Pipeline.arrRef spec0 1))) (col (V c (Pipeline.arrRef spec0 2)))) := by
  refine (dat0 (F := Ideal) V c).arrAt_eq_of_cover 3 _ (fun t _ => ?_) cov0
  rw [fl0]
  refine funext (featProd_point (idx0 t) ?_ ?_ ?_ ?_ (V c (Pipeline.arrRef spec0 0)) (V c (Pipeline.arrRef spec0 1)) (V c (Pipeline.arrRef spec0 2))) <;> exact fun _ _ => rfl

end Cert.KernelIdeal.RegVal
-- ==== Proof.RegStats.lean ====
import proofs.«401495_j83210696393026_3_alg».proof.Proof.Gen.KernelIdeal.Skeleton
import proofs.«401495_j83210696393026_3_alg».proof.Proof.Gen.KernelIdeal.Points
import proofs.«401495_j83210696393026_3_alg».proof.Proof.Spec
import proofs.«401495_j83210696393026_3_alg».proof.Proof.AlgBasics
import Idealize.ShloMosaic.Lib.Pipeline.Value
import Idealize.ShloMosaic.Lib.ValueIdx
import Idealize.ShloMosaic.PureOps.Ideal.Laws
import Idealize.ShloMosaic.Lib.IdealHost
import Idealize.ShloMosaic.Lib.Tactic
import Mathlib.Algebra.BigOperators.Fin
import Mathlib.Algebra.BigOperators.Intervals

noncomputable section

namespace Cert.KernelIdeal.RegVal.St

open Idealize.ShloMosaic Idealize.ShloMosaic.TcCoe Idealize.ShloMosaic.ValueIdx
open Idealize.SL.Sem
open Cert.KernelIdeal Cert.KernelIdeal.Gen Cert.Spec
open scoped BigOperators

abbrev Tab := Fin 100000 → Fin 128 → EReal

def ext (f : Tab) (i : Nat) (q : Fin 128) : EReal := if h : i < 100000 then f ⟨i, h⟩ q else 0

theorem ext_sq (f : Tab) (i : Nat) (q : Fin 128) : ext (fun i j => f i j * f i j) i q = ext f i q * ext f i q := by
  unfold ext
  by_cases h : i < 100000
  · rw [dif_pos h, dif_pos h]
  · rw [dif_neg h, dif_neg h, mul_zero]

def blkSum (f : Tab) (n : Nat) (q : Fin 128) : EReal := ∑ r : Fin 5000, ext f (5000 * n + r.val) q

def runSum (f : Tab) (n : Nat) (q : Fin 128) : EReal := ∑ s ∈ Finset.range (n % 10 + 1), blkSum f (n - n % 10 + s) q

theorem runSum_first (f : Tab) (n : Nat) (q : Fin 128) (h : n % 10 = 0) : runSum f n q = blkSum f n q := by
  unfold runSum
  rw [h, Finset.sum_range_one, Nat.sub_zero, Nat.add_zero]

theorem runSum_next (f : Tab) (n : Nat) (q : Fin 128) (h : ¬n % 10 = 0) :
    runSum f n q = runSum f (n - 1) q + blkSum f n q := by
  unfold runSum
  have h1 : (n - 1) % 10 + 1 = n % 10 := by omega
  have h2 : n - 1 - (n - 1) % 10 = n - n % 10 := by omega
  have h3 : n - n % 10 + n % 10 = n := by omega
  rw [Finset.sum_range_succ, h1, h2, h3]

-- ten consecutive blocks of 5000 rows make up a half
theorem runSum_arr3 (f : Tab) (n : Nat) (h9 : n % 10 = 9) (i : S2x1x128.Idx) (q : Fin 128) (h0 : (i 0).val = n / 10)
    (h2 : (i 2).val = q.val) : runSum f n q = arr3 (fun cc (_ : Fin 1) j => coreSum f cc j) i := by
  obtain rfl : q = i 2 := Fin.ext h2.symm
  refine Eq.trans ?_ (Cert.Algebra.sum_half_eq_blocks (fun r => f r (i 2)) (i 0)).symm
  unfold runSum
  rw [h9, Finset.sum_range]
  refine Finset.sum_congr rfl fun tt _ => Finset.sum_congr rfl fun r _ => ?_
  have hcc : (i 0).val < 2 := (i 0).isLt
  have htt := tt.isLt
  have hr := r.isLt
  have e : 5000 * (n - 9 + tt.val) + r.val = 50000 * (i 0).val + 5000 * tt.val + r.val := by omega
  unfold ext
  rw [dif_pos (by omega)]
  exact congrArg (fun r => f r (i 2)) (Fin.ext e)

theorem row_ext (X : S1x1x128.Idx → EReal) (g : Fin 128 → EReal) (h : ∀ q, X (ix3 0 0 q) = g q) : X = fun y => g (y 2) := by
  funext y
  obtain ⟨a, b, q, rfl⟩ : ∃ (a : Fin 1) (b : Fin 1) (q : Fin 128), y = ix3 a b q := ⟨y 0, y 1, y 2, eq_ix3 y⟩
  obtain rfl : a = 0 := Subsingleton.elim _ _
  obtain rfl : b = 0 := Subsingleton.elim _ _
  exact h q

theorem pay4_apply (x0 x1 : Vec Ideal S5000x128 .f32) (x2 : Vec Ideal S5000x1 .f32) (x3 : Vec Ideal S1x128 .f32)
    (r : Fin 5000) (q : Fin 128) :
    k1_pay4 x0 x1 x2 x3 (ix2 r q) = (x0 (ix2 r q) + x1 (ix2 r q)) * x2 (ix2 r 0) + x3 (ix2 0 q) := by
  unfold k1_pay4
  simp only [shapeCast_self]
  show (x0 (ix2 r q) + x1 (ix2 r q)) * broadcastTo S5000x128 x2 _ (ix2 r q) + broadcastTo S5000x128 x3 _ (ix2 r q) = _
  rw [broadcastTo_apply x2 _ (ix2 r q) (ix2 r 0) (fun a => by match a with | ⟨0, _⟩ => rfl | ⟨1, _⟩ => rfl),
    broadcastTo_apply x3 _ (ix2 r q) (ix2 0 q) (fun a => by match a with | ⟨0, _⟩ => rfl | ⟨1, _⟩ => rfl)]

theorem colsum_apply (X : FVec Ideal S5000x128 .f32) (hφ : FKind.Formats .f32)
    (hacc : (0x00000000#32 : BitVec 32) = FKind.add.neutral .f32 hφ) (q : Fin 128) :
    multiReduction (F := Ideal) .add [0] S128 X 0x00000000#32 reduces_S5000x128_S128 hφ hacc (ix1 q)
      = ∑ r : Fin 5000, X (ix2 r q) := by
  refine (Ideal.multiReduction_add_single X 0x00000000#32 reduces_S5000x128_S128 hφ hacc (ix1 q)).trans ?_
  show ∑ k : Fin 5000, X (reduces_S5000x128_S128.lift (ix1 q) k) = _
  refine Finset.sum_congr rfl fun k _ => congrArg X (funext fun a => Fin.ext ?_)
  match a with
  | ⟨0, _⟩ => rfl
  | ⟨1, _⟩ => rfl

theorem pos_row (q : Fin 128) :
    (S1x128.rowMajor (ix2 (0 : Fin 1) q)).val = (S1x1x128.rowMajor (ix3 (0 : Fin 1) (0 : Fin 1) q)).val := by
  rw [Shape.rowMajor_val_two, Shape.rowMajor_val_three]; rfl

theorem pos_lane (q : Fin 128) : (S128.rowMajor (ix1 q)).val = (S1x128.rowMajor (ix2 (0 : Fin 1) q)).val := by
  rw [Shape.rowMajor_val_two, Shape.rowMajor_val_one]; show q.val = 0 * 128 + q.val; omega

-- a carried row after a point: what it held plus the column sums of the point's block
theorem acc_apply (X : FVec Ideal S5000x128 .f32) (xo : Vec Ideal S1x1x128 .f32) (hφ hacc) (q : Fin 128) :
    shapeCast S1x1x128 (addf (shapeCast S1x128 xo shapeCasts_S1x1x128_S1x128)
      (shapeCast S1x128 (multiReduction (F := Ideal) .add [0] S128 X 0x00000000#32 reduces_S5000x128_S128 hφ hacc) shapeCasts_S128_S1x128))
      shapeCasts_S1x128_S1x1x128 (ix3 0 0 q) = xo (ix3 0 0 q) + ∑ r : Fin 5000, X (ix2 r q) := by
  refine (shapeCast_apply _ _ (ix3 (0 : Fin 1) (0 : Fin 1) q) (ix2 (0 : Fin 1) q) (pos_row q)).trans ?_
  refine congrArg₂ (· + ·) (shapeCast_apply _ _ (ix2 (0 : Fin 1) q) (ix3 (0 : Fin 1) (0 : Fin 1) q) (pos_row q).symm) ?_
  refine (shapeCast_apply _ _ (ix2 (0 : Fin 1) q) (ix1 q) (pos_lane q)).trans ?_
  exact colsum_apply _ _ _ q

theorem pay2_apply (q : Fin 128) : k1_pay2 (F := Ideal) (ix3 0 0 q) = 0 := by
  unfold k1_pay2
  exact (shapeCast_apply _ _ (ix3 (0 : Fin 1) (0 : Fin 1) q) (ix2 (0 : Fin 1) q) (pos_row q)).trans Ideal.ofBits_zero_f32

theorem pay3_apply (q : Fin 128) : k1_pay3 (F := Ideal) (ix3 0 0 q) = 0 := pay2_apply q

theorem hz3 : (![0, 0, 0] : Fin 3 → Nat) = fun _ => 0 := funext fun a => by fin_cases a <;> rfl
theorem hz2 : (![0, 0] : Fin 2 → Nat) = fun _ => 0 := funext fun a => by fin_cases a <;> rfl

-- the carried rows reset at a half's first point and grow by one block's column sums at each later point
theorem rows {N : Nat} (o : (n : Nat) → n < N → Vec Ideal S1x1x128 .f32 × Vec Ideal S1x1x128 .f32)
    (x0 x1 : Fin N → Vec Ideal S5000x128 .f32) (x2 : Fin N → Vec Ideal S5000x1 .f32) (x3 : Fin N → Vec Ideal S1x128 .f32) (f : Tab)
    (hx : ∀ t r q, k1_pay4 (x0 t) (x1 t) (x2 t) (x3 t) (ix2 r q) = ext f (5000 * t.val + r.val) q)
    (hA : ∀ t : Fin N, t.val % 10 = 0 → o t.val t.isLt
      = (k1_pay5 (x0 t) (x1 t) (x2 t) (x3 t) (k1_pay2 (F := Ideal)), k1_pay1 (k1_pay6 (x0 t) (x1 t) (x2 t) (x3 t) (k1_pay3 (F := Ideal)))))
    (hB : ∀ t : Fin N, ¬t.val % 10 = 0 → o t.val t.isLt
      = (k1_pay5 (x0 t) (x1 t) (x2 t) (x3 t) (o (t.val - 1) (Nat.lt_of_le_of_lt (Nat.sub_le _ _) t.isLt)).1,
        k1_pay1 (k1_pay6 (x0 t) (x1 t) (x2 t) (x3 t) (o (t.val - 1) (Nat.lt_of_le_of_lt (Nat.sub_le _ _) t.isLt)).2))) :
    ∀ (n : Nat) (h : n < N), (o n h).1 = (fun y => runSum f n (y 2))
      ∧ (o n h).2 = fun y => runSum (fun i j => f i j * f i j) n (y 2) := by
  have h1 : ∀ (t : Fin N) xo q, k1_pay5 (x0 t) (x1 t) (x2 t) (x3 t) xo (ix3 0 0 q) = xo (ix3 0 0 q) + blkSum f t.val q :=
    fun t xo q => (acc_apply _ xo _ _ q).trans (congrArg (_ + ·) (Finset.sum_congr rfl fun r _ => hx t r q))
  have h2 : ∀ (t : Fin N) xo q, k1_pay1 (k1_pay6 (x0 t) (x1 t) (x2 t) (x3 t) xo) (ix3 0 0 q)
      = xo (ix3 0 0 q) + blkSum (fun i j => f i j * f i j) t.val q :=
    fun t xo q => (acc_apply _ xo _ _ q).trans (congrArg (_ + ·) (Finset.sum_congr rfl fun r _ =>
      (congrArg₂ (· * ·) (hx t r q) (hx t r q)).trans (ext_sq f _ q).symm))
  intro n
  induction n with
  | zero =>
    intro h
    rw [hA ⟨0, h⟩ rfl]
    dsimp only
    exact ⟨row_ext _ _ fun q => by rw [h1, pay2_apply, zero_add, runSum_first _ _ _ rfl],
      row_ext _ _ fun q => by rw [h2, pay3_apply, zero_add, runSum_first _ _ _ rfl]⟩
  | succ n ih =>
    intro h
    by_cases h0 : (n + 1) % 10 = 0
    · rw [hA ⟨n + 1, h⟩ h0]
      dsimp only
      exact ⟨row_ext _ _ fun q => by rw [h1, pay2_apply, zero_add, runSum_first _ _ _ h0],
        row_ext _ _ fun q => by rw [h2, pay3_apply, zero_add, runSum_first _ _ _ h0]⟩
    · obtain ⟨i1, i2⟩ := ih (Nat.lt_of_succ_lt h)
      rw [hB ⟨n + 1, h⟩ h0]
      dsimp only
      exact ⟨row_ext _ _ fun q => by rw [h1, runSum_next _ _ _ h0]; exact congrArg (· + _) (congrFun i1 _),
        row_ext _ _ fun q => by rw [h2, runSum_next _ _ _ h0]; exact congrArg (· + _) (congrFun i2 _)⟩

-- the three statistics regions tile their arrays alike: the first region's windows, whose index maps and block shapes the other two share
section Geometry

theorem idx_facts : ∀ t : Fin cfg1.N,
    win1_0.index t (0 : Fin 2) = t.val ∧ win1_0.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 3) = t.val / 10 ∧ win1_4.index t (1 : Fin 3) = 0 ∧ win1_4.index t (2 : Fin 3) = 0 :=
  (by decide +kernel : ∀ t : Fin grid1.N, _)

variable (c : Dev nD)

theorem blk0_apply (A : Buf (Elt Ideal) ((c : Thread nD τ).loc (Pipeline.arrRef spec1 0))) (t : Fin cfg1.N) (r : Fin 5000) (q : Fin 128) (hr : 5000 * t.val + r.val < 100000) :
    (((cfg1.win 0).blk t).view.read (Elt Ideal) A : Vec Ideal S5000x128 .f32) (ix2 r q) = mat2 A ⟨5000 * t.val + r.val, hr⟩ q := by
  obtain ⟨e0, e1, -⟩ := idx_facts t
  unfold mat2
  rw [View.read_apply]
  show A _ = A _
  refine congrArg A (funext fun a => Fin.ext ?_)
  match a with
  | ⟨0, _⟩ => show win1_0.index t 0 * 5000 + 1 * r.val = 5000 * t.val + r.val; rw [e0]; omega
  | ⟨1, _⟩ => show win1_0.index t 1 * 128 + 1 * q.val = q.val; rw [e1]; omega

theorem blk2_apply (A : Buf (Elt Ideal) ((c : Thread nD τ).loc (Pipeline.arrRef spec1 2))) (t : Fin cfg1.N) (r : Fin 5000) (hr : 5000 * t.val + r.val < 100000) :
    (((cfg1.win 2).blk t).view.read (Elt Ideal) A : Vec Ideal S5000x1 .f32) (ix2 r 0) = col A ⟨5000 * t.val + r.val, hr⟩ := by
  obtain ⟨-, -, e0, e1, -⟩ := idx_facts t
  unfold col
  rw [View.read_apply]
  show A _ = A _
  refine congrArg A (funext fun a => Fin.ext ?_)
  match a with
  | ⟨0, _⟩ => show win1_2.index t 0 * 5000 + 1 * r.val = 5000 * t.val + r.val; rw [e0]; omega
  | ⟨1, _⟩ => show win1_2.index t 1 * 1 + 1 * 0 = 0; rw [e1]

theorem blk3_apply (A : Buf (Elt Ideal) ((c : Thread nD τ).loc (Pipeline.arrRef spec1 3))) (t : Fin cfg1.N) (q : Fin 128) :
    (((cfg1.win 3).blk t).view.read (Elt Ideal) A : Vec Ideal S1x128 .f32) (ix2 0 q) = row A q := by
  obtain ⟨-, -, -, -, e0, e1, -⟩ := idx_facts t
  unfold row
  rw [View.read_apply]
  show A _ = A _
  refine congrArg A (funext fun a => Fin.ext ?_)
  match a with
  | ⟨0, _⟩ => show win1_3.index t 0 * 1 + 1 * 0 = 0; rw [e0]
  | ⟨1, _⟩ => show win1_3.index t 1 * 128 + 1 * q.val = q.val; rw [e1]; omega

-- row r of the aggregate block at point t is row 5000 t + r of the aggregate
theorem pay4_blk (A0 : Buf (Elt Ideal) ((c : Thread nD τ).loc (Pipeline.arrRef spec1 0))) (A1 : Buf (Elt Ideal) ((c : Thread nD τ).loc (Pipeline.arrRef spec1 1))) (A2 : Buf (Elt Ideal) ((c : Thread nD τ).loc (Pipeline.arrRef spec1 2))) (A3 : Buf (Elt Ideal) ((c : Thread nD τ).loc (Pipeline.arrRef spec1 3))) (t : Fin cfg1.N) (r : Fin 5000) (q : Fin 128) :
    k1_pay4 (F := Ideal) (((cfg1.win 0).blk t).view.read (Elt Ideal) A0) (((cfg1.win 1).blk t).view.read (Elt Ideal) A1)
        (((cfg1.win 2).blk t).view.read (Elt Ideal) A2) (((cfg1.win 3).blk t).view.read (Elt Ideal) A3) (ix2 r q)
      = ext (aggK (mat2 A0) (mat2 A1) (col A2) (row A3)) (5000 * t.val + r.val) q := by
  have hN : cfg1.N = 20 := by decide
  have ht := t.isLt
  have hr := r.isLt
  have h : 5000 * t.val + r.val < 100000 := by omega
  unfold ext
  rw [dif_pos h]
  refine (pay4_apply _ _ _ _ r q).trans ?_
  exact congrArg₂ (· + ·) (congrArg₂ (· * ·) (congrArg₂ (· + ·) (blk0_apply c A0 t r q h) (blk0_apply c A1 t r q h))
    (blk2_apply c A2 t r h)) (blk3_apply c A3 t q)

-- a row read through the block of point t of a [2, 1, 128] array sits at half t / 10, lane for lane
theorem flushed_of (t : Fin cfg1.N) (g : Fin 128 → EReal) (G : S2x1x128.Idx → EReal)
    (h : ∀ (i : S2x1x128.Idx) (q : Fin 128), (i 0).val = t.val / 10 → (i 2).val = q.val → g q = G i) :
    (cfg1.win 4).cut (grid1.coords t) (fun y : S1x1x128.Idx => g (y 2)) = ((cfg1.win 4).blk t).view.read (Elt Ideal) G := by
  obtain ⟨-, -, -, -, -, -, e0, -, e2⟩ := idx_facts t
  funext y
  have hy0 : (y 0).val < 1 := (y 0).isLt
  refine h (((cfg1.win 4).blk t).view.emb y) ⟨(y 2).val, (y 2).isLt⟩ ?_ ?_
  · show win1_4.index t 0 * 1 + 1 * (y 0).val = t.val / 10
    rw [e0]; omega
  · show win1_4.index t 2 * 128 + 1 * (y 2).val = (y 2).val
    rw [e2]; omega

-- every index of a [2, 1, 128] output lies in the block of the tenth point of its half
theorem cover4 (i : S2x1x128.Idx) :
    ∃ t : Fin cfg1.N, (cfg1.win 4).flush t = true ∧ i ∈ ((cfg1.win 4).blk t).view.set := by
  have hN : cfg1.N = 20 := by decide
  have h0 : (i 0 : Nat) < 2 := (i 0).isLt
  have h1 : (i 1 : Nat) < 1 := (i 1).isLt
  have h2 : (i 2 : Nat) < 128 := (i 2).isLt
  obtain ⟨t, ht⟩ : ∃ t : Fin cfg1.N, t.val = 10 * (i 0 : Nat) + 9 := ⟨⟨10 * (i 0 : Nat) + 9, by omega⟩, rfl⟩
  obtain ⟨-, -, -, -, -, -, e0, e1, e2⟩ := idx_facts t
  refine ⟨t, (flush1_4 t).mpr (by omega), ?_⟩
  show i ∈ ((View.whole (Pipeline.arrRef spec1 4)).slice (win1_4.rect t)).set
  rw [View.set_slice_whole, Rect.mem_set_unit]
  intro a
  match a with
  | ⟨0, _⟩ => show win1_4.index t 0 * 1 ≤ (i 0 : Nat) ∧ (i 0 : Nat) < win1_4.index t 0 * 1 + 1; rw [e0]; omega
  | ⟨1, _⟩ => show win1_4.index t 1 * 1 ≤ (i 1 : Nat) ∧ (i 1 : Nat) < win1_4.index t 1 * 1 + 1; rw [e1]; omega
  | ⟨2, _⟩ => show win1_4.index t 2 * 128 ≤ (i 2 : Nat) ∧ (i 2 : Nat) < win1_4.index t 2 * 128 + 128; rw [e2]; omega

end Geometry

end Cert.KernelIdeal.RegVal.St

end
-- ==== Proof.RegStats1.lean ====
import proofs.«401495_j83210696393026_3_alg».proof.Proof.Gen.KernelIdeal.Frame
import proofs.«401495_j83210696393026_3_alg».proof.Proof.RegStats

noncomputable section

namespace Cert.KernelIdeal.RegVal

open Idealize.ShloMosaic Idealize.ShloMosaic.TcCoe
open Idealize.SL.Sem
open Cert.KernelIdeal Cert.KernelIdeal.Gen Cert.Spec

namespace St1

open St

section Pieces
variable {F : FTy → Type} [FloatOps F]

theorem outA_eq (c i a2 h2 a3 h3 a4 h4 a5 h5 a6 h6 a7 h7 hc x0 x1 x2 x3) :
    (out1_A_4 (F := F) c i a2 h2 a3 h3 a4 h4 a5 h5 a6 h6 a7 h7 hc x0 x1 x2 x3, out1_A_5 (F := F) c i a2 h2 a3 h3 a4 h4 a5 h5 a6 h6 a7 h7 hc x0 x1 x2 x3)
      = (k1_pay5 x0 x1 x2 x3 k1_pay2, k1_pay1 (k1_pay6 x0 x1 x2 x3 k1_pay3)) := by
  unfold out1_A_4 out1_A_5
  rw [View.read_writes_eq_canon _ _ _ (cover1_A_4 c i a2 h2 a3 h3 a4 h4 a5 h5 a6 h6 a7 h7 hc x0 x1 x2 x3), View.read_writes_eq_canon _ _ _ (cover1_A_5 c i a2 h2 a3 h3 a4 h4 a5 h5 a6 h6 a7 h7 hc x0 x1 x2 x3)]
  unfold kernelRun1_A
  dsimp only
  sl_unfold_words
  simp only [View.canon_cons_unit_zero (S := S1x1x128) hz3, View.readCov_unit_zero (S := S1x1x128) _ hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

theorem outB_eq (c i a2 h2 a3 h3 a4 h4 a5 h5 a6 h6 a7 h7 hc x0 x1 x2 x3 xo4 xo5) :
    (out1_B_4 (F := F) c i a2 h2 a3 h3 a4 h4 a5 h5 a6 h6 a7 h7 hc x0 x1 x2 x3 xo4 xo5, out1_B_5 (F := F) c i a2 h2 a3 h3 a4 h4 a5 h5 a6 h6 a7 h7 hc x0 x1 x2 x3 xo4 xo5)
      = (k1_pay5 x0 x1 x2 x3 xo4, k1_pay1 (k1_pay6 x0 x1 x2 x3 xo5)) := by
  unfold out1_B_4 out1_B_5
  rw [View.read_writes_eq_canon _ _ _ (cover1_B_4 c i a2 h2 a3 h3 a4 h4 a5 h5 a6 h6 a7 h7 hc x0 x1 x2 x3 xo4 xo5), View.read_writes_eq_canon _ _ _ (cover1_B_5 c i a2 h2 a3 h3 a4 h4 a5 h5 a6 h6 a7 h7 hc x0 x1 x2 x3 xo4 xo5)]
  unfold kernelRun1_B
  dsimp only
  sl_unfold_words
  simp only [View.canon_unit_zero (S := S1x1x128) hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

end Pieces

variable (V : (c : Dev nD) → (b : Ref sig .tc) → Buf (Elt Ideal) ((c : Thread nD τ).loc b))

abbrev aggV (c : Dev nD) : Tab :=
  aggK (mat2 (V c (Pipeline.arrRef spec1 0))) (mat2 (V c (Pipeline.arrRef spec1 1))) (col (V c (Pipeline.arrRef spec1 2))) (row (V c (Pipeline.arrRef spec1 3)))

-- the carried rows after point n: the column sums over the blocks of n's half up to block n
theorem sums (c : Dev nD) : ∀ (n : ℕ) (h : n < cfg1.N), (outsAt1 V c n h).1 = (fun y => runSum (aggV V c) n (y 2))
    ∧ (outsAt1 V c n h).2 = fun y => runSum (fun i j => aggV V c i j * aggV V c i j) n (y 2) :=
  rows (outsAt1 V c) (fun t => iblk1 V c 0 t) (fun t => iblk1 V c 1 t) (fun t => iblk1 V c 2 t) (fun t => iblk1 V c 3 t)
    (aggV V c) (pay4_blk c (V c (Pipeline.arrRef spec1 0)) (V c (Pipeline.arrRef spec1 1)) (V c (Pipeline.arrRef spec1 2)) (V c (Pipeline.arrRef spec1 3)))
    (fun t h0 => (outsAt1_A V c t h0).trans (outA_eq ..))
    (fun t h0 => (outsAt1_B V c t h0).trans (outB_eq ..))

theorem flushed4_eq (c : Dev nD) (t : Fin cfg1.N) (hf : (cfg1.win 4).flush t = true) :
    (dat1 (F := Ideal) V c).flushed 4 t
      = ((cfg1.win 4).blk t).view.read (Elt Ideal) (arr3 (fun cc (_ : Fin 1) j => coreSum (aggV V c) cc j)) := by
  show (cfg1.win 4).cut (grid1.coords t) ((dat1 (F := Ideal) V c).after 4 t) = _
  rw [after1_4, (sums V c t.val t.isLt).1]
  exact flushed_of t _ _ (runSum_arr3 _ t.val ((flush1_4 t).mp hf))

theorem flushed5_eq (c : Dev nD) (t : Fin cfg1.N) (hf : (cfg1.win 5).flush t = true) :
    (dat1 (F := Ideal) V c).flushed 5 t
      = ((cfg1.win 5).blk t).view.read (Elt Ideal) (arr3 (fun cc (_ : Fin 1) j => coreSum (fun i j => aggV V c i j * aggV V c i j) cc j)) := by
  show (cfg1.win 5).cut (grid1.coords t) ((dat1 (F := Ideal) V c).after 5 t) = _
  rw [after1_5, (sums V c t.val t.isLt).2]
  exact flushed_of t _ _ (runSum_arr3 _ t.val ((flush1_5 t).mp hf))

end St1

variable (V : (c : Dev nD) → (b : Ref sig .tc) → Buf (Elt Ideal) ((c : Thread nD τ).loc b))

theorem st1_sum (c : Dev nD) :
    (dat1 (F := Ideal) V c).arrAt 4 cfg1.N
      = arr3 (fun cc (_ : Fin 1) j => coreSum (aggK (mat2 (V c (Pipeline.arrRef spec1 0))) (mat2 (V c (Pipeline.arrRef spec1 1))) (col (V c (Pipeline.arrRef spec1 2))) (row (V c (Pipeline.arrRef spec1 3)))) cc j) :=
  (dat1 (F := Ideal) V c).arrAt_eq_of_cover 4 _ (St1.flushed4_eq V c) St.cover4

theorem st1_sq (c : Dev nD) :
    (dat1 (F := Ideal) V c).arrAt 5 cfg1.N
      = arr3 (fun cc (_ : Fin 1) j => coreSum (fun i j => (aggK (mat2 (V c (Pipeline.arrRef spec1 0))) (mat2 (V c (Pipeline.arrRef spec1 1))) (col (V c (Pipeline.arrRef spec1 2))) (row (V c (Pipeline.arrRef spec1 3)))) i j * (aggK (mat2 (V c (Pipeline.arrRef spec1 0))) (mat2 (V c (Pipeline.arrRef spec1 1))) (col (V c (Pipeline.arrRef spec1 2))) (row (V c (Pipeline.arrRef spec1 3)))) i j) cc j) :=
  (dat1 (F := Ideal) V c).arrAt_eq_of_cover 5 _ (St1.flushed5_eq V c) St.cover4

end Cert.KernelIdeal.RegVal

end
-- ==== Proof.RegBn2.lean ====
import proofs.«401495_j83210696393026_3_alg».proof.Proof.Gen.KernelIdeal.Frame
import proofs.«401495_j83210696393026_3_alg».proof.Proof.Spec
import proofs.«401495_j83210696393026_3_alg».proof.Proof.RegTile
import Idealize.ShloMosaic.PureOps.Ideal.Laws

namespace Cert.KernelIdeal.RegVal

open Idealize.ShloMosaic Idealize.ShloMosaic.TcCoe Idealize.ShloMosaic.ValueIdx Idealize.SL.Sem
open Cert.KernelIdeal Cert.KernelIdeal.Gen Cert.Spec

-- The payload entry by entry: sum of the two row blocks, scaled, biased, scaled and shifted by column, capped below by zero.
theorem pay2_apply (xs xz : Vec Ideal S5000x128 .f32) (xd : Vec Ideal S5000x1 .f32) (xb xg xh : Vec Ideal S1x128 .f32)
    (p : Fin 5000) (q : Fin 128) :
    k2_pay1 xs xz xd xb xg xh (ix2 p q)
      = max (((xs (ix2 p q) + xz (ix2 p q)) * xd (ix2 p 0) + xb (ix2 0 q)) * xg (ix2 0 q) + xh (ix2 0 q)) 0 := by
  unfold k2_pay1
  simp only [shapeCast_self]
  rw [maximumf_apply, addf_apply, mulf_apply, addf_apply, mulf_apply, addf_apply, broadcast_apply, spread_col,
    spread_row, spread_row, spread_row]
  show max _ (Ideal.ofBits .f32 0x00000000#32) = _
  rw [Ideal.ofBits_zero_f32]

theorem bn_point {T : ℕ} {r0 r1 r6 : Rect S100000x128} {r2 : Rect S100000x1} {r3 r4 r5 : Rect S1x128}
    {e0 e1 e6 : S5000x128.Idx → S100000x128.Idx} {e2 : S5000x1.Idx → S100000x1.Idx} {e3 e4 e5 : S1x128.Idx → S1x128.Idx}
    (h : RowOff T r0 ∧ RowOff T r1 ∧ RowOff T r2 ∧ RowOff 0 r3 ∧ RowOff 0 r4 ∧ RowOff 0 r5 ∧ RowOff T r6)
    (g0 : Lays r0 e0) (g1 : Lays r1 e1) (g2 : Lays r2 e2) (g3 : Lays r3 e3) (g4 : Lays r4 e4) (g5 : Lays r5 e5)
    (g6 : Lays r6 e6) (Asc Azp : S100000x128.Idx → EReal) (Ad : S100000x1.Idx → EReal)
    (Ab Ag Ah : S1x128.Idx → EReal) (j : S5000x128.Idx) :
    k2_pay1 (F := Ideal) (fun y => Asc (e0 y)) (fun y => Azp (e1 y)) (fun y => Ad (e2 y)) (fun y => Ab (e3 y))
        (fun y => Ag (e4 y)) (fun y => Ah (e5 y)) j
      = arr2 (bnApply (aggK (mat2 Asc) (mat2 Azp) (col Ad) (row Ab)) (row Ag) (row Ah)) (e6 j) := by
  obtain ⟨h0, h1, h2, h3, h4, h5, h6⟩ := h
  have h6 := h6.shift g6
  obtain ⟨p, q, rfl⟩ : ∃ p q, j = ix2 p q := ⟨j 0, j 1, eq_ix2 j⟩
  obtain ⟨r, hr⟩ : ∃ r : Fin 100000, r.val = T + p.val := ⟨_, (h6 (ix2 p q)).1⟩
  rw [pay2_apply, h6.apply p q r hr]
  beta_reduce
  rw [(h0.shift g0).apply p q r hr, (h1.shift g1).apply p q r hr, (h2.shift g2).apply p 0 r hr,
    (h3.shift g3).apply 0 q 0 rfl, (h4.shift g4).apply 0 q 0 rfl, (h5.shift g5).apply 0 q 0 rfl]
  rfl

private theorem idx2 : ∀ t : Fin cfg2.N,
    RowOff (t.val * 5000) (win2_0.rect t) ∧ RowOff (t.val * 5000) (win2_1.rect t) ∧ RowOff (t.val * 5000) (win2_2.rect t) ∧ RowOff 0 (win2_3.rect t) ∧ RowOff 0 (win2_4.rect t) ∧ RowOff 0 (win2_5.rect t) ∧ RowOff (t.val * 5000) (win2_6.rect t) :=
  (by decide +kernel : ∀ t : Fin grid2.N, _)

private theorem cov2 (i : S100000x128.Idx) :
    ∃ t : Fin cfg2.N, (cfg2.win 6).flush t = true ∧ i ∈ ((cfg2.win 6).blk t).view.set := by
  obtain ⟨t, y, h⟩ := rowShift_cover N_2 (e := fun t => ((cfg2.win 6).blk t).view.emb)
    (fun t => (idx2 t).2.2.2.2.2.2.shift fun _ _ => rfl) i
  exact ⟨t, flush2_6 t, by rw [← h]; exact View.emb_mem_set _ y⟩

variable (V : (c : Dev nD) → (b : Ref sig .tc) → Buf (Elt Ideal) ((c : Thread nD τ).loc b))

private theorem fl2 (c : Dev nD) (t : Fin cfg2.N) :
    (dat2 (F := Ideal) V c).flushed 6 t = k2_pay1 (iblk2 V c 0 t) (iblk2 V c 1 t) (iblk2 V c 2 t) (iblk2 V c 3 t) (iblk2 V c 4 t) (iblk2 V c 5 t) := by
  show (cfg2.win 6).cut (grid2.coords t) ((dat2 (F := Ideal) V c).after 6 t) = _
  rw [after2_6]
  unfold out2_6
  rw [View.canon_unit_zero zero_off2]
  simp only [View.ld_unit_zero (S := S5000x128) zero_off2, View.ld_unit_zero (S := S5000x1) zero_off2, View.ld_unit_zero (S := S1x128) zero_off2]
  rfl

theorem bn2 (c : Dev nD) :
    (dat2 (F := Ideal) V c).arrAt 6 cfg2.N
      = arr2 (bnApply (aggK (mat2 (V c (Pipeline.arrRef spec2 0))) (mat2 (V c (Pipeline.arrRef spec2 1))) (col (V c (Pipeline.arrRef spec2 2))) (row (V c (Pipeline.arrRef spec2 3)))) (row (V c (Pipeline.arrRef spec2 4))) (row (V c (Pipeline.arrRef spec2 5)))) := by
  refine (dat2 (F := Ideal) V c).arrAt_eq_of_cover 6 _ (fun t _ => ?_) cov2
  rw [fl2]
  refine funext (bn_point (idx2 t) ?_ ?_ ?_ ?_ ?_ ?_ ?_ (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) <;> exact fun _ _ => rfl

end Cert.KernelIdeal.RegVal
-- ==== Proof.KLayer0.lean ====
import proofs.«401495_j83210696393026_3_alg».proof.Proof.KLayerLib
import proofs.«401495_j83210696393026_3_alg».proof.Proof.RegMatmul0
import proofs.«401495_j83210696393026_3_alg».proof.Proof.RegStats1
import proofs.«401495_j83210696393026_3_alg».proof.Proof.RegBn2
set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

namespace L0

private abbrev R1 : List (Ref sig .tc) :=
  [main_c_3, main_v19, main_v20, main_c_4, main_v21, main_v22, main_v23, main_v24, main_v25, main_cst_5, main_v26, main_v27,
    main_v28]
private abbrev R2 : List (Ref sig .tc) :=
  [main_cst_6, main_v30, main_cst_7, main_v31, main_cst_8, main_v32, main_v33, main_cst_9, main_v34, main_v35, main_v36,
    main_v37, main_cst_10, main_v38, main_v39, main_v40, main_v41, main_cst_11, main_v42, main_v43, main_v44, main_v45,
    main_v46, main_v47, main_v48, main_v49, main_v50, main_v51]

private theorem keepH1 (V : Valuation τ sig (Elt Ideal)) (b : Ref sig .tc) (hb : b ∉ R1 := by decide) :
    StableHlo.after hostOps1 V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem keepH2 (V : Valuation τ sig (Elt Ideal)) (b : Ref sig .tc) (hb : b ∉ R2 := by decide) :
    StableHlo.after hostOps2 V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem carry6 (b : Ref sig .tc) (e0 : W4 m ρ c (Proc.devRef .tc b) = W3 m ρ c (Proc.devRef .tc b))
    (h1 : b ∉ R1 := by decide) (r1 : ∀ w, Pipeline.arrRef spec1 w ≠ b := by decide) :
    W6 m ρ c (Proc.devRef .tc b) = W3 m ρ c (Proc.devRef .tc b) :=
  (W6_of_ne m ρ c b r1).trans ((keepH1 _ b h1).trans e0)

private theorem carryL0 (b : Ref sig .tc) (e0 : W4 m ρ c (Proc.devRef .tc b) = W3 m ρ c (Proc.devRef .tc b))
    (h1 : b ∉ R1 := by decide) (h2 : b ∉ R2 := by decide) (r1 : ∀ w, Pipeline.arrRef spec1 w ≠ b := by decide)
    (r2 : ∀ w, Pipeline.arrRef spec2 w ≠ b := by decide) :
    W8 m ρ c (Proc.devRef .tc b) = W3 m ρ c (Proc.devRef .tc b) :=
  (W8_of_ne m ρ c b r2).trans ((keepH2 _ b h2).trans (carry6 m ρ c b e0 h1 r1))

private theorem dinv4 : W4 m ρ c (Proc.devRef .tc main_v12) = W3 m ρ c (Proc.devRef .tc main_v12) :=
  (W4_arr m ρ c 2).trans (((dat0 (V3 m ρ) c).arrAt_in 2 rfl _).trans (A_eq0 (V3 m ρ) c 2))
private theorem dinv6 : W6 m ρ c (Proc.devRef .tc main_v12) = W3 m ρ c (Proc.devRef .tc main_v12) :=
  ((W6_arr m ρ c 2).trans (((dat1 (V5 m ρ) c).arrAt_in 2 rfl _).trans (A_eq1 (V5 m ρ) c 2))).trans
    ((keepH1 _ main_v12).trans (dinv4 m ρ c))
private theorem dinv8 : W8 m ρ c (Proc.devRef .tc main_v12) = W3 m ρ c (Proc.devRef .tc main_v12) :=
  ((W8_arr m ρ c 2).trans (((dat2 (V7 m ρ) c).arrAt_in 2 rfl _).trans (A_eq2 (V7 m ρ) c 2))).trans
    ((keepH2 _ main_v12).trans (dinv6 m ρ c))

private theorem graphL0 (g : Graph m c hr (W3 m ρ c)) : Graph m c hr (W8 m ρ c) :=
  g.carry fun b hb => by
    fin_cases hb
    · exact dinv8 m ρ c
    · exact carryL0 m ρ c _ ((W4_arr m ρ c 0).trans (((dat0 (V3 m ρ) c).arrAt_in 0 rfl _).trans (A_eq0 (V3 m ρ) c 0)))
    all_goals exact carryL0 m ρ c _ (W4_of_ne m ρ c _ (by decide))

end L0

open L0 in
set_option maxHeartbeats 4000000 in
theorem layer0 (g : Graph m c hr (W3 m ρ c)) :
    Graph m c hr (W8 m ρ c)
    ∧ W8 m ρ c (Proc.devRef .tc main_v52) = arr2 (layerK (ins m c hr).src (ins m c hr).dst (ins m c hr).cw (ins m c hr).cb (ins m c hr).bg (ins m c hr).bb 0 (ins m c hr).x) := by
  refine ⟨graphL0 m ρ c hr g, ?_⟩
  have e17 : W3 m ρ c (Proc.devRef .tc main_v17) = arr2 ((ins m c hr).cw 0) := by
    after_results
    exact HostRead.mat_slice (m ((c : Thread nD τ).loc main_arg3)) 0 _ 0 rfl
  have e15 : W3 m ρ c (Proc.devRef .tc main_v15) = rowArr ((ins m c hr).cb 0) := by
    after_results
    exact HostRead.row_slice_row (m ((c : Thread nD τ).loc main_arg4)) 0 _ 0 rfl
  have e18 : W4 m ρ c (Proc.devRef .tc main_v18) = arr2 (zpL m c hr 0 (ins m c hr).x) :=
    (W4_arr m ρ c 3).trans ((RegVal.md0 (V3 m ρ) c).trans (zp_read (g.arg0.trans (arr2_mat2 _).symm) e17 g.dinv))
  have e18_5 : W5 m ρ c (Proc.devRef .tc main_v18) = arr2 (zpL m c hr 0 (ins m c hr).x) := (keepH1 _ main_v18).trans e18
  have e12_5 : W5 m ρ c (Proc.devRef .tc main_v12) = colArr (dinvK (ins m c hr).dst) :=
    (keepH1 _ main_v12).trans ((dinv4 m ρ c).trans g.dinv)
  have e15_5 : W5 m ρ c (Proc.devRef .tc main_v15) = rowArr ((ins m c hr).cb 0) :=
    (keepH1 _ main_v15).trans ((W4_of_ne m ρ c main_v15 (by decide)).trans e15)
  have e28 : W5 m ρ c (Proc.devRef .tc main_v28) = arr2 (scat (ins m c hr).src (ins m c hr).dst (zpL m c hr 0 (ins m c hr).x)) := by
    after_results_simp
    rw [(W4_of_ne m ρ c main_v2 (by decide)).trans g.srcw, (W4_of_ne m ρ c main_v4 (by decide)).trans g.dstw, e18]
    exact HostRead.gather_scatter _ _ _ (ins m c hr).src (ins m c hr).dst (fun _ => rfl) (fun _ => rfl)
  have e29_0 : W6 m ρ c (Proc.devRef .tc main_v29_0) = arr3 (fun cc (_ : Fin 1) j => coreSum (agL m c hr 0 (ins m c hr).x) cc j) :=
    (W6_arr m ρ c 4).trans ((RegVal.st1_sum (V5 m ρ) c).trans (sum_read e28 e18_5 e12_5 e15_5))
  have e29_1 : W6 m ρ c (Proc.devRef .tc main_v29_1)
      = arr3 (fun cc (_ : Fin 1) j => coreSum (fun i j => agL m c hr 0 (ins m c hr).x i j * agL m c hr 0 (ins m c hr).x i j) cc j) :=
    (W6_arr m ρ c 5).trans ((RegVal.st1_sq (V5 m ρ) c).trans (sq_read e28 e18_5 e12_5 e15_5))
  have e50 : W7 m ρ c (Proc.devRef .tc main_v50) = rowArr (scaleK (agL m c hr 0 (ins m c hr).x) ((ins m c hr).bg 0)) := by
    after_results_simp
    rw [(carry6 m ρ c main_arg5 (W4_of_ne m ρ c _ (by decide))).trans g.arg5]
    refine (HostRead.scale_row _ _ _ (agL m c hr 0 (ins m c hr).x) e29_0 e29_1).trans ?_
    exact congrArg (fun v => rowArr (scaleK (agL m c hr 0 (ins m c hr).x) (vec1 v)))
      (HostRead.row_slice (m ((c : Thread nD τ).loc main_arg5)) 0 _ 0 rfl)
  have e51 : W7 m ρ c (Proc.devRef .tc main_v51)
      = rowArr (shiftK (agL m c hr 0 (ins m c hr).x) ((ins m c hr).bg 0) ((ins m c hr).bb 0)) := by
    after_results_simp
    rw [(carry6 m ρ c main_arg5 (W4_of_ne m ρ c _ (by decide))).trans g.arg5,
      (carry6 m ρ c main_arg6 (W4_of_ne m ρ c _ (by decide))).trans g.arg6]
    refine (HostRead.shift_row _ _ _ _ (agL m c hr 0 (ins m c hr).x) e29_0 e29_1).trans ?_
    exact congrArg₂ (fun v w => rowArr (shiftK (agL m c hr 0 (ins m c hr).x) (vec1 v) (vec1 w)))
      (HostRead.row_slice (m ((c : Thread nD τ).loc main_arg5)) 0 _ 0 rfl)
      (HostRead.row_slice (m ((c : Thread nD τ).loc main_arg6)) 0 _ 0 rfl)
  exact (W8_arr m ρ c 6).trans ((RegVal.bn2 (V7 m ρ) c).trans ((bn_read
      ((keepH2 _ main_v28).trans (((W6_arr m ρ c 0).trans (((dat1 (V5 m ρ) c).arrAt_in 0 rfl _).trans
      (A_eq1 (V5 m ρ) c 0))).trans e28))
      ((keepH2 _ main_v18).trans (((W6_arr m ρ c 1).trans (((dat1 (V5 m ρ) c).arrAt_in 1 rfl _).trans
      (A_eq1 (V5 m ρ) c 1))).trans e18_5))
      ((keepH2 _ main_v12).trans ((dinv6 m ρ c).trans g.dinv))
      ((keepH2 _ main_v15).trans (((W6_arr m ρ c 3).trans (((dat1 (V5 m ρ) c).arrAt_in 3 rfl _).trans
      (A_eq1 (V5 m ρ) c 3))).trans e15_5))
      e50 e51).trans
    (layer_eq0 (ins m c hr).src (ins m c hr).dst (ins m c hr).cw (ins m c hr).cb (ins m c hr).bg (ins m c hr).bb 0
      (ins m c hr).x (zpL m c hr 0 (ins m c hr).x) (agL m c hr 0 (ins m c hr).x) rfl rfl)))

end Cert.KernelIdeal.Chain

end
-- ==== Proof.RegMatmul3.lean ====
import proofs.«401495_j83210696393026_3_alg».proof.Proof.RegMatmul0

namespace Cert.KernelIdeal.RegVal

open Idealize.ShloMosaic Idealize.ShloMosaic.TcCoe Idealize.ShloMosaic.ValueIdx Idealize.SL.Sem
open Cert.KernelIdeal Cert.KernelIdeal.Gen Cert.Spec

private theorem idx3 : ∀ t : Fin cfg3.N,
    RowOff (t.val * 5000) (win3_0.rect t) ∧ RowOff 0 (win3_1.rect t) ∧ RowOff (t.val * 5000) (win3_2.rect t) ∧ RowOff (t.val * 5000) (win3_3.rect t) :=
  (by decide +kernel : ∀ t : Fin grid3.N, _)

private theorem cov3 (i : S100000x128.Idx) :
    ∃ t : Fin cfg3.N, (cfg3.win 3).flush t = true ∧ i ∈ ((cfg3.win 3).blk t).view.set := by
  obtain ⟨t, y, h⟩ := rowShift_cover N_3 (e := fun t => ((cfg3.win 3).blk t).view.emb)
    (fun t => (idx3 t).2.2.2.shift fun _ _ => rfl) i
  exact ⟨t, flush3_3 t, by rw [← h]; exact View.emb_mem_set _ y⟩

variable (V : (c : Dev nD) → (b : Ref sig .tc) → Buf (Elt Ideal) ((c : Thread nD τ).loc b))

private theorem fl3 (c : Dev nD) (t : Fin cfg3.N) :
    (dat3 (F := Ideal) V c).flushed 3 t = k3_pay1 (iblk3 V c 0 t) (iblk3 V c 1 t) (iblk3 V c 2 t) := by
  show (cfg3.win 3).cut (grid3.coords t) ((dat3 (F := Ideal) V c).after 3 t) = _
  rw [after3_3]
  unfold out3_3
  rw [View.canon_unit_zero zero_off2]
  simp only [View.ld_unit_zero (S := S5000x128) zero_off2, View.ld_unit_zero (S := S128x128) zero_off2, View.ld_unit_zero (S := S5000x1) zero_off2]
  rfl

theorem md3 (c : Dev nD) :
    (dat3 (F := Ideal) V c).arrAt 3 cfg3.N
      = arr2 (zprime (mat2 (V c (Pipeline.arrRef spec3 0))) (mat2 (V c (Pipeline.arrRef spec3 1))) (col (V c (Pipeline.arrRef spec3 2)))) := by
  refine (dat3 (F := Ideal) V c).arrAt_eq_of_cover 3 _ (fun t _ => ?_) cov3
  rw [fl3, k3_eq]
  refine funext (featProd_point (idx3 t) ?_ ?_ ?_ ?_ (V c (Pipeline.arrRef spec3 0)) (V c (Pipeline.arrRef spec3 1)) (V c (Pipeline.arrRef spec3 2))) <;> exact fun _ _ => rfl

end Cert.KernelIdeal.RegVal
-- ==== Proof.RegStats4.lean ====
import proofs.«401495_j83210696393026_3_alg».proof.Proof.Gen.KernelIdeal.Frame
import proofs.«401495_j83210696393026_3_alg».proof.Proof.RegStats

noncomputable section

namespace Cert.KernelIdeal.RegVal

open Idealize.ShloMosaic Idealize.ShloMosaic.TcCoe
open Idealize.SL.Sem
open Cert.KernelIdeal Cert.KernelIdeal.Gen Cert.Spec

namespace St4

open St

section Pieces
variable {F : FTy → Type} [FloatOps F]

theorem outA_eq (c i a2 h2 a3 h3 a4 h4 a5 h5 a6 h6 a7 h7 hc x0 x1 x2 x3) :
    (out4_A_4 (F := F) c i a2 h2 a3 h3 a4 h4 a5 h5 a6 h6 a7 h7 hc x0 x1 x2 x3, out4_A_5 (F := F) c i a2 h2 a3 h3 a4 h4 a5 h5 a6 h6 a7 h7 hc x0 x1 x2 x3)
      = (k4_pay5 x0 x1 x2 x3 k4_pay2, k4_pay1 (k4_pay6 x0 x1 x2 x3 k4_pay3)) := by
  unfold out4_A_4 out4_A_5
  rw [View.read_writes_eq_canon _ _ _ (cover4_A_4 c i a2 h2 a3 h3 a4 h4 a5 h5 a6 h6 a7 h7 hc x0 x1 x2 x3), View.read_writes_eq_canon _ _ _ (cover4_A_5 c i a2 h2 a3 h3 a4 h4 a5 h5 a6 h6 a7 h7 hc x0 x1 x2 x3)]
  unfold kernelRun4_A
  dsimp only
  sl_unfold_words
  simp only [View.canon_cons_unit_zero (S := S1x1x128) hz3, View.readCov_unit_zero (S := S1x1x128) _ hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

theorem outB_eq (c i a2 h2 a3 h3 a4 h4 a5 h5 a6 h6 a7 h7 hc x0 x1 x2 x3 xo4 xo5) :
    (out4_B_4 (F := F) c i a2 h2 a3 h3 a4 h4 a5 h5 a6 h6 a7 h7 hc x0 x1 x2 x3 xo4 xo5, out4_B_5 (F := F) c i a2 h2 a3 h3 a4 h4 a5 h5 a6 h6 a7 h7 hc x0 x1 x2 x3 xo4 xo5)
      = (k4_pay5 x0 x1 x2 x3 xo4, k4_pay1 (k4_pay6 x0 x1 x2 x3 xo5)) := by
  unfold out4_B_4 out4_B_5
  rw [View.read_writes_eq_canon _ _ _ (cover4_B_4 c i a2 h2 a3 h3 a4 h4 a5 h5 a6 h6 a7 h7 hc x0 x1 x2 x3 xo4 xo5), View.read_writes_eq_canon _ _ _ (cover4_B_5 c i a2 h2 a3 h3 a4 h4 a5 h5 a6 h6 a7 h7 hc x0 x1 x2 x3 xo4 xo5)]
  unfold kernelRun4_B
  dsimp only
  sl_unfold_words
  simp only [View.canon_unit_zero (S := S1x1x128) hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

end Pieces

variable (V : (c : Dev nD) → (b : Ref sig .tc) → Buf (Elt Ideal) ((c : Thread nD τ).loc b))

abbrev aggV (c : Dev nD) : Tab :=
  aggK (mat2 (V c (Pipeline.arrRef spec4 0))) (mat2 (V c (Pipeline.arrRef spec4 1))) (col (V c (Pipeline.arrRef spec4 2))) (row (V c (Pipeline.arrRef spec4 3)))

-- the carried rows after point n: the column sums over the blocks of n's half up to block n
theorem sums (c : Dev nD) : ∀ (n : ℕ) (h : n < cfg4.N), (outsAt4 V c n h).1 = (fun y => runSum (aggV V c) n (y 2))
    ∧ (outsAt4 V c n h).2 = fun y => runSum (fun i j => aggV V c i j * aggV V c i j) n (y 2) :=
  rows (outsAt4 V c) (fun t => iblk4 V c 0 t) (fun t => iblk4 V c 1 t) (fun t => iblk4 V c 2 t) (fun t => iblk4 V c 3 t)
    (aggV V c) (pay4_blk c (V c (Pipeline.arrRef spec4 0)) (V c (Pipeline.arrRef spec4 1)) (V c (Pipeline.arrRef spec4 2)) (V c (Pipeline.arrRef spec4 3)))
    (fun t h0 => (outsAt4_A V c t h0).trans (outA_eq ..))
    (fun t h0 => (outsAt4_B V c t h0).trans (outB_eq ..))

theorem flushed4_eq (c : Dev nD) (t : Fin cfg4.N) (hf : (cfg4.win 4).flush t = true) :
    (dat4 (F := Ideal) V c).flushed 4 t
      = ((cfg4.win 4).blk t).view.read (Elt Ideal) (arr3 (fun cc (_ : Fin 1) j => coreSum (aggV V c) cc j)) := by
  show (cfg4.win 4).cut (grid4.coords t) ((dat4 (F := Ideal) V c).after 4 t) = _
  rw [after4_4, (sums V c t.val t.isLt).1]
  exact flushed_of t _ _ (runSum_arr3 _ t.val ((flush4_4 t).mp hf))

theorem flushed5_eq (c : Dev nD) (t : Fin cfg4.N) (hf : (cfg4.win 5).flush t = true) :
    (dat4 (F := Ideal) V c).flushed 5 t
      = ((cfg4.win 5).blk t).view.read (Elt Ideal) (arr3 (fun cc (_ : Fin 1) j => coreSum (fun i j => aggV V c i j * aggV V c i j) cc j)) := by
  show (cfg4.win 5).cut (grid4.coords t) ((dat4 (F := Ideal) V c).after 5 t) = _
  rw [after4_5, (sums V c t.val t.isLt).2]
  exact flushed_of t _ _ (runSum_arr3 _ t.val ((flush4_5 t).mp hf))

end St4

variable (V : (c : Dev nD) → (b : Ref sig .tc) → Buf (Elt Ideal) ((c : Thread nD τ).loc b))

theorem st4_sum (c : Dev nD) :
    (dat4 (F := Ideal) V c).arrAt 4 cfg4.N
      = arr3 (fun cc (_ : Fin 1) j => coreSum (aggK (mat2 (V c (Pipeline.arrRef spec4 0))) (mat2 (V c (Pipeline.arrRef spec4 1))) (col (V c (Pipeline.arrRef spec4 2))) (row (V c (Pipeline.arrRef spec4 3)))) cc j) :=
  (dat4 (F := Ideal) V c).arrAt_eq_of_cover 4 _ (St4.flushed4_eq V c) St.cover4

theorem st4_sq (c : Dev nD) :
    (dat4 (F := Ideal) V c).arrAt 5 cfg4.N
      = arr3 (fun cc (_ : Fin 1) j => coreSum (fun i j => (aggK (mat2 (V c (Pipeline.arrRef spec4 0))) (mat2 (V c (Pipeline.arrRef spec4 1))) (col (V c (Pipeline.arrRef spec4 2))) (row (V c (Pipeline.arrRef spec4 3)))) i j * (aggK (mat2 (V c (Pipeline.arrRef spec4 0))) (mat2 (V c (Pipeline.arrRef spec4 1))) (col (V c (Pipeline.arrRef spec4 2))) (row (V c (Pipeline.arrRef spec4 3)))) i j) cc j) :=
  (dat4 (F := Ideal) V c).arrAt_eq_of_cover 5 _ (St4.flushed5_eq V c) St.cover4

end Cert.KernelIdeal.RegVal

end
-- ==== Proof.RegBnRes5.lean ====
import proofs.«401495_j83210696393026_3_alg».proof.Proof.RegBn2

namespace Cert.KernelIdeal.RegVal

open Idealize.ShloMosaic Idealize.ShloMosaic.TcCoe Idealize.ShloMosaic.ValueIdx Idealize.SL.Sem
open Cert.KernelIdeal Cert.KernelIdeal.Gen Cert.Spec

-- The residual payload is the rectified one plus the residual block, entry by entry.
theorem bnres_point {T : ℕ} {r0 r1 r6 r7 : Rect S100000x128} {r2 : Rect S100000x1} {r3 r4 r5 : Rect S1x128}
    {e0 e1 e6 e7 : S5000x128.Idx → S100000x128.Idx} {e2 : S5000x1.Idx → S100000x1.Idx}
    {e3 e4 e5 : S1x128.Idx → S1x128.Idx}
    (h : RowOff T r0 ∧ RowOff T r1 ∧ RowOff T r2 ∧ RowOff 0 r3 ∧ RowOff 0 r4 ∧ RowOff 0 r5 ∧ RowOff T r6 ∧ RowOff T r7)
    (g0 : Lays r0 e0) (g1 : Lays r1 e1) (g2 : Lays r2 e2) (g3 : Lays r3 e3) (g4 : Lays r4 e4) (g5 : Lays r5 e5)
    (g6 : Lays r6 e6) (g7 : Lays r7 e7) (Asc Azp : S100000x128.Idx → EReal) (Ad : S100000x1.Idx → EReal)
    (Ab Ag Ah : S1x128.Idx → EReal) (Ares : S100000x128.Idx → EReal) (j : S5000x128.Idx) :
    k5_pay1 (F := Ideal) (fun y => Asc (e0 y)) (fun y => Azp (e1 y)) (fun y => Ad (e2 y)) (fun y => Ab (e3 y))
        (fun y => Ag (e4 y)) (fun y => Ah (e5 y)) (fun y => Ares (e6 y)) j
      = arr2 (fun i j => bnApply (aggK (mat2 Asc) (mat2 Azp) (col Ad) (row Ab)) (row Ag) (row Ah) i j + mat2 Ares i j) (e7 j) := by
  obtain ⟨h0, h1, h2, h3, h4, h5, h6, h7⟩ := h
  obtain ⟨p, q, rfl⟩ : ∃ p q, j = ix2 p q := ⟨j 0, j 1, eq_ix2 j⟩
  obtain ⟨r, hr⟩ : ∃ r : Fin 100000, r.val = T + p.val := ⟨_, ((h7.shift g7) (ix2 p q)).1⟩
  show addf (k2_pay1 _ _ _ _ _ _) (shapeCast _ _ _) _ = _
  rw [shapeCast_self, addf_apply, bn_point ⟨h0, h1, h2, h3, h4, h5, h7⟩ g0 g1 g2 g3 g4 g5 g7,
    (h7.shift g7).apply p q r hr]
  beta_reduce
  rw [(h6.shift g6).apply p q r hr]
  rfl

private theorem idx5 : ∀ t : Fin cfg5.N,
    RowOff (t.val * 5000) (win5_0.rect t) ∧ RowOff (t.val * 5000) (win5_1.rect t) ∧ RowOff (t.val * 5000) (win5_2.rect t) ∧ RowOff 0 (win5_3.rect t) ∧ RowOff 0 (win5_4.rect t) ∧ RowOff 0 (win5_5.rect t) ∧ RowOff (t.val * 5000) (win5_6.rect t) ∧ RowOff (t.val * 5000) (win5_7.rect t) :=
  (by decide +kernel : ∀ t : Fin grid5.N, _)

private theorem cov5 (i : S100000x128.Idx) :
    ∃ t : Fin cfg5.N, (cfg5.win 7).flush t = true ∧ i ∈ ((cfg5.win 7).blk t).view.set := by
  obtain ⟨t, y, h⟩ := rowShift_cover N_5 (e := fun t => ((cfg5.win 7).blk t).view.emb)
    (fun t => (idx5 t).2.2.2.2.2.2.2.shift fun _ _ => rfl) i
  exact ⟨t, flush5_7 t, by rw [← h]; exact View.emb_mem_set _ y⟩

variable (V : (c : Dev nD) → (b : Ref sig .tc) → Buf (Elt Ideal) ((c : Thread nD τ).loc b))

private theorem fl5 (c : Dev nD) (t : Fin cfg5.N) :
    (dat5 (F := Ideal) V c).flushed 7 t = k5_pay1 (iblk5 V c 0 t) (iblk5 V c 1 t) (iblk5 V c 2 t) (iblk5 V c 3 t) (iblk5 V c 4 t) (iblk5 V c 5 t) (iblk5 V c 6 t) := by
  show (cfg5.win 7).cut (grid5.coords t) ((dat5 (F := Ideal) V c).after 7 t) = _
  rw [after5_7]
  unfold out5_7
  rw [View.canon_unit_zero zero_off2]
  simp only [View.ld_unit_zero (S := S5000x128) zero_off2, View.ld_unit_zero (S := S5000x1) zero_off2, View.ld_unit_zero (S := S1x128) zero_off2]
  rfl

theorem bnres5 (c : Dev nD) :
    (dat5 (F := Ideal) V c).arrAt 7 cfg5.N
      = arr2 (fun i j => bnApply (aggK (mat2 (V c (Pipeline.arrRef spec5 0))) (mat2 (V c (Pipeline.arrRef spec5 1))) (col (V c (Pipeline.arrRef spec5 2))) (row (V c (Pipeline.arrRef spec5 3)))) (row (V c (Pipeline.arrRef spec5 4))) (row (V c (Pipeline.arrRef spec5 5))) i j + mat2 (V c (Pipeline.arrRef spec5 6)) i j) := by
  refine (dat5 (F := Ideal) V c).arrAt_eq_of_cover 7 _ (fun t _ => ?_) cov5
  rw [fl5]
  refine funext (bnres_point (idx5 t) ?_ ?_ ?_ ?_ ?_ ?_ ?_ ?_ (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) <;> exact fun _ _ => rfl

end Cert.KernelIdeal.RegVal
-- ==== Proof.KLayer1.lean ====
import proofs.«401495_j83210696393026_3_alg».proof.Proof.KLayerLib
import proofs.«401495_j83210696393026_3_alg».proof.Proof.RegMatmul3
import proofs.«401495_j83210696393026_3_alg».proof.Proof.RegStats4
import proofs.«401495_j83210696393026_3_alg».proof.Proof.RegBnRes5
set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

namespace L1

private abbrev R3 : List (Ref sig .tc) := [main_v53, main_v54, main_v55, main_v56, main_v57]
private abbrev R4 : List (Ref sig .tc) :=
  [main_c_12, main_v59, main_v60, main_c_13, main_v61, main_v62, main_v63, main_v64, main_v65, main_cst_14, main_v66,
    main_v67, main_v68]
private abbrev R5 : List (Ref sig .tc) :=
  [main_cst_15, main_v70, main_cst_16, main_v71, main_cst_17, main_v72, main_v73, main_cst_18, main_v74, main_v75,
    main_v76, main_v77, main_cst_19, main_v78, main_v79, main_v80, main_v81, main_cst_20, main_v82, main_v83, main_v84,
    main_v85, main_v86, main_v87, main_v88, main_v89, main_v90, main_v91]

private theorem keepH3 (V : Valuation τ sig (Elt Ideal)) (b : Ref sig .tc) (hb : b ∉ R3 := by decide) :
    StableHlo.after hostOps3 V (Proc.devRef .tc b) = V (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem keepH4 (V : Valuation τ sig (Elt Ideal)) (b : Ref sig .tc) (hb : b ∉ R4 := by decide) :
    StableHlo.after hostOps4 V (Proc.devRef .tc b) = V (Proc.devRef .tc b) := by
  refine StableHlo.after_of_forall_not_mem (b := Proc.devRef .tc b) _ _ (List.forall_iff_forall_mem.mp ?_)
  simp only [hostOps4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem keepH5 (V : Valuation τ sig (Elt Ideal)) (b : Ref sig .tc) (hb : b ∉ R5 := by decide) :
    StableHlo.after hostOps5 V (Proc.devRef .tc b) = V (Proc.devRef .tc b) := by
  refine StableHlo.after_of_forall_not_mem (b := Proc.devRef .tc b) _ _ (List.forall_iff_forall_mem.mp ?_)
  simp only [hostOps5, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem carry12 (b : Ref sig .tc) (h3 : b ∉ R3 := by decide) (h4 : b ∉ R4 := by decide)
    (r3 : ∀ w, Pipeline.arrRef spec3 w ≠ b := by decide) (r4 : ∀ w, Pipeline.arrRef spec4 w ≠ b := by decide) :
    W12 m ρ c (Proc.devRef .tc b) = W8 m ρ c (Proc.devRef .tc b) :=
  (W12_of_ne m ρ c b r4).trans ((keepH4 _ b h4).trans ((W10_of_ne m ρ c b r3).trans (keepH3 _ b h3)))

private theorem carryL1 (b : Ref sig .tc) (h3 : b ∉ R3 := by decide) (h4 : b ∉ R4 := by decide) (h5 : b ∉ R5 := by decide)
    (r3 : ∀ w, Pipeline.arrRef spec3 w ≠ b := by decide) (r4 : ∀ w, Pipeline.arrRef spec4 w ≠ b := by decide)
    (r5 : ∀ w, Pipeline.arrRef spec5 w ≠ b := by decide) :
    W14 m ρ c (Proc.devRef .tc b) = W8 m ρ c (Proc.devRef .tc b) :=
  (W14_of_ne m ρ c b r5).trans ((keepH5 _ b h5).trans (carry12 m ρ c b h3 h4 r3 r4))

private theorem dinv10 : W10 m ρ c (Proc.devRef .tc main_v12) = W8 m ρ c (Proc.devRef .tc main_v12) :=
  ((W10_arr m ρ c 2).trans (((dat3 (V9 m ρ) c).arrAt_in 2 rfl _).trans (A_eq3 (V9 m ρ) c 2))).trans (keepH3 _ main_v12)
private theorem dinv12 : W12 m ρ c (Proc.devRef .tc main_v12) = W8 m ρ c (Proc.devRef .tc main_v12) :=
  ((W12_arr m ρ c 2).trans (((dat4 (V11 m ρ) c).arrAt_in 2 rfl _).trans (A_eq4 (V11 m ρ) c 2))).trans
    ((keepH4 _ main_v12).trans (dinv10 m ρ c))
private theorem dinv14 : W14 m ρ c (Proc.devRef .tc main_v12) = W8 m ρ c (Proc.devRef .tc main_v12) :=
  ((W14_arr m ρ c 2).trans (((dat5 (V13 m ρ) c).arrAt_in 2 rfl _).trans (A_eq5 (V13 m ρ) c 2))).trans
    ((keepH5 _ main_v12).trans (dinv12 m ρ c))

private theorem graphL1 (g : Graph m c hr (W8 m ρ c)) : Graph m c hr (W14 m ρ c) :=
  g.carry fun b hb => by
    fin_cases hb
    · exact dinv14 m ρ c
    all_goals exact carryL1 m ρ c _

private abbrev zpL1 (h : Fin 100000 → Fin 128 → EReal) : Fin 100000 → Fin 128 → EReal := zpL m c hr (1 : Fin 3) h
private abbrev agL1 (h : Fin 100000 → Fin 128 → EReal) : Fin 100000 → Fin 128 → EReal := agL m c hr (1 : Fin 3) h

end L1

open L1 in
set_option maxHeartbeats 4000000 in
theorem layer1 (h : Fin 100000 → Fin 128 → EReal) (g : Graph m c hr (W8 m ρ c))
    (hh : W8 m ρ c (Proc.devRef .tc main_v52) = arr2 h) :
    Graph m c hr (W14 m ρ c)
    ∧ W14 m ρ c (Proc.devRef .tc main_v92) = arr2 (fun i j => layerK (ins m c hr).src (ins m c hr).dst (ins m c hr).cw (ins m c hr).cb (ins m c hr).bg (ins m c hr).bb 1 h i j + h i j) := by
  refine ⟨graphL1 m ρ c hr g, ?_⟩
  have a52_9 : W9 m ρ c (Proc.devRef .tc main_v52) = arr2 h := (keepH3 _ main_v52).trans hh
  have a12_9 : W9 m ρ c (Proc.devRef .tc main_v12) = colArr (dinvK (ins m c hr).dst) := (keepH3 _ main_v12).trans g.dinv
  have a57_9 : W9 m ρ c (Proc.devRef .tc main_v57) = arr2 ((ins m c hr).cw (1 : Fin 3)) := by
    after_results
    rw [g.arg3]
    exact HostRead.mat_slice _ (1 : ℕ) _ (1 : Fin 3) rfl
  have a55_9 : W9 m ρ c (Proc.devRef .tc main_v55) = rowArr ((ins m c hr).cb (1 : Fin 3)) := by
    after_results
    rw [g.arg4]
    exact HostRead.row_slice_row _ (1 : ℕ) _ (1 : Fin 3) rfl
  have a58_10 : W10 m ρ c (Proc.devRef .tc main_v58) = arr2 (zpL1 m c hr h) :=
    (W10_arr m ρ c 3).trans ((RegVal.md3 (V9 m ρ) c).trans (zp_read a52_9 a57_9 a12_9))
  have a68_11 : W11 m ρ c (Proc.devRef .tc main_v68) = arr2 (scat (ins m c hr).src (ins m c hr).dst (zpL1 m c hr h)) := by
    after_results_simp
    rw [(W10_of_ne m ρ c main_v2 (by decide)).trans ((keepH3 _ main_v2).trans g.srcw),
      (W10_of_ne m ρ c main_v4 (by decide)).trans ((keepH3 _ main_v4).trans g.dstw), a58_10]
    exact HostRead.gather_scatter _ _ _ (ins m c hr).src (ins m c hr).dst (fun _ => rfl) (fun _ => rfl)
  have a58_11 : W11 m ρ c (Proc.devRef .tc main_v58) = arr2 (zpL1 m c hr h) := (keepH4 _ main_v58).trans a58_10
  have a12_11 : W11 m ρ c (Proc.devRef .tc main_v12) = colArr (dinvK (ins m c hr).dst) :=
    (keepH4 _ main_v12).trans ((dinv10 m ρ c).trans g.dinv)
  have a55_11 : W11 m ρ c (Proc.devRef .tc main_v55) = rowArr ((ins m c hr).cb (1 : Fin 3)) :=
    (keepH4 _ main_v55).trans ((W10_of_ne m ρ c main_v55 (by decide)).trans a55_9)
  have a69_0 : W12 m ρ c (Proc.devRef .tc main_v69_0) = arr3 (fun cc (_ : Fin 1) j => coreSum (agL1 m c hr h) cc j) :=
    (W12_arr m ρ c 4).trans ((RegVal.st4_sum (V11 m ρ) c).trans (sum_read a68_11 a58_11 a12_11 a55_11))
  have a69_1 : W12 m ρ c (Proc.devRef .tc main_v69_1)
      = arr3 (fun cc (_ : Fin 1) j => coreSum (fun i j => agL1 m c hr h i j * agL1 m c hr h i j) cc j) :=
    (W12_arr m ρ c 5).trans ((RegVal.st4_sq (V11 m ρ) c).trans (sq_read a68_11 a58_11 a12_11 a55_11))
  have a90_13 : W13 m ρ c (Proc.devRef .tc main_v90) = rowArr (scaleK (agL1 m c hr h) ((ins m c hr).bg (1 : Fin 3))) := by
    after_results_simp
    rw [(carry12 m ρ c main_arg5).trans g.arg5]
    refine (HostRead.scale_row _ _ _ (agL1 m c hr h) a69_0 a69_1).trans ?_
    exact congrArg (fun v => rowArr (scaleK (agL1 m c hr h) (vec1 v)))
      (HostRead.row_slice (m ((c : Thread nD τ).loc main_arg5)) (1 : ℕ) _ (1 : Fin 3) rfl)
  have a91_13 : W13 m ρ c (Proc.devRef .tc main_v91)
      = rowArr (shiftK (agL1 m c hr h) ((ins m c hr).bg (1 : Fin 3)) ((ins m c hr).bb (1 : Fin 3))) := by
    after_results_simp
    rw [(carry12 m ρ c main_arg5).trans g.arg5, (carry12 m ρ c main_arg6).trans g.arg6]
    refine (HostRead.shift_row _ _ _ _ (agL1 m c hr h) a69_0 a69_1).trans ?_
    exact congrArg₂ (fun v w => rowArr (shiftK (agL1 m c hr h) (vec1 v) (vec1 w)))
      (HostRead.row_slice (m ((c : Thread nD τ).loc main_arg5)) (1 : ℕ) _ (1 : Fin 3) rfl)
      (HostRead.row_slice (m ((c : Thread nD τ).loc main_arg6)) (1 : ℕ) _ (1 : Fin 3) rfl)
  exact (W14_arr m ρ c 7).trans ((RegVal.bnres5 (V13 m ρ) c).trans
    ((out_read
      ((keepH5 _ main_v68).trans (((W12_arr m ρ c 0).trans (((dat4 (V11 m ρ) c).arrAt_in 0 rfl _).trans (A_eq4 (V11 m ρ) c 0))).trans a68_11))
      ((keepH5 _ main_v58).trans (((W12_arr m ρ c 1).trans (((dat4 (V11 m ρ) c).arrAt_in 1 rfl _).trans (A_eq4 (V11 m ρ) c 1))).trans a58_11))
      ((keepH5 _ main_v12).trans ((dinv12 m ρ c).trans g.dinv))
      ((keepH5 _ main_v55).trans (((W12_arr m ρ c 3).trans (((dat4 (V11 m ρ) c).arrAt_in 3 rfl _).trans (A_eq4 (V11 m ρ) c 3))).trans a55_11))
      a90_13 a91_13
      ((keepH5 _ main_v52).trans ((W12_of_ne m ρ c main_v52 (by decide)).trans ((keepH4 _ main_v52).trans
      (((W10_arr m ρ c 0).trans (((dat3 (V9 m ρ) c).arrAt_in 0 rfl _).trans (A_eq3 (V9 m ρ) c 0))).trans a52_9))))).trans
      (layer_eq (ins m c hr).src (ins m c hr).dst (ins m c hr).cw (ins m c hr).cb (ins m c hr).bg (ins m c hr).bb
        (1 : Fin 3) h (zpL1 m c hr h) (agL1 m c hr h) rfl rfl)))

end Cert.KernelIdeal.Chain

end
-- ==== Proof.RegMatmul6.lean ====
import proofs.«401495_j83210696393026_3_alg».proof.Proof.RegMatmul0

namespace Cert.KernelIdeal.RegVal

open Idealize.ShloMosaic Idealize.ShloMosaic.TcCoe Idealize.ShloMosaic.ValueIdx Idealize.SL.Sem
open Cert.KernelIdeal Cert.KernelIdeal.Gen Cert.Spec

private theorem idx6 : ∀ t : Fin cfg6.N,
    RowOff (t.val * 5000) (win6_0.rect t) ∧ RowOff 0 (win6_1.rect t) ∧ RowOff (t.val * 5000) (win6_2.rect t) ∧ RowOff (t.val * 5000) (win6_3.rect t) :=
  (by decide +kernel : ∀ t : Fin grid6.N, _)

private theorem cov6 (i : S100000x128.Idx) :
    ∃ t : Fin cfg6.N, (cfg6.win 3).flush t = true ∧ i ∈ ((cfg6.win 3).blk t).view.set := by
  obtain ⟨t, y, h⟩ := rowShift_cover N_6 (e := fun t => ((cfg6.win 3).blk t).view.emb)
    (fun t => (idx6 t).2.2.2.shift fun _ _ => rfl) i
  exact ⟨t, flush6_3 t, by rw [← h]; exact View.emb_mem_set _ y⟩

variable (V : (c : Dev nD) → (b : Ref sig .tc) → Buf (Elt Ideal) ((c : Thread nD τ).loc b))

private theorem fl6 (c : Dev nD) (t : Fin cfg6.N) :
    (dat6 (F := Ideal) V c).flushed 3 t = k6_pay1 (iblk6 V c 0 t) (iblk6 V c 1 t) (iblk6 V c 2 t) := by
  show (cfg6.win 3).cut (grid6.coords t) ((dat6 (F := Ideal) V c).after 3 t) = _
  rw [after6_3]
  unfold out6_3
  rw [View.canon_unit_zero zero_off2]
  simp only [View.ld_unit_zero (S := S5000x128) zero_off2, View.ld_unit_zero (S := S128x128) zero_off2, View.ld_unit_zero (S := S5000x1) zero_off2]
  rfl

theorem md6 (c : Dev nD) :
    (dat6 (F := Ideal) V c).arrAt 3 cfg6.N
      = arr2 (zprime (mat2 (V c (Pipeline.arrRef spec6 0))) (mat2 (V c (Pipeline.arrRef spec6 1))) (col (V c (Pipeline.arrRef spec6 2)))) := by
  refine (dat6 (F := Ideal) V c).arrAt_eq_of_cover 3 _ (fun t _ => ?_) cov6
  rw [fl6, show @k6_pay1 Ideal _ = k0_pay1 from k3_eq]
  refine funext (featProd_point (idx6 t) ?_ ?_ ?_ ?_ (V c (Pipeline.arrRef spec6 0)) (V c (Pipeline.arrRef spec6 1)) (V c (Pipeline.arrRef spec6 2))) <;> exact fun _ _ => rfl

end Cert.KernelIdeal.RegVal
-- ==== Proof.RegStats7.lean ====
import proofs.«401495_j83210696393026_3_alg».proof.Proof.Gen.KernelIdeal.Frame
import proofs.«401495_j83210696393026_3_alg».proof.Proof.RegStats

noncomputable section

namespace Cert.KernelIdeal.RegVal

open Idealize.ShloMosaic Idealize.ShloMosaic.TcCoe
open Idealize.SL.Sem
open Cert.KernelIdeal Cert.KernelIdeal.Gen Cert.Spec

namespace St7

open St

section Pieces
variable {F : FTy → Type} [FloatOps F]

theorem outA_eq (c i a2 h2 a3 h3 a4 h4 a5 h5 a6 h6 a7 h7 hc x0 x1 x2 x3) :
    (out7_A_4 (F := F) c i a2 h2 a3 h3 a4 h4 a5 h5 a6 h6 a7 h7 hc x0 x1 x2 x3, out7_A_5 (F := F) c i a2 h2 a3 h3 a4 h4 a5 h5 a6 h6 a7 h7 hc x0 x1 x2 x3)
      = (k7_pay5 x0 x1 x2 x3 k7_pay2, k7_pay1 (k7_pay6 x0 x1 x2 x3 k7_pay3)) := by
  unfold out7_A_4 out7_A_5
  rw [View.read_writes_eq_canon _ _ _ (cover7_A_4 c i a2 h2 a3 h3 a4 h4 a5 h5 a6 h6 a7 h7 hc x0 x1 x2 x3), View.read_writes_eq_canon _ _ _ (cover7_A_5 c i a2 h2 a3 h3 a4 h4 a5 h5 a6 h6 a7 h7 hc x0 x1 x2 x3)]
  unfold kernelRun7_A
  dsimp only
  sl_unfold_words
  simp only [View.canon_cons_unit_zero (S := S1x1x128) hz3, View.readCov_unit_zero (S := S1x1x128) _ hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

theorem outB_eq (c i a2 h2 a3 h3 a4 h4 a5 h5 a6 h6 a7 h7 hc x0 x1 x2 x3 xo4 xo5) :
    (out7_B_4 (F := F) c i a2 h2 a3 h3 a4 h4 a5 h5 a6 h6 a7 h7 hc x0 x1 x2 x3 xo4 xo5, out7_B_5 (F := F) c i a2 h2 a3 h3 a4 h4 a5 h5 a6 h6 a7 h7 hc x0 x1 x2 x3 xo4 xo5)
      = (k7_pay5 x0 x1 x2 x3 xo4, k7_pay1 (k7_pay6 x0 x1 x2 x3 xo5)) := by
  unfold out7_B_4 out7_B_5
  rw [View.read_writes_eq_canon _ _ _ (cover7_B_4 c i a2 h2 a3 h3 a4 h4 a5 h5 a6 h6 a7 h7 hc x0 x1 x2 x3 xo4 xo5), View.read_writes_eq_canon _ _ _ (cover7_B_5 c i a2 h2 a3 h3 a4 h4 a5 h5 a6 h6 a7 h7 hc x0 x1 x2 x3 xo4 xo5)]
  unfold kernelRun7_B
  dsimp only
  sl_unfold_words
  simp only [View.canon_unit_zero (S := S1x1x128) hz3, View.readAt_eq_ld, h2.read_unread, h3.read_unread, h4.read_unread, h5.read_unread, h6.read_unread, h7.read_unread,
    View.ld_unit_zero (S := S5000x128) hz2, View.ld_unit_zero (S := S5000x1) hz2, View.ld_unit_zero (S := S1x128) hz2, View.ld_unit_zero (S := S1x1x128) hz3]

end Pieces

variable (V : (c : Dev nD) → (b : Ref sig .tc) → Buf (Elt Ideal) ((c : Thread nD τ).loc b))

abbrev aggV (c : Dev nD) : Tab :=
  aggK (mat2 (V c (Pipeline.arrRef spec7 0))) (mat2 (V c (Pipeline.arrRef spec7 1))) (col (V c (Pipeline.arrRef spec7 2))) (row (V c (Pipeline.arrRef spec7 3)))

-- the carried rows after point n: the column sums over the blocks of n's half up to block n
theorem sums (c : Dev nD) : ∀ (n : ℕ) (h : n < cfg7.N), (outsAt7 V c n h).1 = (fun y => runSum (aggV V c) n (y 2))
    ∧ (outsAt7 V c n h).2 = fun y => runSum (fun i j => aggV V c i j * aggV V c i j) n (y 2) :=
  rows (outsAt7 V c) (fun t => iblk7 V c 0 t) (fun t => iblk7 V c 1 t) (fun t => iblk7 V c 2 t) (fun t => iblk7 V c 3 t)
    (aggV V c) (pay4_blk c (V c (Pipeline.arrRef spec7 0)) (V c (Pipeline.arrRef spec7 1)) (V c (Pipeline.arrRef spec7 2)) (V c (Pipeline.arrRef spec7 3)))
    (fun t h0 => (outsAt7_A V c t h0).trans (outA_eq ..))
    (fun t h0 => (outsAt7_B V c t h0).trans (outB_eq ..))

theorem flushed4_eq (c : Dev nD) (t : Fin cfg7.N) (hf : (cfg7.win 4).flush t = true) :
    (dat7 (F := Ideal) V c).flushed 4 t
      = ((cfg7.win 4).blk t).view.read (Elt Ideal) (arr3 (fun cc (_ : Fin 1) j => coreSum (aggV V c) cc j)) := by
  show (cfg7.win 4).cut (grid7.coords t) ((dat7 (F := Ideal) V c).after 4 t) = _
  rw [after7_4, (sums V c t.val t.isLt).1]
  exact flushed_of t _ _ (runSum_arr3 _ t.val ((flush7_4 t).mp hf))

theorem flushed5_eq (c : Dev nD) (t : Fin cfg7.N) (hf : (cfg7.win 5).flush t = true) :
    (dat7 (F := Ideal) V c).flushed 5 t
      = ((cfg7.win 5).blk t).view.read (Elt Ideal) (arr3 (fun cc (_ : Fin 1) j => coreSum (fun i j => aggV V c i j * aggV V c i j) cc j)) := by
  show (cfg7.win 5).cut (grid7.coords t) ((dat7 (F := Ideal) V c).after 5 t) = _
  rw [after7_5, (sums V c t.val t.isLt).2]
  exact flushed_of t _ _ (runSum_arr3 _ t.val ((flush7_5 t).mp hf))

end St7

variable (V : (c : Dev nD) → (b : Ref sig .tc) → Buf (Elt Ideal) ((c : Thread nD τ).loc b))

theorem st7_sum (c : Dev nD) :
    (dat7 (F := Ideal) V c).arrAt 4 cfg7.N
      = arr3 (fun cc (_ : Fin 1) j => coreSum (aggK (mat2 (V c (Pipeline.arrRef spec7 0))) (mat2 (V c (Pipeline.arrRef spec7 1))) (col (V c (Pipeline.arrRef spec7 2))) (row (V c (Pipeline.arrRef spec7 3)))) cc j) :=
  (dat7 (F := Ideal) V c).arrAt_eq_of_cover 4 _ (St7.flushed4_eq V c) St.cover4

theorem st7_sq (c : Dev nD) :
    (dat7 (F := Ideal) V c).arrAt 5 cfg7.N
      = arr3 (fun cc (_ : Fin 1) j => coreSum (fun i j => (aggK (mat2 (V c (Pipeline.arrRef spec7 0))) (mat2 (V c (Pipeline.arrRef spec7 1))) (col (V c (Pipeline.arrRef spec7 2))) (row (V c (Pipeline.arrRef spec7 3)))) i j * (aggK (mat2 (V c (Pipeline.arrRef spec7 0))) (mat2 (V c (Pipeline.arrRef spec7 1))) (col (V c (Pipeline.arrRef spec7 2))) (row (V c (Pipeline.arrRef spec7 3)))) i j) cc j) :=
  (dat7 (F := Ideal) V c).arrAt_eq_of_cover 5 _ (St7.flushed5_eq V c) St.cover4

end Cert.KernelIdeal.RegVal

end
-- ==== Proof.RegBnRes8.lean ====
import proofs.«401495_j83210696393026_3_alg».proof.Proof.RegBnRes5

namespace Cert.KernelIdeal.RegVal

open Idealize.ShloMosaic Idealize.ShloMosaic.TcCoe Idealize.ShloMosaic.ValueIdx Idealize.SL.Sem
open Cert.KernelIdeal Cert.KernelIdeal.Gen Cert.Spec

private theorem idx8 : ∀ t : Fin cfg8.N,
    RowOff (t.val * 5000) (win8_0.rect t) ∧ RowOff (t.val * 5000) (win8_1.rect t) ∧ RowOff (t.val * 5000) (win8_2.rect t) ∧ RowOff 0 (win8_3.rect t) ∧ RowOff 0 (win8_4.rect t) ∧ RowOff 0 (win8_5.rect t) ∧ RowOff (t.val * 5000) (win8_6.rect t) ∧ RowOff (t.val * 5000) (win8_7.rect t) :=
  (by decide +kernel : ∀ t : Fin grid8.N, _)

private theorem cov8 (i : S100000x128.Idx) :
    ∃ t : Fin cfg8.N, (cfg8.win 7).flush t = true ∧ i ∈ ((cfg8.win 7).blk t).view.set := by
  obtain ⟨t, y, h⟩ := rowShift_cover N_8 (e := fun t => ((cfg8.win 7).blk t).view.emb)
    (fun t => (idx8 t).2.2.2.2.2.2.2.shift fun _ _ => rfl) i
  exact ⟨t, flush8_7 t, by rw [← h]; exact View.emb_mem_set _ y⟩

variable (V : (c : Dev nD) → (b : Ref sig .tc) → Buf (Elt Ideal) ((c : Thread nD τ).loc b))

private theorem fl8 (c : Dev nD) (t : Fin cfg8.N) :
    (dat8 (F := Ideal) V c).flushed 7 t = k8_pay1 (iblk8 V c 0 t) (iblk8 V c 1 t) (iblk8 V c 2 t) (iblk8 V c 3 t) (iblk8 V c 4 t) (iblk8 V c 5 t) (iblk8 V c 6 t) := by
  show (cfg8.win 7).cut (grid8.coords t) ((dat8 (F := Ideal) V c).after 7 t) = _
  rw [after8_7]
  unfold out8_7
  rw [View.canon_unit_zero zero_off2]
  simp only [View.ld_unit_zero (S := S5000x128) zero_off2, View.ld_unit_zero (S := S5000x1) zero_off2, View.ld_unit_zero (S := S1x128) zero_off2]
  rfl

theorem bnres8 (c : Dev nD) :
    (dat8 (F := Ideal) V c).arrAt 7 cfg8.N
      = arr2 (fun i j => bnApply (aggK (mat2 (V c (Pipeline.arrRef spec8 0))) (mat2 (V c (Pipeline.arrRef spec8 1))) (col (V c (Pipeline.arrRef spec8 2))) (row (V c (Pipeline.arrRef spec8 3)))) (row (V c (Pipeline.arrRef spec8 4))) (row (V c (Pipeline.arrRef spec8 5))) i j + mat2 (V c (Pipeline.arrRef spec8 6)) i j) := by
  refine (dat8 (F := Ideal) V c).arrAt_eq_of_cover 7 _ (fun t _ => ?_) cov8
  rw [fl8]
  refine funext (bnres_point (idx8 t) ?_ ?_ ?_ ?_ ?_ ?_ ?_ ?_ (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) <;> exact fun _ _ => rfl

end Cert.KernelIdeal.RegVal
-- ==== Proof.KLayer2.lean ====
import proofs.«401495_j83210696393026_3_alg».proof.Proof.KLayerLib
import proofs.«401495_j83210696393026_3_alg».proof.Proof.RegMatmul6
import proofs.«401495_j83210696393026_3_alg».proof.Proof.RegStats7
import proofs.«401495_j83210696393026_3_alg».proof.Proof.RegBnRes8
set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

namespace L2

private abbrev R3 : List (Ref sig .tc) := [main_v93, main_v94, main_v95, main_v96, main_v97]
private abbrev R4 : List (Ref sig .tc) :=
  [main_c_21, main_v99, main_v100, main_c_22, main_v101, main_v102, main_v103, main_v104, main_v105, main_cst_23, main_v106,
    main_v107, main_v108]
private abbrev R5 : List (Ref sig .tc) :=
  [main_cst_24, main_v110, main_cst_25, main_v111, main_cst_26, main_v112, main_v113, main_cst_27, main_v114, main_v115,
    main_v116, main_v117, main_cst_28, main_v118, main_v119, main_v120, main_v121, main_cst_29, main_v122, main_v123, main_v124,
    main_v125, main_v126, main_v127, main_v128, main_v129, main_v130, main_v131]

private theorem keepH6 (V : Valuation τ sig (Elt Ideal)) (b : Ref sig .tc) (hb : b ∉ R3 := by decide) :
    StableHlo.after hostOps6 V (Proc.devRef .tc b) = V (Proc.devRef .tc b) := by
  refine StableHlo.after_of_forall_not_mem (b := Proc.devRef .tc b) _ _ (List.forall_iff_forall_mem.mp ?_)
  simp only [hostOps6, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem keepH7 (V : Valuation τ sig (Elt Ideal)) (b : Ref sig .tc) (hb : b ∉ R4 := by decide) :
    StableHlo.after hostOps7 V (Proc.devRef .tc b) = V (Proc.devRef .tc b) := by
  refine StableHlo.after_of_forall_not_mem (b := Proc.devRef .tc b) _ _ (List.forall_iff_forall_mem.mp ?_)
  simp only [hostOps7, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem keepH8 (V : Valuation τ sig (Elt Ideal)) (b : Ref sig .tc) (hb : b ∉ R5 := by decide) :
    StableHlo.after hostOps8 V (Proc.devRef .tc b) = V (Proc.devRef .tc b) := by
  refine StableHlo.after_of_forall_not_mem (b := Proc.devRef .tc b) _ _ (List.forall_iff_forall_mem.mp ?_)
  simp only [hostOps8, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hb (by rw [e]; decide))

private theorem carry12 (b : Ref sig .tc) (h3 : b ∉ R3 := by decide) (h4 : b ∉ R4 := by decide)
    (r3 : ∀ w, Pipeline.arrRef spec6 w ≠ b := by decide) (r4 : ∀ w, Pipeline.arrRef spec7 w ≠ b := by decide) :
    W18 m ρ c (Proc.devRef .tc b) = W14 m ρ c (Proc.devRef .tc b) :=
  (W18_of_ne m ρ c b r4).trans ((keepH7 _ b h4).trans ((W16_of_ne m ρ c b r3).trans (keepH6 _ b h3)))

private theorem carryL2 (b : Ref sig .tc) (h3 : b ∉ R3 := by decide) (h4 : b ∉ R4 := by decide) (h5 : b ∉ R5 := by decide)
    (r3 : ∀ w, Pipeline.arrRef spec6 w ≠ b := by decide) (r4 : ∀ w, Pipeline.arrRef spec7 w ≠ b := by decide)
    (r5 : ∀ w, Pipeline.arrRef spec8 w ≠ b := by decide) :
    W20 m ρ c (Proc.devRef .tc b) = W14 m ρ c (Proc.devRef .tc b) :=
  (W20_of_ne m ρ c b r5).trans ((keepH8 _ b h5).trans (carry12 m ρ c b h3 h4 r3 r4))

private theorem dinv16 : W16 m ρ c (Proc.devRef .tc main_v12) = W14 m ρ c (Proc.devRef .tc main_v12) :=
  ((W16_arr m ρ c 2).trans (((dat6 (V15 m ρ) c).arrAt_in 2 rfl _).trans (A_eq6 (V15 m ρ) c 2))).trans (keepH6 _ main_v12)
private theorem dinv18 : W18 m ρ c (Proc.devRef .tc main_v12) = W14 m ρ c (Proc.devRef .tc main_v12) :=
  ((W18_arr m ρ c 2).trans (((dat7 (V17 m ρ) c).arrAt_in 2 rfl _).trans (A_eq7 (V17 m ρ) c 2))).trans
    ((keepH7 _ main_v12).trans (dinv16 m ρ c))
private theorem dinv20 : W20 m ρ c (Proc.devRef .tc main_v12) = W14 m ρ c (Proc.devRef .tc main_v12) :=
  ((W20_arr m ρ c 2).trans (((dat8 (V19 m ρ) c).arrAt_in 2 rfl _).trans (A_eq8 (V19 m ρ) c 2))).trans
    ((keepH8 _ main_v12).trans (dinv18 m ρ c))

private theorem graphL2 (g : Graph m c hr (W14 m ρ c)) : Graph m c hr (W20 m ρ c) :=
  g.carry fun b hb => by
    fin_cases hb
    · exact dinv20 m ρ c
    all_goals exact carryL2 m ρ c _

private abbrev zpL2 (h : Fin 100000 → Fin 128 → EReal) : Fin 100000 → Fin 128 → EReal := zpL m c hr (2 : Fin 3) h
private abbrev agL2 (h : Fin 100000 → Fin 128 → EReal) : Fin 100000 → Fin 128 → EReal := agL m c hr (2 : Fin 3) h

end L2

open L2 in
set_option maxHeartbeats 4000000 in
theorem layer2 (h : Fin 100000 → Fin 128 → EReal) (g : Graph m c hr (W14 m ρ c))
    (hh : W14 m ρ c (Proc.devRef .tc main_v92) = arr2 h) :
    Graph m c hr (W20 m ρ c)
    ∧ W20 m ρ c (Proc.devRef .tc main_v132) = arr2 (fun i j => layerK (ins m c hr).src (ins m c hr).dst (ins m c hr).cw (ins m c hr).cb (ins m c hr).bg (ins m c hr).bb 2 h i j + h i j) := by
  refine ⟨graphL2 m ρ c hr g, ?_⟩
  have a52_9 : W15 m ρ c (Proc.devRef .tc main_v92) = arr2 h := (keepH6 _ main_v92).trans hh
  have a12_9 : W15 m ρ c (Proc.devRef .tc main_v12) = colArr (dinvK (ins m c hr).dst) := (keepH6 _ main_v12).trans g.dinv
  have a57_9 : W15 m ρ c (Proc.devRef .tc main_v97) = arr2 ((ins m c hr).cw (2 : Fin 3)) := by
    after_results
    rw [g.arg3]
    exact HostRead.mat_slice _ (2 : ℕ) _ (2 : Fin 3) rfl
  have a55_9 : W15 m ρ c (Proc.devRef .tc main_v95) = rowArr ((ins m c hr).cb (2 : Fin 3)) := by
    after_results
    rw [g.arg4]
    exact HostRead.row_slice_row _ (2 : ℕ) _ (2 : Fin 3) rfl
  have a58_10 : W16 m ρ c (Proc.devRef .tc main_v98) = arr2 (zpL2 m c hr h) :=
    (W16_arr m ρ c 3).trans ((RegVal.md6 (V15 m ρ) c).trans (zp_read a52_9 a57_9 a12_9))
  have a68_11 : W17 m ρ c (Proc.devRef .tc main_v108) = arr2 (scat (ins m c hr).src (ins m c hr).dst (zpL2 m c hr h)) := by
    after_results_simp
    rw [(W16_of_ne m ρ c main_v2 (by decide)).trans ((keepH6 _ main_v2).trans g.srcw),
      (W16_of_ne m ρ c main_v4 (by decide)).trans ((keepH6 _ main_v4).trans g.dstw), a58_10]
    exact HostRead.gather_scatter _ _ _ (ins m c hr).src (ins m c hr).dst (fun _ => rfl) (fun _ => rfl)
  have a58_11 : W17 m ρ c (Proc.devRef .tc main_v98) = arr2 (zpL2 m c hr h) := (keepH7 _ main_v98).trans a58_10
  have a12_11 : W17 m ρ c (Proc.devRef .tc main_v12) = colArr (dinvK (ins m c hr).dst) :=
    (keepH7 _ main_v12).trans ((dinv16 m ρ c).trans g.dinv)
  have a55_11 : W17 m ρ c (Proc.devRef .tc main_v95) = rowArr ((ins m c hr).cb (2 : Fin 3)) :=
    (keepH7 _ main_v95).trans ((W16_of_ne m ρ c main_v95 (by decide)).trans a55_9)
  have a69_0 : W18 m ρ c (Proc.devRef .tc main_v109_0) = arr3 (fun cc (_ : Fin 1) j => coreSum (agL2 m c hr h) cc j) :=
    (W18_arr m ρ c 4).trans ((RegVal.st7_sum (V17 m ρ) c).trans (sum_read a68_11 a58_11 a12_11 a55_11))
  have a69_1 : W18 m ρ c (Proc.devRef .tc main_v109_1)
      = arr3 (fun cc (_ : Fin 1) j => coreSum (fun i j => agL2 m c hr h i j * agL2 m c hr h i j) cc j) :=
    (W18_arr m ρ c 5).trans ((RegVal.st7_sq (V17 m ρ) c).trans (sq_read a68_11 a58_11 a12_11 a55_11))
  have a90_13 : W19 m ρ c (Proc.devRef .tc main_v130) = rowArr (scaleK (agL2 m c hr h) ((ins m c hr).bg (2 : Fin 3))) := by
    after_results_simp
    rw [(carry12 m ρ c main_arg5).trans g.arg5]
    refine (HostRead.scale_row _ _ _ (agL2 m c hr h) a69_0 a69_1).trans ?_
    exact congrArg (fun v => rowArr (scaleK (agL2 m c hr h) (vec1 v)))
      (HostRead.row_slice (m ((c : Thread nD τ).loc main_arg5)) (2 : ℕ) _ (2 : Fin 3) rfl)
  have a91_13 : W19 m ρ c (Proc.devRef .tc main_v131)
      = rowArr (shiftK (agL2 m c hr h) ((ins m c hr).bg (2 : Fin 3)) ((ins m c hr).bb (2 : Fin 3))) := by
    after_results_simp
    rw [(carry12 m ρ c main_arg5).trans g.arg5, (carry12 m ρ c main_arg6).trans g.arg6]
    refine (HostRead.shift_row _ _ _ _ (agL2 m c hr h) a69_0 a69_1).trans ?_
    exact congrArg₂ (fun v w => rowArr (shiftK (agL2 m c hr h) (vec1 v) (vec1 w)))
      (HostRead.row_slice (m ((c : Thread nD τ).loc main_arg5)) (2 : ℕ) _ (2 : Fin 3) rfl)
      (HostRead.row_slice (m ((c : Thread nD τ).loc main_arg6)) (2 : ℕ) _ (2 : Fin 3) rfl)
  exact (W20_arr m ρ c 7).trans ((RegVal.bnres8 (V19 m ρ) c).trans
    ((out_read
      ((keepH8 _ main_v108).trans (((W18_arr m ρ c 0).trans (((dat7 (V17 m ρ) c).arrAt_in 0 rfl _).trans (A_eq7 (V17 m ρ) c 0))).trans a68_11))
      ((keepH8 _ main_v98).trans (((W18_arr m ρ c 1).trans (((dat7 (V17 m ρ) c).arrAt_in 1 rfl _).trans (A_eq7 (V17 m ρ) c 1))).trans a58_11))
      ((keepH8 _ main_v12).trans ((dinv18 m ρ c).trans g.dinv))
      ((keepH8 _ main_v95).trans (((W18_arr m ρ c 3).trans (((dat7 (V17 m ρ) c).arrAt_in 3 rfl _).trans (A_eq7 (V17 m ρ) c 3))).trans a55_11))
      a90_13 a91_13
      ((keepH8 _ main_v92).trans ((W18_of_ne m ρ c main_v92 (by decide)).trans ((keepH7 _ main_v92).trans
      (((W16_arr m ρ c 0).trans (((dat6 (V15 m ρ) c).arrAt_in 0 rfl _).trans (A_eq6 (V15 m ρ) c 0))).trans a52_9))))).trans
      (layer_eq (ins m c hr).src (ins m c hr).dst (ins m c hr).cw (ins m c hr).cb (ins m c hr).bg (ins m c hr).bb
        (2 : Fin 3) h (zpL2 m c hr h) (agL2 m c hr h) rfl rfl)))

end Cert.KernelIdeal.Chain

end
-- ==== Proof.RegBlockLemmas.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.KernelIdeal.RegVal

open Idealize.ShloMosaic Idealize.ShloMosaic.ValueIdx
open scoped BigOperators

namespace BlockLemmas

theorem hz2 : (![0, 0] : Fin 2 → Nat) = fun _ => 0 := funext fun a => by fin_cases a <;> rfl
theorem hz3 : (![0, 0, 0] : Fin 3 → Nat) = fun _ => 0 := funext fun a => by fin_cases a <;> rfl

-- An m×k by k×n product into zeros, at an entry: the sum over the contracted coordinate.
theorem mm_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    matmul D none A B (constant (F := Ideal) ⟨2, ![m, n]⟩ .f32 0x00000000#32) (ix2 a b) = ∑ c : Fin k, A (ix2 a c) * B (ix2 c b) := by
  subst hD
  rw [matmul_zero_eq_dotGeneral]
  exact StackMember.dotGeneral_plain_apply none A B a b

-- An array read through an index map that keeps every coordinate is the array itself.
theorem read_eq_self {S : Shape} {α : Type} (A : S.Idx → α) (e : S.Idx → S.Idx) (h : ∀ x a, ((e x a : Fin _) : ℕ) = x a) :
    (fun x => A (e x)) = A :=
  funext fun x => congrArg A (funext fun a => Fin.ext (h x a))

end BlockLemmas

end Cert.KernelIdeal.RegVal

end
-- ==== Proof.RegAttn9.lean ====
import proofs.«401495_j83210696393026_3_alg».proof.Proof.Gen.KernelIdeal.Frame
import proofs.«401495_j83210696393026_3_alg».proof.Proof.Spec
import proofs.«401495_j83210696393026_3_alg».proof.Proof.RegBlockLemmas

set_option maxRecDepth 16384

noncomputable section

namespace Cert.KernelIdeal.RegVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

open BlockLemmas

variable (V : (c : Dev nD) → (b : Ref sig .tc) → Buf (Elt Ideal) ((c : Thread nD τ).loc b))

namespace Attn9

-- Both products and both biases read at an entry: tanh of the hidden layer, times the output column, plus the bias.
theorem pay9_apply (x0 : Vec Ideal S5000x128 .f32) (x1 : Vec Ideal S128x128 .f32) (x2 : Vec Ideal S1x128 .f32)
    (x3 : Vec Ideal S128x1 .f32) (x4 : Vec Ideal S1x1 .f32) (p : Fin 5000) (q : Fin 1) :
    k9_pay1 (F := Ideal) x0 x1 x2 x3 x4 (ix2 p q)
      = (∑ k : Fin 128, Ideal.tanh ((∑ l : Fin 128, x0 (ix2 p l) * x1 (ix2 l k)) + x2 (ix2 0 k)) * x3 (ix2 k q)) + x4 (ix2 0 q) := by
  unfold k9_pay1
  simp only [shapeCast_self]
  rw [addf_apply, mm_apply dot_S5000x128_S128x1_S5000x1_1_0_0_1_n_n rfl, broadcastTo_1b_ab_apply]
  refine congrArg (· + x4 (ix2 0 q)) (Finset.sum_congr rfl fun k _ => ?_)
  show Ideal.tanh _ * _ = _
  rw [addf_apply, mm_apply dot_S5000x128_S128x128_S5000x128_1_0_0_1_n_n rfl, broadcastTo_1b_ab_apply]

theorem idx9 : ∀ t : Fin cfg9.N,
    win9_0.index t 0 = t.val ∧ win9_0.index t 1 = 0 ∧ win9_5.index t 0 = t.val ∧ win9_5.index t 1 = 0
    ∧ (∀ a, win9_1.index t a = 0) ∧ (∀ a, win9_2.index t a = 0) ∧ (∀ a, win9_3.index t a = 0) ∧ (∀ a, win9_4.index t a = 0) :=
  (by decide +kernel : ∀ t : Fin grid9.N, _)

-- Row p of the feature block at point t is row 5000 t + p of the feature array.
theorem iblk9_0_apply (c : Dev nD) (t : Fin cfg9.N) (p : Fin 5000) (l : Fin 128) (k : Fin 100000) (hk : k.val = 5000 * t.val + p.val) :
    (iblk9 (F := Ideal) V c 0 t : Vec Ideal S5000x128 .f32) (ix2 p l) = (V c (Pipeline.arrRef spec9 0) : S100000x128.Idx → EReal) (ix2 k l) := by
  obtain ⟨e0, e1, -⟩ := idx9 t
  refine congrArg (V c (Pipeline.arrRef spec9 0)) (Shape.idx_ext₂ ?_ ?_)
  · show win9_0.index t 0 * 5000 + 1 * p.val = k.val; rw [e0, hk]; omega
  · show win9_0.index t 1 * 128 + 1 * l.val = l.val; rw [e1]; omega

-- A stored entry is the score of the node whose feature row the block's row is.
theorem block_eq (x0 : Vec Ideal S5000x128 .f32) (x1 : Vec Ideal S128x128 .f32) (x2 : Vec Ideal S1x128 .f32)
    (x3 : Vec Ideal S128x1 .f32) (x4 : Vec Ideal S1x1 .f32)
    (A0 : S100000x128.Idx → EReal) (A1 : S128x128.Idx → EReal) (A2 : S1x128.Idx → EReal)
    (A3 : S128x1.Idx → EReal) (A4 : S1x1.Idx → EReal) (y : S5000x1.Idx) (i : S100000x1.Idx)
    (h0 : ∀ l : Fin 128, x0 (ix2 (y 0) l) = A0 (ix2 (i 0) l)) (h1 : x1 = A1) (h2 : x2 = A2) (h3 : x3 = A3) (h4 : x4 = A4) :
    k9_pay1 (F := Ideal) x0 x1 x2 x3 x4 y = colArr (score (mat2 A0) (mat2 A1) (row A2) (col A3) (A4 (ix2 0 0))) i := by
  subst h1 h2 h3 h4
  obtain ⟨p, q, rfl⟩ : ∃ (p : Fin 5000) (q : Fin 1), y = ix2 p q := ⟨y 0, y 1, eq_ix2 y⟩
  obtain rfl : q = 0 := Subsingleton.elim _ _
  rw [pay9_apply]
  simp only [colArr, score, mat2, row, col, ← h0]

theorem flushed9 (c : Dev nD) (t : Fin cfg9.N) :
    (dat9 (F := Ideal) V c).flushed 5 t
      = ((cfg9.win 5).blk t).view.read (Elt Ideal)
          (colArr (score (mat2 (V c (Pipeline.arrRef spec9 0))) (mat2 (V c (Pipeline.arrRef spec9 1)))
            (row (V c (Pipeline.arrRef spec9 2))) (col (V c (Pipeline.arrRef spec9 3))) ((V c (Pipeline.arrRef spec9 4)) (ix2 0 0)))) := by
  show (cfg9.win 5).cut (grid9.coords t) ((dat9 (F := Ideal) V c).after 5 t) = _
  rw [after9_5]
  unfold out9_5
  rw [View.canon_unit_zero hz2]
  simp only [View.ld_unit_zero (S := S5000x128) hz2, View.ld_unit_zero (S := S128x128) hz2, View.ld_unit_zero (S := S1x128) hz2,
    View.ld_unit_zero (S := S128x1) hz2, View.ld_unit_zero (S := S1x1) hz2]
  funext j
  exact block_eq (iblk9 (F := Ideal) V c 0 t) (iblk9 (F := Ideal) V c 1 t) (iblk9 (F := Ideal) V c 2 t)
    (iblk9 (F := Ideal) V c 3 t) (iblk9 (F := Ideal) V c 4 t)
    (V c (Pipeline.arrRef spec9 0)) (V c (Pipeline.arrRef spec9 1)) (V c (Pipeline.arrRef spec9 2))
    (V c (Pipeline.arrRef spec9 3)) (V c (Pipeline.arrRef spec9 4)) j (((cfg9.win 5).blk t).view.emb j)
    (fun l => iblk9_0_apply V c t (j 0) l _ (by
      show win9_5.index t 0 * 5000 + 1 * (j 0).val = 5000 * t.val + (j 0).val
      rw [(idx9 t).2.2.1]; omega))
    (read_eq_self (S := S128x128) (V c (Pipeline.arrRef spec9 1)) (win9_1.rect t).emb fun x a => win9_1.rect_emb_val_of_index_zero t a ((idx9 t).2.2.2.2.1 a) x)
    (read_eq_self (S := S1x128) (V c (Pipeline.arrRef spec9 2)) (win9_2.rect t).emb fun x a => win9_2.rect_emb_val_of_index_zero t a ((idx9 t).2.2.2.2.2.1 a) x)
    (read_eq_self (S := S128x1) (V c (Pipeline.arrRef spec9 3)) (win9_3.rect t).emb fun x a => win9_3.rect_emb_val_of_index_zero t a ((idx9 t).2.2.2.2.2.2.1 a) x)
    (read_eq_self (S := S1x1) (V c (Pipeline.arrRef spec9 4)) (win9_4.rect t).emb fun x a => win9_4.rect_emb_val_of_index_zero t a ((idx9 t).2.2.2.2.2.2.2 a) x)

-- Row r lies in block r / 5000.
theorem cover9 (i : S100000x1.Idx) : ∃ t : Fin cfg9.N, (cfg9.win 5).flush t = true ∧ i ∈ ((cfg9.win 5).blk t).view.set := by
  have h0 : (i 0).val < 100000 := (i 0).isLt
  have h1 : (i 1).val < 1 := (i 1).isLt
  obtain ⟨t, ht⟩ : ∃ t : Fin cfg9.N, t.val = (i 0).val / 5000 := ⟨⟨(i 0).val / 5000, by rw [show cfg9.N = 20 from N_9]; omega⟩, rfl⟩
  obtain ⟨-, -, e0, e1, -⟩ := idx9 t
  refine ⟨t, flush9_5 t, ?_⟩
  show i ∈ ((View.whole main_v135).slice (win9_5.rect t)).set
  rw [View.set_slice_whole, Rect.mem_set_unit]
  intro a
  match a with
  | ⟨0, _⟩ => show win9_5.index t 0 * 5000 ≤ (i 0).val ∧ (i 0).val < win9_5.index t 0 * 5000 + 5000; rw [e0, ht]; omega
  | ⟨1, _⟩ => show win9_5.index t 1 * 1 ≤ (i 1).val ∧ (i 1).val < win9_5.index t 1 * 1 + 1; rw [e1]; omega

end Attn9

theorem att9 (c : Dev nD) :
    (dat9 (F := Ideal) V c).arrAt 5 cfg9.N
      = colArr (score (mat2 (V c (Pipeline.arrRef spec9 0))) (mat2 (V c (Pipeline.arrRef spec9 1))) (row (V c (Pipeline.arrRef spec9 2))) (col (V c (Pipeline.arrRef spec9 3))) ((V c (Pipeline.arrRef spec9 4)) (ix2 0 0))) :=
  (dat9 (F := Ideal) V c).arrAt_eq_of_cover 5 _ (fun t _ => Attn9.flushed9 V c t) Attn9.cover9

end Cert.KernelIdeal.RegVal

end
-- ==== Proof.RegPool10.lean ====
import proofs.«401495_j83210696393026_3_alg».proof.Proof.Gen.KernelIdeal.Frame
import proofs.«401495_j83210696393026_3_alg».proof.Proof.Spec
import proofs.«401495_j83210696393026_3_alg».proof.Proof.RegBlockLemmas
import proofs.«401495_j83210696393026_3_alg».proof.Proof.AlgBasics
import Idealize.ShloMosaic.PureOps.Ideal
import Idealize.ShloMosaic.Lib.StableHlo.Predicate
import Idealize.ShloMosaic.Lib.Tactic
import Mathlib.Algebra.BigOperators.Intervals

set_option maxRecDepth 16384

noncomputable section

namespace Cert.KernelIdeal.RegVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

open BlockLemmas

variable (V : (c : Dev nD) → (b : Ref sig .tc) → Buf (Elt Ideal) ((c : Thread nD τ).loc b))

namespace Pool10

-- The float of a widened equality bit: one where the two words agree, zero elsewhere.
theorem member_word (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show ((((1#1 : BitVec 1).setWidth 32).toInt : ℝ) : EReal) = 1
    rw [show ((1#1 : BitVec 1).setWidth 32).toInt = 1 by decide]; norm_num
  · rw [if_neg h, eq_zero_of_ne_one (fun h' => h (StableHlo.Predicate.cmpi_eq_iff.mp h'))]
    show ((((0#1 : BitVec 1).setWidth 32).toInt : ℝ) : EReal) = 0
    rw [show ((0#1 : BitVec 1).setWidth 32).toInt = 0 by decide]; norm_num

-- A column broadcast along the second axis reads, at an entry, the column's entry of that row.
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- The membership entry of row r and graph g: whether the row's label word is the graph's number.
theorem member_apply (x2 : Vec Ideal S5000x1 .i32) (r : Fin 5000) (g : Fin 64) :
    k10_pay3 (F := Ideal) x2 (ix2 r g) = if x2 (ix2 r 0) = BitVec.ofNat 32 g.val then (1 : EReal) else 0 := by
  unfold k10_pay3
  dsimp only
  refine (member_word _ _).trans ?_
  rw [bcast_col_apply, shapeCast_self, broadcastTo_1b_ab_apply]
  show (if _ = BitVec.ofNat 32 (0 * 64 + g.val) then (1 : EReal) else 0) = _
  rw [Nat.zero_mul, Nat.zero_add]

-- The block product contracts the 5000 rows of both operands.
theorem pool_dot_apply (M : FVec Ideal S5000x64 .f32) (R : FVec Ideal S5000x128 .f32) (g : Fin 64) (q : Fin 128) :
    matmul dot_S5000x64_S5000x128_S64x128_0_0_1_1_n_n none M R (constant (F := Ideal) S64x128 .f32 0x00000000#32) (ix2 g q)
      = ∑ r : Fin 5000, M (ix2 r g) * R (ix2 r q) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  rw [show dot_S5000x64_S5000x128_S64x128_0_0_1_1_n_n.lhsIdx (ix2 g q) ((contrEquiv1 dot_S5000x64_S5000x128_S64x128_0_0_1_1_n_n 5000 rfl rfl).symm k) = ix2 k g from Shape.idx_ext₂ hk rfl,
    show dot_S5000x64_S5000x128_S64x128_0_0_1_1_n_n.rhsIdx (ix2 g q) ((contrEquiv1 dot_S5000x64_S5000x128_S64x128_0_0_1_1_n_n 5000 rfl rfl).symm k) = ix2 k q from Shape.idx_ext₂ hk rfl]

theorem reset_sum_apply (g : Fin 64) (q : Fin 128) : k10_pay1 (F := Ideal) (ix3 (0 : Fin 1) g q) = 0 := by
  unfold k10_pay1
  refine (shapeCast_ab_1ab_apply _ _ (0 : Fin 1) g q).trans ?_
  show Ideal.ofBits .f32 0x00000000#32 = 0
  exact Ideal.ofBits_zero_f32
theorem reset_cnt_apply (g : Fin 64) : k10_pay2 (F := Ideal) (ix3 (0 : Fin 1) g (0 : Fin 1)) = 0 := by
  unfold k10_pay2
  refine (shapeCast_ab_1ab_apply _ _ (0 : Fin 1) g (0 : Fin 1)).trans ?_
  show Ideal.ofBits .f32 0x00000000#32 = 0
  exact Ideal.ofBits_zero_f32

-- The update of the sums: the running sum plus, over the block's rows, membership times the reweighted row.
theorem upd_sum_apply (x2 : Vec Ideal S5000x1 .i32) (x0 : Vec Ideal S5000x128 .f32) (x1 : Vec Ideal S5000x1 .f32)
    (xo : Vec Ideal S1x64x128 .f32) (g : Fin 64) (q : Fin 128) :
    k10_pay4 (F := Ideal) x2 x0 x1 xo (ix3 (0 : Fin 1) g q)
      = xo (ix3 (0 : Fin 1) g q) + ∑ r : Fin 5000, k10_pay3 (F := Ideal) x2 (ix2 r g) * (x0 (ix2 r q) * x1 (ix2 r (0 : Fin 1))) := by
  unfold k10_pay4
  refine (shapeCast_ab_1ab_apply _ _ (0 : Fin 1) g q).trans ?_
  refine (addf_apply _ _ _).trans ?_
  refine congrArg₂ (· + ·) (shapeCast_1ab_ab_apply xo _ g q) ?_
  refine (pool_dot_apply _ _ g q).trans ?_
  refine Finset.sum_congr rfl fun r _ => ?_
  refine congrArg (k10_pay3 (F := Ideal) x2 (ix2 r g) * ·) ?_
  rw [mulf_apply, shapeCast_self, bcast_col_apply, shapeCast_self]

-- The update of the counts: the running count plus the number of the block's rows in the graph.
theorem upd_cnt_apply (x2 : Vec Ideal S5000x1 .i32) (xo : Vec Ideal S1x64x1 .f32) (g : Fin 64) :
    k10_pay5 (F := Ideal) x2 xo (ix3 (0 : Fin 1) g (0 : Fin 1))
      = xo (ix3 (0 : Fin 1) g (0 : Fin 1)) + ∑ r : Fin 5000, k10_pay3 (F := Ideal) x2 (ix2 r g) := by
  unfold k10_pay5
  dsimp only
  refine (shapeCast_ab_1ab_apply _ _ (0 : Fin 1) g (0 : Fin 1)).trans ?_
  refine (addf_apply _ _ _).trans ?_
  refine congrArg₂ (· + ·) (shapeCast_1ab_ab_apply xo _ g (0 : Fin 1)) ?_
  refine (shapeCast_apply _ _ (ix2 g (0 : Fin 1)) (ix1 g) (by
    rw [Shape.rowMajor_val_one, Shape.rowMajor_val_two]; show g.val = g.val * 1 + 0; omega)).trans ?_
  refine (Ideal.multiReduction_add_single (k10_pay3 (F := Ideal) x2) 0x00000000#32 reduces_S5000x64_S64 (.inl rfl) rfl (ix1 g)).trans ?_
  exact Finset.sum_congr rfl fun r _ => congrArg (k10_pay3 (F := Ideal) x2) (Shape.idx_ext₂ rfl rfl)

abbrev hblk (c : Dev nD) (t : Fin cfg10.N) : Vec Ideal S5000x128 .f32 := iblk10 V c 0 t
abbrev ablk (c : Dev nD) (t : Fin cfg10.N) : Vec Ideal S5000x1 .f32 := iblk10 V c 1 t
abbrev lblk (c : Dev nD) (t : Fin cfg10.N) : Vec Ideal S5000x1 .i32 := iblk10 V c 2 t
abbrev harr (c : Dev nD) : S100000x128.Idx → EReal := V c (Pipeline.arrRef spec10 0)
abbrev aarr (c : Dev nD) : S100000x1.Idx → EReal := V c (Pipeline.arrRef spec10 1)
abbrev larr (c : Dev nD) : S100000x1.Idx → BitVec 32 := V c (Pipeline.arrRef spec10 2)

theorem pred_lt (t : Fin cfg10.N) : t.val - 1 < cfg10.N := Nat.lt_of_le_of_lt (Nat.sub_le _ _) t.isLt

-- At the first point of a half the two running blocks are this block's contribution onto zeros.
theorem outs_first (c : Dev nD) (t : Fin cfg10.N) (h0 : t.val % 10 = 0) :
    outsAt10 V c t.val t.isLt
      = (k10_pay4 (lblk V c t) (hblk V c t) (ablk V c t) (k10_pay1 (F := Ideal)), k10_pay5 (lblk V c t) (k10_pay2 (F := Ideal))) := by
  rw [outsAt10_A V c t h0]
  unfold out10_A_3 out10_A_4
  rw [View.read_writes_eq_canon _ _ _ (fun y => cover10_A_3 (y := y) ..), View.read_writes_eq_canon _ _ _ (fun y => cover10_A_4 (y := y) ..)]
  unfold kernelRun10_A
  dsimp only
  sl_unfold_words
  rw [View.canon_cons_unit_zero (S := S1x64x128) hz3, View.canon_cons_unit_zero (S := S1x64x1) hz3]
  simp only [View.readAt_eq_ld, (hs10_0 t).read_unread, (hs10_1 t).read_unread, (hs10_2 t).read_unread, View.ld_unit_zero (S := S5000x128) hz2, View.ld_unit_zero (S := S5000x1) hz2, View.readCov_unit_zero (S := S1x64x128) _ hz3, View.readCov_unit_zero (S := S1x64x1) _ hz3]

-- At a later point they are this block's contribution onto the running blocks of the point before.
theorem outs_next (c : Dev nD) (t : Fin cfg10.N) (h0 : ¬t.val % 10 = 0) :
    outsAt10 V c t.val t.isLt
      = (k10_pay4 (lblk V c t) (hblk V c t) (ablk V c t) (outsAt10 V c (t.val - 1) (pred_lt t)).1, k10_pay5 (lblk V c t) (outsAt10 V c (t.val - 1) (pred_lt t)).2) := by
  rw [outsAt10_B V c t h0]
  unfold out10_B_3 out10_B_4
  rw [View.read_writes_eq_canon _ _ _ (fun y => cover10_B_3 (y := y) ..), View.read_writes_eq_canon _ _ _ (fun y => cover10_B_4 (y := y) ..)]
  unfold kernelRun10_B
  dsimp only
  sl_unfold_words
  rw [View.canon_unit_zero hz3, View.canon_unit_zero hz3]
  simp only [View.readAt_eq_ld, (hs10_0 t).read_unread, (hs10_1 t).read_unread, (hs10_2 t).read_unread, (hs10_3 t).read_unread, (hs10_4 t).read_unread, View.ld_unit_zero (S := S5000x128) hz2, View.ld_unit_zero (S := S5000x1) hz2, View.ld_unit_zero (S := S1x64x128) hz3, View.ld_unit_zero (S := S1x64x1) hz3]

-- The block indices at point t: row block t of the three inputs, block t / 10 of the two outputs.
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 3) = t.val / 10 ∧ win10_3.index t (1 : Fin 3) = 0 ∧ win10_3.index t (2 : Fin 3) = 0
    ∧ win10_4.index t (0 : Fin 3) = t.val / 10 ∧ win10_4.index t (1 : Fin 3) = 0 ∧ win10_4.index t (2 : Fin 3) = 0 :=
  (by decide +kernel : ∀ t : Fin grid10.N, _)

theorem hblk_apply (c : Dev nD) (t : Fin cfg10.N) (r : Fin 5000) (q : Fin 128) (k : Fin 100000)
    (hk : k.val = 5000 * t.val + r.val) : hblk V c t (ix2 r q) = harr V c (ix2 k q) := by
  obtain ⟨e0, e1, -⟩ := idx_facts t
  refine congrArg (V c (Pipeline.arrRef spec10 0)) (Shape.idx_ext₂ ?_ ?_)
  · show win10_0.index t 0 * 5000 + 1 * r.val = k.val; rw [e0, hk]; omega
  · show win10_0.index t 1 * 128 + 1 * q.val = q.val; rw [e1]; omega

theorem ablk_apply (c : Dev nD) (t : Fin cfg10.N) (r : Fin 5000) (k : Fin 100000)
    (hk : k.val = 5000 * t.val + r.val) : ablk V c t (ix2 r (0 : Fin 1)) = aarr V c (ix2 k (0 : Fin 1)) := by
  obtain ⟨-, -, e0, e1, -⟩ := idx_facts t
  refine congrArg (V c (Pipeline.arrRef spec10 1)) (Shape.idx_ext₂ ?_ ?_)
  · show win10_1.index t 0 * 5000 + 1 * r.val = k.val; rw [e0, hk]; omega
  · show win10_1.index t 1 * 1 + 1 * 0 = 0; rw [e1]

theorem lblk_apply (c : Dev nD) (t : Fin cfg10.N) (r : Fin 5000) (k : Fin 100000)
    (hk : k.val = 5000 * t.val + r.val) : lblk V c t (ix2 r (0 : Fin 1)) = larr V c (ix2 k (0 : Fin 1)) := by
  obtain ⟨-, -, -, -, e0, e1, -⟩ := idx_facts t
  refine congrArg (V c (Pipeline.arrRef spec10 2)) (Shape.idx_ext₂ ?_ ?_)
  · show win10_2.index t 0 * 5000 + 1 * r.val = k.val; rw [e0, hk]; omega
  · show win10_2.index t 1 * 1 + 1 * 0 = 0; rw [e1]

-- A node's membership factor in graph g, and its contribution to the reweighted sum of graph g, column q.
def cntTerm (bat : Fin 100000 → Fin 64) (g : Fin 64) (i : Fin 100000) : EReal := if bat i = g then (1 : EReal) else 0
def sumTerm (bat : Fin 100000 → Fin 64) (h : Fin 100000 → Fin 128 → EReal) (a : Fin 100000 → EReal) (g : Fin 64) (q : Fin 128)
    (i : Fin 100000) : EReal := (if bat i = g then (1 : EReal) else 0) * (h i q * a i)

-- The sum of f over the 5000 rows of block n (nothing beyond the twenty blocks).
def blockSum (f : Fin 100000 → EReal) (n : ℕ) : EReal :=
  if h : n < 20 then ∑ r : Fin 5000, f ⟨5000 * n + r.val, by have := r.isLt; omega⟩ else 0

theorem word_inj (a b : Fin 64) : BitVec.ofNat 32 a.val = BitVec.ofNat 32 b.val ↔ a = b := by
  refine ⟨fun h => Fin.ext ?_, fun h => h ▸ rfl⟩
  have e := congrArg BitVec.toNat h
  simp only [BitVec.toNat_ofNat] at e
  have ha := a.isLt
  have hb := b.isLt
  omega

-- The ten blocks of half cc together are the half.
theorem sum_blocks_half (f : Fin 100000 → EReal) (cc : Fin 2) :
    ∑ k ∈ Finset.Ico (10 * cc.val) (10 * cc.val + 10), blockSum f k = ∑ r : Fin 50000, f (halfRow cc r) := by
  rw [Cert.Algebra.sum_half_eq_blocks f cc, Finset.sum_Ico_eq_sum_range,
    show 10 * cc.val + 10 - 10 * cc.val = 10 by omega, Finset.sum_range (fun i => blockSum f (10 * cc.val + i))]
  refine Finset.sum_congr rfl fun tt _ => ?_
  have hc := cc.isLt
  have ht := tt.isLt
  unfold blockSum
  rw [dif_pos (show 10 * cc.val + tt.val < 20 by omega)]
  refine Finset.sum_congr rfl fun r _ => congrArg f (Fin.ext ?_)
  show 5000 * (10 * cc.val + tt.val) + r.val = 50000 * cc.val + 5000 * tt.val + r.val
  omega

section Inv
variable (c : Dev nD) (bat : Fin 100000 → Fin 64)

-- After point n the running blocks hold the sums over the blocks of n's half up to block n.
def Carried (n : ℕ) (hn : n < cfg10.N) : Prop :=
  ∀ g : Fin 64,
    (∀ q : Fin 128, (outsAt10 V c n hn).1 (ix3 (0 : Fin 1) g q)
        = ∑ k ∈ Finset.Ico (10 * (n / 10)) (n + 1), blockSum (sumTerm bat (mat2 (harr V c)) (col (aarr V c)) g q) k)
    ∧ (outsAt10 V c n hn).2 (ix3 (0 : Fin 1) g (0 : Fin 1))
        = ∑ k ∈ Finset.Ico (10 * (n / 10)) (n + 1), blockSum (cntTerm bat g) k

variable (hb : ∀ p : Fin 100000, (V c (Pipeline.arrRef spec10 2)) (ix2 p 0) = BitVec.ofNat 32 (bat p).val)
include hb

theorem member_node (t : Fin cfg10.N) (r : Fin 5000) (g : Fin 64) (k : Fin 100000) (hk : k.val = 5000 * t.val + r.val) :
    k10_pay3 (F := Ideal) (lblk V c t) (ix2 r g) = cntTerm bat g k := by
  rw [member_apply, lblk_apply V c t r k hk]
  show (if V c (Pipeline.arrRef spec10 2) (ix2 k 0) = BitVec.ofNat 32 g.val then (1 : EReal) else 0) = _
  rw [hb k]
  unfold cntTerm
  split
  · rename_i h1
    rw [if_pos ((word_inj (bat k) g).mp h1)]
  · rename_i h1
    rw [if_neg (fun h2 => h1 ((word_inj (bat k) g).mpr h2))]

-- What point t adds to the sums and to the counts: the node terms summed over block t.
theorem point_sum (t : Fin cfg10.N) (g : Fin 64) (q : Fin 128) :
    ∑ r : Fin 5000, k10_pay3 (F := Ideal) (lblk V c t) (ix2 r g) * (hblk V c t (ix2 r q) * ablk V c t (ix2 r (0 : Fin 1)))
      = blockSum (sumTerm bat (mat2 (harr V c)) (col (aarr V c)) g q) t.val := by
  have hN : t.val < 20 := lt_of_lt_of_eq t.isLt (show cfg10.N = 20 from N_10)
  unfold blockSum
  rw [dif_pos hN]
  refine Finset.sum_congr rfl fun r _ => ?_
  have hr := r.isLt
  rw [member_node V c bat hb t r g ⟨5000 * t.val + r.val, by omega⟩ rfl,
    hblk_apply V c t r q ⟨5000 * t.val + r.val, by omega⟩ rfl, ablk_apply V c t r ⟨5000 * t.val + r.val, by omega⟩ rfl]
  rfl

theorem point_cnt (t : Fin cfg10.N) (g : Fin 64) :
    ∑ r : Fin 5000, k10_pay3 (F := Ideal) (lblk V c t) (ix2 r g) = blockSum (cntTerm bat g) t.val := by
  have hN : t.val < 20 := lt_of_lt_of_eq t.isLt (show cfg10.N = 20 from N_10)
  unfold blockSum
  rw [dif_pos hN]
  refine Finset.sum_congr rfl fun r _ => ?_
  have hr := r.isLt
  exact member_node V c bat hb t r g ⟨5000 * t.val + r.val, by omega⟩ rfl

-- The first point of a half: the reset, then this block alone.
theorem carried_first (t : Fin cfg10.N) (h0 : t.val % 10 = 0) : Carried V c bat t.val t.isLt := by
  intro g
  have hI : Finset.Ico (10 * (t.val / 10)) (t.val + 1) = {t.val} := by
    rw [show 10 * (t.val / 10) = t.val by omega]; exact Nat.Ico_succ_singleton t.val
  rw [outs_first V c t h0, hI]
  dsimp only
  refine ⟨fun q => ?_, ?_⟩
  · rw [Finset.sum_singleton, upd_sum_apply, reset_sum_apply, zero_add]; exact point_sum V c bat hb t g q
  · rw [Finset.sum_singleton, upd_cnt_apply, reset_cnt_apply, zero_add]; exact point_cnt V c bat hb t g

-- A later point of a half: what the point before left, plus this block.
theorem carried_next (t : Fin cfg10.N) (h0 : ¬t.val % 10 = 0) (ih : Carried V c bat (t.val - 1) (pred_lt t)) :
    Carried V c bat t.val t.isLt := by
  intro g
  have hI : ∀ f : ℕ → EReal, ∑ k ∈ Finset.Ico (10 * (t.val / 10)) (t.val + 1), f k
      = ∑ k ∈ Finset.Ico (10 * ((t.val - 1) / 10)) (t.val - 1 + 1), f k + f t.val := fun f => by
    rw [show 10 * ((t.val - 1) / 10) = 10 * (t.val / 10) by omega, show t.val - 1 + 1 = t.val by omega]
    exact Finset.sum_Ico_succ_top (by omega) f
  rw [outs_next V c t h0]
  dsimp only
  refine ⟨fun q => ?_, ?_⟩
  · rw [upd_sum_apply, (ih g).1 q, point_sum V c bat hb t g q, hI]
  · rw [upd_cnt_apply, (ih g).2, point_cnt V c bat hb t g, hI]

theorem carried_eq : ∀ (n : ℕ) (hn : n < cfg10.N), Carried V c bat n hn
  | 0, hn => carried_first V c bat hb ⟨0, hn⟩ rfl
  | n + 1, hn =>
    if h0 : (n + 1) % 10 = 0 then carried_first V c bat hb ⟨n + 1, hn⟩ h0
    else carried_next V c bat hb ⟨n + 1, hn⟩ h0 (carried_eq n (Nat.lt_of_succ_lt hn))

end Inv

-- Two [1, 64, k] blocks that agree at every (0, g, q) are equal.
theorem blk3_ext {k : ℕ} (X Y : (⟨3, ![1, 64, k]⟩ : Shape).Idx → EReal)
    (h : ∀ (g : Fin 64) (q : Fin k), X (ix3 (0 : Fin 1) g q) = Y (ix3 (0 : Fin 1) g q)) : X = Y := by
  funext y
  obtain ⟨u, g, q, rfl⟩ : ∃ (u : Fin 1) (g : Fin 64) (q : Fin k), y = ix3 u g q := ⟨y 0, y 1, y 2, eq_ix3 y⟩
  obtain rfl : u = 0 := Subsingleton.elim _ _
  exact h g q

-- Entry (0, g, q) of block t of either output is entry (t / 10, g, q) of the array.
theorem emb_sum (t : Fin cfg10.N) (g : Fin 64) (q : Fin 128) (cc : Fin 2) (hcc : cc.val = t.val / 10) :
    (((cfg10.win 3).blk t).view.emb (ix3 (0 : Fin 1) g q) : S2x64x128.Idx) = ix3 cc g q := by
  obtain ⟨-, -, -, -, -, -, e0, e1, e2, -⟩ := idx_facts t
  funext a
  apply Fin.ext
  match a with
  | ⟨0, _⟩ => show win10_3.index t 0 * 1 + 1 * 0 = cc.val; rw [e0, hcc]; omega
  | ⟨1, _⟩ => show win10_3.index t 1 * 64 + 1 * g.val = g.val; rw [e1]; omega
  | ⟨2, _⟩ => show win10_3.index t 2 * 128 + 1 * q.val = q.val; rw [e2]; omega

theorem emb_cnt (t : Fin cfg10.N) (g : Fin 64) (cc : Fin 2) (hcc : cc.val = t.val / 10) :
    (((cfg10.win 4).blk t).view.emb (ix3 (0 : Fin 1) g (0 : Fin 1)) : S2x64x1.Idx) = ix3 cc g (0 : Fin 1) := by
  obtain ⟨-, -, -, -, -, -, -, -, -, e0, e1, e2⟩ := idx_facts t
  funext a
  apply Fin.ext
  match a with
  | ⟨0, _⟩ => show win10_4.index t 0 * 1 + 1 * 0 = cc.val; rw [e0, hcc]; omega
  | ⟨1, _⟩ => show win10_4.index t 1 * 64 + 1 * g.val = g.val; rw [e1]; omega
  | ⟨2, _⟩ => show win10_4.index t 2 * 1 + 1 * 0 = 0; rw [e2]

theorem cut_sum_apply (t : Fin cfg10.N) (X : Vec Ideal S1x64x128 .f32) (g : Fin 64) (q : Fin 128) :
    (cfg10.win 3).cut (grid10.coords t) X (ix3 (0 : Fin 1) g q) = X (ix3 (0 : Fin 1) g q) := rfl
theorem read_sum_apply (t : Fin cfg10.N) (G : S2x64x128.Idx → EReal) (g : Fin 64) (q : Fin 128) :
    ((cfg10.win 3).blk t).view.read (Elt Ideal) G (ix3 (0 : Fin 1) g q) = G (((cfg10.win 3).blk t).view.emb (ix3 (0 : Fin 1) g q)) := rfl
theorem cut_cnt_apply (t : Fin cfg10.N) (X : Vec Ideal S1x64x1 .f32) (g : Fin 64) :
    (cfg10.win 4).cut (grid10.coords t) X (ix3 (0 : Fin 1) g (0 : Fin 1)) = X (ix3 (0 : Fin 1) g (0 : Fin 1)) := rfl
theorem read_cnt_apply (t : Fin cfg10.N) (G : S2x64x1.Idx → EReal) (g : Fin 64) :
    ((cfg10.win 4).blk t).view.read (Elt Ideal) G (ix3 (0 : Fin 1) g (0 : Fin 1)) = G (((cfg10.win 4).blk t).view.emb (ix3 (0 : Fin 1) g (0 : Fin 1))) := rfl
theorem arr3_ix3 {n m k : ℕ} (f : Fin n → Fin m → Fin k → EReal) (a : Fin n) (b : Fin m) (d : Fin k) :
    arr3 f (ix3 a b d) = f a b d := rfl

-- Every entry of either output lies in the block of its half's last point.
theorem cover_sum (i : S2x64x128.Idx) :
    ∃ t : Fin cfg10.N, (cfg10.win 3).flush t = true ∧ i ∈ ((cfg10.win 3).blk t).view.set := by
  obtain ⟨u, g, q, rfl⟩ : ∃ (u : Fin 2) (g : Fin 64) (q : Fin 128), i = ix3 u g q := ⟨i 0, i 1, i 2, eq_ix3 i⟩
  have hu := u.isLt
  obtain ⟨t, ht⟩ : ∃ t : Fin cfg10.N, t.val = 10 * u.val + 9 := ⟨⟨_, lt_of_lt_of_eq (show 10 * u.val + 9 < 20 by omega) N_10.symm⟩, rfl⟩
  refine ⟨t, (flush10_3 t).mpr (by omega), ?_⟩
  rw [← emb_sum t g q u (by omega)]
  exact View.emb_mem_set _ _

theorem cover_cnt (i : S2x64x1.Idx) :
    ∃ t : Fin cfg10.N, (cfg10.win 4).flush t = true ∧ i ∈ ((cfg10.win 4).blk t).view.set := by
  obtain ⟨u, g, q, rfl⟩ : ∃ (u : Fin 2) (g : Fin 64) (q : Fin 1), i = ix3 u g q := ⟨i 0, i 1, i 2, eq_ix3 i⟩
  obtain rfl : q = 0 := Subsingleton.elim _ _
  have hu := u.isLt
  obtain ⟨t, ht⟩ : ∃ t : Fin cfg10.N, t.val = 10 * u.val + 9 := ⟨⟨_, lt_of_lt_of_eq (show 10 * u.val + 9 < 20 by omega) N_10.symm⟩, rfl⟩
  refine ⟨t, (flush10_4 t).mpr (by omega), ?_⟩
  rw [← emb_cnt t g u (by omega)]
  exact View.emb_mem_set _ _

section Final
variable (c : Dev nD) (bat : Fin 100000 → Fin 64)
variable (hb : ∀ p : Fin 100000, (V c (Pipeline.arrRef spec10 2)) (ix2 p 0) = BitVec.ofNat 32 (bat p).val)
include hb

-- At a half's last point the running blocks are the half's sums and counts.
theorem flushed_sum (t : Fin cfg10.N) (hf : (cfg10.win 3).flush t = true) :
    (dat10 (F := Ideal) V c).flushed 3 t = ((cfg10.win 3).blk t).view.read (Elt Ideal)
      (arr3 (fun cc g j => corePoolSum bat (mat2 (harr V c)) (col (aarr V c)) cc g j) : S2x64x128.Idx → EReal) := by
  have h9 : t.val % 10 = 9 := (flush10_3 t).mp hf
  have hN : t.val < 20 := lt_of_lt_of_eq t.isLt (show cfg10.N = 20 from N_10)
  have hc := fun g q => ((carried_eq V c bat hb t.val t.isLt) g).1 q
  show (cfg10.win 3).cut (grid10.coords t) ((dat10 (F := Ideal) V c).after 3 t) = _
  rw [after10_3]
  generalize outsAt10 V c t.val t.isLt = P at hc ⊢
  refine blk3_ext (k := 128) _ _ fun g q => ?_
  refine (cut_sum_apply t P.1 g q).trans (Eq.trans ?_ (read_sum_apply t _ g q).symm)
  rw [emb_sum t g q ⟨t.val / 10, by omega⟩ rfl, arr3_ix3, hc g q, show t.val + 1 = 10 * (t.val / 10) + 10 by omega]
  unfold corePoolSum
  exact sum_blocks_half (sumTerm bat (mat2 (harr V c)) (col (aarr V c)) g q) ⟨t.val / 10, by omega⟩

theorem flushed_cnt (t : Fin cfg10.N) (hf : (cfg10.win 4).flush t = true) :
    (dat10 (F := Ideal) V c).flushed 4 t = ((cfg10.win 4).blk t).view.read (Elt Ideal)
      (arr3 (fun cc g (_ : Fin 1) => corePoolCnt bat cc g) : S2x64x1.Idx → EReal) := by
  have h9 : t.val % 10 = 9 := (flush10_4 t).mp hf
  have hN : t.val < 20 := lt_of_lt_of_eq t.isLt (show cfg10.N = 20 from N_10)
  have hc := fun g => ((carried_eq V c bat hb t.val t.isLt) g).2
  show (cfg10.win 4).cut (grid10.coords t) ((dat10 (F := Ideal) V c).after 4 t) = _
  rw [after10_4]
  generalize outsAt10 V c t.val t.isLt = P at hc ⊢
  refine blk3_ext (k := 1) _ _ fun g q => ?_
  obtain rfl : q = 0 := Subsingleton.elim _ _
  refine (cut_cnt_apply t P.2 g).trans (Eq.trans ?_ (read_cnt_apply t _ g).symm)
  rw [emb_cnt t g ⟨t.val / 10, by omega⟩ rfl, arr3_ix3, hc g, show t.val + 1 = 10 * (t.val / 10) + 10 by omega]
  unfold corePoolCnt
  exact sum_blocks_half (cntTerm bat g) ⟨t.val / 10, by omega⟩

end Final

end Pool10

theorem pool10_sum (c : Dev nD) (bat : Fin 100000 → Fin 64)
    (hb : ∀ p : Fin 100000, (V c (Pipeline.arrRef spec10 2)) (ix2 p 0) = BitVec.ofNat 32 (bat p).val) :
    (dat10 (F := Ideal) V c).arrAt 3 cfg10.N
      = arr3 (fun cc g j => corePoolSum bat (mat2 (V c (Pipeline.arrRef spec10 0))) (col (V c (Pipeline.arrRef spec10 1))) cc g j) :=
  (dat10 (F := Ideal) V c).arrAt_eq_of_cover 3 _ (fun t hf => Pool10.flushed_sum V c bat hb t hf) (fun i => Pool10.cover_sum i)

theorem pool10_cnt (c : Dev nD) (bat : Fin 100000 → Fin 64)
    (hb : ∀ p : Fin 100000, (V c (Pipeline.arrRef spec10 2)) (ix2 p 0) = BitVec.ofNat 32 (bat p).val) :
    (dat10 (F := Ideal) V c).arrAt 4 cfg10.N
      = arr3 (fun cc g (_ : Fin 1) => corePoolCnt bat cc g) :=
  (dat10 (F := Ideal) V c).arrAt_eq_of_cover 4 _ (fun t hf => Pool10.flushed_cnt V c bat hb t hf) (fun i => Pool10.cover_cnt i)

end Cert.KernelIdeal.RegVal

end
-- ==== Proof.RegProj11.lean ====
import proofs.«401495_j83210696393026_3_alg».proof.Proof.Gen.KernelIdeal.Frame
import proofs.«401495_j83210696393026_3_alg».proof.Proof.Spec
import proofs.«401495_j83210696393026_3_alg».proof.Proof.RegBlockLemmas

set_option maxRecDepth 16384

noncomputable section

namespace Cert.KernelIdeal.RegVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

open BlockLemmas

variable (V : (c : Dev nD) → (b : Ref sig .tc) → Buf (Elt Ideal) ((c : Thread nD τ).loc b))

namespace Proj11

-- Both products and both biases read at an entry: the first layer rectified, times the second matrix, plus its bias.
theorem pay11_eq (x0 : Vec Ideal S64x128 .f32) (x1 : Vec Ideal S128x128 .f32) (x2 : Vec Ideal S1x128 .f32)
    (x3 : Vec Ideal S128x128 .f32) (x4 : Vec Ideal S1x128 .f32) :
    k11_pay1 (F := Ideal) x0 x1 x2 x3 x4 = arr2 (proj (mat2 x0) (mat2 x1) (row x2) (mat2 x3) (row x4)) := by
  funext y
  obtain ⟨g, j, rfl⟩ : ∃ (g : Fin 64) (j : Fin 128), y = ix2 g j := ⟨y 0, y 1, eq_ix2 y⟩
  show _ = (∑ k : Fin 128, max ((∑ l : Fin 128, x0 (ix2 g l) * x1 (ix2 l k)) + x2 (ix2 0 k)) 0 * x3 (ix2 k j)) + x4 (ix2 0 j)
  unfold k11_pay1
  simp only [shapeCast_self]
  rw [addf_apply, mm_apply dot_S64x128_S128x128_S64x128_1_0_0_1_n_n rfl, broadcastTo_1b_ab_apply]
  refine congrArg (· + x4 (ix2 0 j)) (Finset.sum_congr rfl fun k _ => ?_)
  rw [maximumf_apply, addf_apply, mm_apply dot_S64x128_S128x128_S64x128_1_0_0_1_n_n rfl, broadcastTo_1b_ab_apply, broadcast_apply]
  show max _ (Ideal.ofBits .f32 0x00000000#32) * _ = _
  rw [Ideal.ofBits_zero_f32]

theorem idx11 : ∀ t : Fin cfg11.N,
    (∀ a, win11_0.index t a = 0) ∧ (∀ a, win11_1.index t a = 0) ∧ (∀ a, win11_2.index t a = 0) ∧ (∀ a, win11_3.index t a = 0)
    ∧ (∀ a, win11_4.index t a = 0) ∧ (∀ a, win11_5.index t a = 0) :=
  (by decide +kernel : ∀ t : Fin grid11.N, _)

theorem iblk11_0_eq (c : Dev nD) (t : Fin cfg11.N) : iblk11 (F := Ideal) V c 0 t = V c (Pipeline.arrRef spec11 0) :=
  read_eq_self (V c (Pipeline.arrRef spec11 0)) (win11_0.rect t).emb fun x a => win11_0.rect_emb_val_of_index_zero t a ((idx11 t).1 a) x
theorem iblk11_1_eq (c : Dev nD) (t : Fin cfg11.N) : iblk11 (F := Ideal) V c 1 t = V c (Pipeline.arrRef spec11 1) :=
  read_eq_self (V c (Pipeline.arrRef spec11 1)) (win11_1.rect t).emb fun x a => win11_1.rect_emb_val_of_index_zero t a ((idx11 t).2.1 a) x
theorem iblk11_2_eq (c : Dev nD) (t : Fin cfg11.N) : iblk11 (F := Ideal) V c 2 t = V c (Pipeline.arrRef spec11 2) :=
  read_eq_self (V c (Pipeline.arrRef spec11 2)) (win11_2.rect t).emb fun x a => win11_2.rect_emb_val_of_index_zero t a ((idx11 t).2.2.1 a) x
theorem iblk11_3_eq (c : Dev nD) (t : Fin cfg11.N) : iblk11 (F := Ideal) V c 3 t = V c (Pipeline.arrRef spec11 3) :=
  read_eq_self (V c (Pipeline.arrRef spec11 3)) (win11_3.rect t).emb fun x a => win11_3.rect_emb_val_of_index_zero t a ((idx11 t).2.2.2.1 a) x
theorem iblk11_4_eq (c : Dev nD) (t : Fin cfg11.N) : iblk11 (F := Ideal) V c 4 t = V c (Pipeline.arrRef spec11 4) :=
  read_eq_self (V c (Pipeline.arrRef spec11 4)) (win11_4.rect t).emb fun x a => win11_4.rect_emb_val_of_index_zero t a ((idx11 t).2.2.2.2.1 a) x

-- The output's one block starts at the origin: an index of the block is the same index of the array.
theorem emb11_5 (t : Fin cfg11.N) (j : S64x128.Idx) : (((cfg11.win 5).blk t).view.emb j : S64x128.Idx) = j :=
  funext fun a => Fin.ext (win11_5.rect_emb_val_of_index_zero t a ((idx11 t).2.2.2.2.2 a) j)

-- A stored entry is the projection at the index it sits at, given what the five loaded blocks are.
theorem block11_eq (x0 : Vec Ideal S64x128 .f32) (x1 : Vec Ideal S128x128 .f32) (x2 : Vec Ideal S1x128 .f32)
    (x3 : Vec Ideal S128x128 .f32) (x4 : Vec Ideal S1x128 .f32)
    (A0 : S64x128.Idx → EReal) (A1 : S128x128.Idx → EReal) (A2 : S1x128.Idx → EReal)
    (A3 : S128x128.Idx → EReal) (A4 : S1x128.Idx → EReal) (y i : S64x128.Idx) (hi : i = y)
    (h0 : x0 = A0) (h1 : x1 = A1) (h2 : x2 = A2) (h3 : x3 = A3) (h4 : x4 = A4) :
    k11_pay1 (F := Ideal) x0 x1 x2 x3 x4 y = arr2 (proj (mat2 A0) (mat2 A1) (row A2) (mat2 A3) (row A4)) i := by
  subst hi h0 h1 h2 h3 h4
  rw [pay11_eq]

theorem flushed11 (c : Dev nD) (t : Fin cfg11.N) :
    (dat11 (F := Ideal) V c).flushed 5 t
      = ((cfg11.win 5).blk t).view.read (Elt Ideal)
          (arr2 (proj (mat2 (V c (Pipeline.arrRef spec11 0))) (mat2 (V c (Pipeline.arrRef spec11 1))) (row (V c (Pipeline.arrRef spec11 2))) (mat2 (V c (Pipeline.arrRef spec11 3))) (row (V c (Pipeline.arrRef spec11 4))))) := by
  show (cfg11.win 5).cut (grid11.coords t) ((dat11 (F := Ideal) V c).after 5 t) = _
  rw [after11_5]
  unfold out11_5
  rw [View.canon_unit_zero hz2]
  simp only [View.ld_unit_zero (S := S64x128) hz2, View.ld_unit_zero (S := S128x128) hz2, View.ld_unit_zero (S := S1x128) hz2]
  funext j
  exact block11_eq (iblk11 (F := Ideal) V c 0 t) (iblk11 (F := Ideal) V c 1 t) (iblk11 (F := Ideal) V c 2 t)
    (iblk11 (F := Ideal) V c 3 t) (iblk11 (F := Ideal) V c 4 t)
    (V c (Pipeline.arrRef spec11 0)) (V c (Pipeline.arrRef spec11 1)) (V c (Pipeline.arrRef spec11 2))
    (V c (Pipeline.arrRef spec11 3)) (V c (Pipeline.arrRef spec11 4)) j (((cfg11.win 5).blk t).view.emb j)
    (emb11_5 t j)
    (iblk11_0_eq V c t) (iblk11_1_eq V c t) (iblk11_2_eq V c t) (iblk11_3_eq V c t) (iblk11_4_eq V c t)

theorem cover11 (i : S64x128.Idx) : ∃ t : Fin cfg11.N, (cfg11.win 5).flush t = true ∧ i ∈ ((cfg11.win 5).blk t).view.set :=
  ⟨t11_0, flush11_5 t11_0, by rw [← emb11_5 t11_0 i]; exact View.emb_mem_set _ _⟩

end Proj11

theorem proj11 (c : Dev nD) :
    (dat11 (F := Ideal) V c).arrAt 5 cfg11.N
      = arr2 (proj (mat2 (V c (Pipeline.arrRef spec11 0))) (mat2 (V c (Pipeline.arrRef spec11 1))) (row (V c (Pipeline.arrRef spec11 2))) (mat2 (V c (Pipeline.arrRef spec11 3))) (row (V c (Pipeline.arrRef spec11 4)))) :=
  (dat11 (F := Ideal) V c).arrAt_eq_of_cover 5 _ (fun t _ => Proj11.flushed11 V c t) Proj11.cover11

end Cert.KernelIdeal.RegVal

end
-- ==== Proof.KTail.lean ====
import proofs.«401495_j83210696393026_3_alg».proof.Proof.Gen.KernelIdeal.Frame
import proofs.«401495_j83210696393026_3_alg».proof.Proof.Spec
import proofs.«401495_j83210696393026_3_alg».proof.Proof.KFacts
import proofs.«401495_j83210696393026_3_alg».proof.Proof.RegAttn9
import proofs.«401495_j83210696393026_3_alg».proof.Proof.RegPool10
import proofs.«401495_j83210696393026_3_alg».proof.Proof.RegProj11
import proofs.«401495_j83210696393026_3_alg».proof.Proof.AlgBasics
import proofs.«401495_j83210696393026_3_alg».proof.Proof.LibIndex
import Idealize.ShloMosaic.Lib.IdealHost
import Idealize.ShloMosaic.Lib.Pipeline.Value

set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

namespace Tail

theorem ext_ix2 {n k : Nat} {A B : (⟨2, ![n, k]⟩ : Shape).Idx → EReal} (h : ∀ p q, A (ix2 p q) = B (ix2 p q)) : A = B :=
  funext fun i => by rw [eq_ix2 i]; exact h _ _

theorem bcast_all {α : Type} (v : S1.Idx → α) (i : S100000x1.Idx) :
    broadcastInDim S100000x1 ![0, 1] bcast_S1x1_S100000x1_0_1 (broadcastInDim S1x1 ![1] bcast_S1_S1x1_1 v) i = v (ix1 0) :=
  (broadcastInDim_apply _ _ _ i (ix2 0 0) (fun a => match a with | ⟨0, _⟩ => rfl | ⟨1, _⟩ => rfl)).trans
    (broadcastInDim_apply _ _ _ (ix2 0 0) (ix1 0) (fun a => match a with | ⟨0, _⟩ => rfl))

theorem lift_col (hR : S100000x1.Reduces [0] S1) (p : Fin 100000) : hR.lift (ix1 0) p = ix2 p 0 := by
  funext a
  match a with
  | ⟨0, _⟩ => exact Fin.ext rfl
  | ⟨1, _⟩ => exact Fin.ext rfl

def hostShift (x : FVec Ideal S100000x1 .f32) : FVec Ideal S100000x1 .f32 :=
  broadcastInDim S100000x1 ![0, 1] bcast_S1x1_S100000x1_0_1 (broadcastInDim S1x1 ![1] bcast_S1_S1x1_1
    (maximumf (broadcastInDim S1 ![] bcast_S_S1 (constant (F := Ideal) S_ .f32 0xFF800000#32))
      (Host.reduce FloatOps.maximumf x (constant (F := Ideal) S_ .f32 0xFF800000#32) reducesTo_S100000x1_S1_d0 h_S_)))

theorem hostShift_apply (x : FVec Ideal S100000x1 .f32) (i : S100000x1.Idx) :
    hostShift x i = max cNegInf ((Finset.univ : Finset (Fin 100000)).fold max cNegInf (col x)) := by
  have hR : S100000x1.Reduces [0] S1 := by decide
  have e : (x ∘ hR.lift (ix1 0)) = col x := funext fun p => congrArg x (lift_col hR p)
  unfold hostShift
  rw [bcast_all, maximumf_apply, broadcastInDim_scalar_apply, constant_apply,
    Host.reduce_eq_fold_single FloatOps.maximumf x _ reducesTo_S100000x1_S1_d0 hR h_S_ (ix1 0), constant_apply, e]
  rfl

def hostExp (x : FVec Ideal S100000x1 .f32) : FVec Ideal S100000x1 .f32 := Host.exp (subf x (hostShift x))

theorem hostExp_apply (x : FVec Ideal S100000x1 .f32) (i : S100000x1.Idx) :
    hostExp x i = Ideal.exp (x i - max cNegInf ((Finset.univ : Finset (Fin 100000)).fold max cNegInf (col x))) := by
  show Ideal.exp (x i - hostShift x i) = _
  rw [hostShift_apply]

def hostSoftmax (x : FVec Ideal S100000x1 .f32) : FVec Ideal S100000x1 .f32 :=
  Host.divf (hostExp x)
    (broadcastInDim S100000x1 ![0, 1] bcast_S1x1_S100000x1_0_1 (broadcastInDim S1x1 ![1] bcast_S1_S1x1_1
      (Host.reduceAdd (hostExp x) (constant (F := Ideal) S_ .f32 0x00000000#32) reducesTo_S100000x1_S1_d0 h_S_)))

theorem hostSoftmax_eq (x : FVec Ideal S100000x1 .f32) : hostSoftmax x = colArr (softmax (col x)) := by
  have hR : S100000x1.Reduces [0] S1 := by decide
  refine ext_ix2 (fun p q => ?_)
  obtain rfl : q = 0 := Subsingleton.elim _ _
  unfold hostSoftmax
  have e : ∀ k : Fin 100000, hostExp x (hR.lift (ix1 0) k)
      = Ideal.exp (col x k - max cNegInf ((Finset.univ : Finset (Fin 100000)).fold max cNegInf (col x))) :=
    fun k => by rw [lift_col, hostExp_apply]; rfl
  rw [hostDivf_apply, bcast_all, hostExp_apply, hostReduceAdd_apply, Ideal.hostReduceAdd_single _ hR, constant_apply,
    Ideal.ofBits_zero_f32, zero_add]
  show Ideal.div _ (∑ k : Fin 100000, hostExp x (hR.lift (ix1 0) k)) = _
  simp only [e]
  rfl

def hostPooled (A : FVec Ideal S2x64x128 .f32) (B : FVec Ideal S2x64x1 .f32) : FVec Ideal S64x128 .f32 :=
  Host.divf (Host.reduceAdd A (constant (F := Ideal) S_ .f32 0x00000000#32) reducesTo_S2x64x128_S64x128_d0 h_S_)
    (broadcastInDim S64x128 ![0, 1] bcast_S64x1_S64x128_0_1
      (maximumf (Host.reduceAdd B (constant (F := Ideal) S_ .f32 0x00000000#32) reducesTo_S2x64x1_S64x1_d0 h_S_)
        (broadcastInDim S64x1 ![] bcast_S_S64x1 (constant (F := Ideal) S_ .f32 0x3F800000#32))))

theorem hostPooled_eq (f : Fin 2 → Fin 64 → Fin 128 → EReal) (n : Fin 2 → Fin 64 → EReal) :
    hostPooled (arr3 f) (arr3 (fun cc g (_ : Fin 1) => n cc g))
      = arr2 (pooled (fun g j => f 0 g j + f 1 g j) (fun g => n 0 g + n 1 g)) := by
  have hA : S2x64x128.Reduces [0] S64x128 := by decide
  have hB : S2x64x1.Reduces [0] S64x1 := by decide
  refine ext_ix2 (fun p q => ?_)
  unfold hostPooled
  have e1 : (∑ k : Fin (S2x64x128.size 0), arr3 f (hA.lift (ix2 p q) k)) = f 0 p q + f 1 p q :=
    Fin.sum_univ_two (fun k => arr3 f (hA.lift (ix2 p q) k))
  have e2 : (∑ k : Fin (S2x64x1.size 0), arr3 (fun cc g (_ : Fin 1) => n cc g) (hB.lift (ix2 p 0) k)) = n 0 p + n 1 p :=
    Fin.sum_univ_two (fun k => arr3 (fun cc g (_ : Fin 1) => n cc g) (hB.lift (ix2 p 0) k))
  rw [hostDivf_apply, broadcastInDim_apply _ _ _ (ix2 p q) (ix2 p 0) (fun a => match a with | ⟨0, _⟩ => rfl | ⟨1, _⟩ => rfl),
    maximumf_apply, broadcastInDim_scalar_apply, constant_apply, hostReduceAdd_apply, hostReduceAdd_apply,
    Ideal.hostReduceAdd_single _ hA, Ideal.hostReduceAdd_single _ hB, constant_apply, Ideal.ofBits_zero_f32,
    zero_add, zero_add, e1, e2]
  rfl

theorem row_reshape (a : FVec Ideal S128 .f32) : row (shapeCast S1x128 a shapeCasts_S128_S1x128) = vec1 a := by
  funext q
  exact shapeCast_apply a shapeCasts_S128_S1x128 (ix2 0 q) (ix1 q)
    (by rw [Shape.rowMajor_val_one, Shape.rowMajor_val_two]; show q.val = 0 * 128 + q.val; omega)

theorem one_reshape (a : FVec Ideal S1 .f32) : shapeCast S1x1 a shapeCasts_S1_S1x1 (ix2 0 0) = a (ix1 0) :=
  shapeCast_apply a shapeCasts_S1_S1x1 (ix2 0 0) (ix1 0)
    (by rw [Shape.rowMajor_val_one, Shape.rowMajor_val_two]; rfl)

local macro "host_keeps " ops:ident " using " hb:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (fun e => $hb (by rw [e]; decide)))))

abbrev wr9 : List (Ref sig .tc) := [main_v133, main_v134]
abbrev wr10 : List (Ref sig .tc) := [main_cst_30, main_v136, main_cst_31, main_v137, main_v138, main_v139, main_v140, main_v141, main_v142,
      main_cst_32, main_v143, main_v144, main_v145, main_v146, main_c_33, main_c_34]
abbrev wr10' : List (Ref sig .tc) := [main_call1_v0, main_call1_v1, main_call1_v2, main_call1_v3, main_call1_v4, main_v147, main_v148]

theorem keep9 (b : Ref sig .tc) (hb : b ∉ wr9 := by decide) :
    W21 m ρ c (Proc.devRef .tc b) = W20 m ρ c (Proc.devRef .tc b) := by
  host_keeps hostOps9 using hb

theorem keep10 (b : Ref sig .tc) (hb : b ∉ wr10 := by decide) :
    W23 m ρ c (Proc.devRef .tc b) = W22 m ρ c (Proc.devRef .tc b) := by
  host_keeps hostOps10 using hb

theorem keep10' (b : Ref sig .tc) (hb : b ∉ wr10' := by decide) :
    W25 m ρ c (Proc.devRef .tc b) = W23 m ρ c (Proc.devRef .tc b) :=
  calc W25 m ρ c (Proc.devRef .tc b)
    _ = W24 m ρ c (Proc.devRef .tc b) := by host_keeps hostOps10_2 using hb
    _ = W23 m ρ c (Proc.devRef .tc b) := by host_keeps hostOps10_1 using hb

theorem keep11 (b : Ref sig .tc)
    (hb : b ∉ [main_cst_35, main_v150, main_cst_36, main_v151, main_cst_37, main_v152, main_v153, main_v154, main_v155,
      main_v156, main_v157] := by decide) :
    W27 m ρ c (Proc.devRef .tc b) = W26 m ρ c (Proc.devRef .tc b) := by
  host_keeps hostOps11 using hb

theorem keep_arg (b : Ref sig .tc) (h9 : ∀ w, Pipeline.arrRef spec9 w ≠ b := by decide) (h10 : ∀ w, Pipeline.arrRef spec10 w ≠ b := by decide)
    (hb9 : b ∉ wr9 := by decide) (hb10 : b ∉ wr10 := by decide) (hb10' : b ∉ wr10' := by decide) :
    W26 m ρ c (Proc.devRef .tc b) = W20 m ρ c (Proc.devRef .tc b) :=
  calc W26 m ρ c (Proc.devRef .tc b)
    _ = W25 m ρ c (Proc.devRef .tc b) := W26_of_ne m ρ c b h10
    _ = W23 m ρ c (Proc.devRef .tc b) := keep10' m ρ c b hb10'
    _ = W22 m ρ c (Proc.devRef .tc b) := keep10 m ρ c b hb10
    _ = W21 m ρ c (Proc.devRef .tc b) := W22_of_ne m ρ c b h9
    _ = W20 m ρ c (Proc.devRef .tc b) := keep9 m ρ c b hb9

theorem v133_eq : W21 m ρ c (Proc.devRef .tc main_v133)
    = shapeCast S1x128 (W20 m ρ c (Proc.devRef .tc main_arg8)) shapeCasts_S128_S1x128 := by
  show StableHlo.after hostOps9 _ (Proc.devRef .tc main_v133) = _
  after_results
  rfl

theorem v134_eq : W21 m ρ c (Proc.devRef .tc main_v134)
    = shapeCast S1x1 (W20 m ρ c (Proc.devRef .tc main_arg10)) shapeCasts_S1_S1x1 := by
  show StableHlo.after hostOps9 _ (Proc.devRef .tc main_v134) = _
  after_results
  rfl

theorem v135_eq (h : Fin 100000 → Fin 128 → EReal) (g : Graph m c hr (W20 m ρ c))
    (hh : W20 m ρ c (Proc.devRef .tc main_v132) = arr2 h) :
    W22 m ρ c (Proc.devRef .tc main_v135)
      = colArr (score h (ins m c hr).aw1 (ins m c hr).ab1 (ins m c hr).aw2 (ins m c hr).ab2) := by
  refine (W22_arr m ρ c 5).trans ((RegVal.att9 (V21 m ρ) c).trans ?_)
  have e0 : mat2 (V21 m ρ c (Pipeline.arrRef spec9 0)) = h := by
    show mat2 (W21 m ρ c (Proc.devRef .tc main_v132)) = h
    rw [keep9 m ρ c main_v132, hh]; rfl
  have e1 : mat2 (V21 m ρ c (Pipeline.arrRef spec9 1)) = (ins m c hr).aw1 := by
    show mat2 (W21 m ρ c (Proc.devRef .tc main_arg7)) = _
    rw [keep9 m ρ c main_arg7, g.arg7]; rfl
  have e2 : row (V21 m ρ c (Pipeline.arrRef spec9 2)) = (ins m c hr).ab1 := by
    show row (W21 m ρ c (Proc.devRef .tc main_v133)) = _
    rw [v133_eq, g.arg8, row_reshape]; rfl
  have e3 : col (V21 m ρ c (Pipeline.arrRef spec9 3)) = (ins m c hr).aw2 := by
    show col (W21 m ρ c (Proc.devRef .tc main_arg9)) = _
    rw [keep9 m ρ c main_arg9, g.arg9]; rfl
  have e4 : (V21 m ρ c (Pipeline.arrRef spec9 4)) (ix2 0 0) = (ins m c hr).ab2 := by
    show (W21 m ρ c (Proc.devRef .tc main_v134)) (ix2 0 0) = _
    rw [v134_eq, g.arg10, one_reshape]; rfl
  rw [e0, e1, e2, e3, e4]

theorem v146_eq (s : Fin 100000 → EReal) (h135 : W22 m ρ c (Proc.devRef .tc main_v135) = colArr s) :
    W25 m ρ c (Proc.devRef .tc main_v146) = colArr (softmax s) := by
  refine (keep10' m ρ c main_v146).trans ?_
  have e : W23 m ρ c (Proc.devRef .tc main_v146) = hostSoftmax (W22 m ρ c (Proc.devRef .tc main_v135)) := by
    show StableHlo.after hostOps10 _ (Proc.devRef .tc main_v146) = _
    after_results
    rfl
  rw [e, h135, hostSoftmax_eq]
  rfl

theorem v148_eq (g : Graph m c hr (W20 m ρ c)) (p : Fin 100000) :
    W25 m ρ c (Proc.devRef .tc main_v148) (ix2 p 0) = m ((c : Thread nD τ).loc main_arg2) (ix1 p) := by
  have e2 : W22 m ρ c (Proc.devRef .tc main_arg2) = m ((c : Thread nD τ).loc main_arg2) :=
    (W22_of_ne m ρ c main_arg2 (by decide)).trans ((keep9 m ρ c main_arg2).trans g.arg2)
  have e : W25 m ρ c (Proc.devRef .tc main_v148)
      = broadcastInDim S100000x1 ![0] bcast_S100000_S100000x1_0
          (minsi (broadcastInDim S100000 ![] bcast_S_S100000 (constantI S_ 32 63#32))
            (maxsi (broadcastInDim S100000 ![] bcast_S_S100000 (constantI S_ 32 0#32)) (W22 m ρ c (Proc.devRef .tc main_arg2)))) := by
    show StableHlo.after hostOps10_2 (StableHlo.after hostOps10_1 (StableHlo.after hostOps10 (W22 m ρ c))) (Proc.devRef .tc main_v148) = _
    after_results
    simp only [StableHlo.TRef.ofBuf, StableHlo.TRef.toBuf, cast_eq]
    rfl
  rw [e, e2, Cert.LibIndex.clip_eq_self bcast_S_S100000 (constantI S_ 32 0#32) (constantI S_ 32 63#32)
    (m ((c : Thread nD τ).loc main_arg2)) rfl (by decide) (fun i => Nat.le_of_lt_succ (hr.bt_lt i))]
  exact broadcastInDim_apply _ _ _ (ix2 p 0) (ix1 p) (fun a => match a with | ⟨0, _⟩ => rfl)

theorem v155_eq (h : Fin 100000 → Fin 128 → EReal) (a : Fin 100000 → EReal) (g : Graph m c hr (W20 m ρ c))
    (hh : W20 m ρ c (Proc.devRef .tc main_v132) = arr2 h)
    (ha : W25 m ρ c (Proc.devRef .tc main_v146) = colArr a) :
    W27 m ρ c (Proc.devRef .tc main_v155) = arr2 (pooled (poolSumK (ins m c hr).bat h a) (poolCntK (ins m c hr).bat)) := by
  have hb : ∀ p : Fin 100000, (V25 m ρ c (Pipeline.arrRef spec10 2)) (ix2 p 0) = BitVec.ofNat 32 ((ins m c hr).bat p).val := by
    intro p
    show W25 m ρ c (Proc.devRef .tc main_v148) (ix2 p 0) = _
    rw [v148_eq m ρ c hr g p]
    exact ((BitVec.ofNat_toNat 32 _).trans (BitVec.setWidth_eq _)).symm
  have e0 : mat2 (V25 m ρ c (Pipeline.arrRef spec10 0)) = h := by
    show mat2 (W25 m ρ c (Proc.devRef .tc main_v132)) = h
    rw [keep10' m ρ c main_v132, keep10 m ρ c main_v132,
      (W22_arr m ρ c 0).trans (((dat9 (V21 m ρ) c).arrAt_in 0 rfl _).trans (A_eq9 (V21 m ρ) c 0))]
    show mat2 (W21 m ρ c (Proc.devRef .tc main_v132)) = h
    rw [keep9 m ρ c main_v132, hh]; rfl
  have e1 : col (V25 m ρ c (Pipeline.arrRef spec10 1)) = a := by
    show col (W25 m ρ c (Proc.devRef .tc main_v146)) = a
    rw [ha]; rfl
  have s0 : W26 m ρ c (Proc.devRef .tc main_v149_0) = arr3 (fun cc g j => corePoolSum (ins m c hr).bat h a cc g j) := by
    refine (W26_arr m ρ c 3).trans ((RegVal.pool10_sum (V25 m ρ) c (ins m c hr).bat hb).trans ?_)
    rw [e0, e1]
  have s1 : W26 m ρ c (Proc.devRef .tc main_v149_1) = arr3 (fun cc g (_ : Fin 1) => corePoolCnt (ins m c hr).bat cc g) :=
    (W26_arr m ρ c 4).trans (RegVal.pool10_cnt (V25 m ρ) c (ins m c hr).bat hb)
  have e : W27 m ρ c (Proc.devRef .tc main_v155)
      = hostPooled (W26 m ρ c (Proc.devRef .tc main_v149_0)) (W26 m ρ c (Proc.devRef .tc main_v149_1)) := by
    show StableHlo.after hostOps11 _ (Proc.devRef .tc main_v155) = _
    after_results
    rfl
  have k1 : (fun g j => corePoolSum (ins m c hr).bat h a 0 g j + corePoolSum (ins m c hr).bat h a 1 g j)
      = poolSumK (ins m c hr).bat h a :=
    funext fun g => funext fun j => (Cert.Algebra.poolSumK_eq_core (ins m c hr).bat h a g j).symm
  have k2 : (fun g => corePoolCnt (ins m c hr).bat 0 g + corePoolCnt (ins m c hr).bat 1 g) = poolCntK (ins m c hr).bat :=
    funext fun g => (Cert.Algebra.poolCntK_eq_core (ins m c hr).bat g).symm
  rw [e, s0, s1, hostPooled_eq (fun cc g j => corePoolSum (ins m c hr).bat h a cc g j) (fun cc g => corePoolCnt (ins m c hr).bat cc g), k1, k2]

theorem v156_eq : W27 m ρ c (Proc.devRef .tc main_v156)
    = shapeCast S1x128 (W26 m ρ c (Proc.devRef .tc main_arg12)) shapeCasts_S128_S1x128 := by
  show StableHlo.after hostOps11 _ (Proc.devRef .tc main_v156) = _
  after_results
  rfl

theorem v157_eq : W27 m ρ c (Proc.devRef .tc main_v157)
    = shapeCast S1x128 (W26 m ρ c (Proc.devRef .tc main_arg14)) shapeCasts_S128_S1x128 := by
  show StableHlo.after hostOps11 _ (Proc.devRef .tc main_v157) = _
  after_results
  rfl

end Tail

open Tail in
theorem tail (h : Fin 100000 → Fin 128 → EReal) (g : Graph m c hr (W20 m ρ c))
    (hh : W20 m ρ c (Proc.devRef .tc main_v132) = arr2 h) :
    W28 m ρ c (Proc.devRef .tc main_v158)
      = arr2 (proj (pooled (poolSumK (ins m c hr).bat h (softmax (score h (ins m c hr).aw1 (ins m c hr).ab1 (ins m c hr).aw2 (ins m c hr).ab2))) (poolCntK (ins m c hr).bat))
          (ins m c hr).pw1 (ins m c hr).pb1 (ins m c hr).pw2 (ins m c hr).pb2) := by
  have h146 := v146_eq m ρ c _ (v135_eq m ρ c hr h g hh)
  have h155 := v155_eq m ρ c hr h _ g hh h146
  refine (W28_arr m ρ c 5).trans ((RegVal.proj11 (V27 m ρ) c).trans ?_)
  have e0 : mat2 (V27 m ρ c (Pipeline.arrRef spec11 0))
      = pooled (poolSumK (ins m c hr).bat h (softmax (score h (ins m c hr).aw1 (ins m c hr).ab1 (ins m c hr).aw2 (ins m c hr).ab2))) (poolCntK (ins m c hr).bat) := by
    show mat2 (W27 m ρ c (Proc.devRef .tc main_v155)) = _
    rw [h155]; rfl
  have e1 : mat2 (V27 m ρ c (Pipeline.arrRef spec11 1)) = (ins m c hr).pw1 := by
    show mat2 (W27 m ρ c (Proc.devRef .tc main_arg11)) = _
    rw [keep11 m ρ c main_arg11,
      keep_arg m ρ c main_arg11, g.arg11]; rfl
  have e2 : row (V27 m ρ c (Pipeline.arrRef spec11 2)) = (ins m c hr).pb1 := by
    show row (W27 m ρ c (Proc.devRef .tc main_v156)) = _
    rw [v156_eq, keep_arg m ρ c main_arg12, g.arg12, row_reshape]; rfl
  have e3 : mat2 (V27 m ρ c (Pipeline.arrRef spec11 3)) = (ins m c hr).pw2 := by
    show mat2 (W27 m ρ c (Proc.devRef .tc main_arg13)) = _
    rw [keep11 m ρ c main_arg13,
      keep_arg m ρ c main_arg13, g.arg13]; rfl
  have e4 : row (V27 m ρ c (Pipeline.arrRef spec11 4)) = (ins m c hr).pb2 := by
    show row (W27 m ρ c (Proc.devRef .tc main_v157)) = _
    rw [v157_eq, keep_arg m ρ c main_arg14, g.arg14, row_reshape]; rfl
  rw [e0, e1, e2, e3, e4]

end Cert.KernelIdeal.Chain

end
-- ==== Proof.KValue.lean ====
import proofs.«401495_j83210696393026_3_alg».proof.Proof.Gen.KernelIdeal.Frame
import proofs.«401495_j83210696393026_3_alg».proof.Proof.Spec
import proofs.«401495_j83210696393026_3_alg».proof.Proof.KFacts
import proofs.«401495_j83210696393026_3_alg».proof.Proof.KPro
import proofs.«401495_j83210696393026_3_alg».proof.Proof.KLayer0
import proofs.«401495_j83210696393026_3_alg».proof.Proof.KLayer1
import proofs.«401495_j83210696393026_3_alg».proof.Proof.KLayer2
import proofs.«401495_j83210696393026_3_alg».proof.Proof.KTail

set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg) (c : Dev nD)
variable (hr : InRange (m ((c : Thread nD τ).loc main_arg1)) (m ((c : Thread nD τ).loc main_arg2)))

theorem kernel_value :
    W28 m ρ c (Proc.devRef .tc main_v158) = arr2 (ins m c hr).outK := by
  obtain ⟨g8, h8⟩ := layer0 m ρ c hr (pro m ρ c hr)
  obtain ⟨g14, h14⟩ := layer1 m ρ c hr _ g8 h8
  obtain ⟨g20, h20⟩ := layer2 m ρ c hr _ g14 h14
  exact tail m ρ c hr _ g20 h20

end Cert.KernelIdeal.Chain

end
-- ==== Proof.RGraph.lean ====
import proofs.«401495_j83210696393026_3_alg».proof.Proof.ReadP
import proofs.«401495_j83210696393026_3_alg».proof.Proof.Spec
import proofs.«401495_j83210696393026_3_alg».proof.Proof.LibScatter
import proofs.«401495_j83210696393026_3_alg».proof.Proof.LibIndex

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

variable {x1 : IVec S2x1600000 32} {src dst : Fin 1600000 → Fin 100000}

-- A row of 1600000 node words with the node numbers laid behind it is the list of edge ends with a loop per node appended.
theorem cat_apply (y : IVec S1600000 32) (f : Fin 1600000 → Fin 100000) (hy : ∀ e, y (ix1 e) = BitVec.ofNat 32 (f e).val)
    (p : Fin 1700000) :
    concatenate S1700000 0 [⟨S1600000, y⟩, ⟨S100000, val_main_v0 (F := Ideal)⟩] concatenates_S1600000_S100000_S1700000_d0 (ix1 p)
      = BitVec.ofNat 32 (dstL f p).val := by
  have hp := p.isLt
  unfold dstL
  by_cases h : p.val < 1600000
  · rw [dif_pos h, ← hy]
    exact concatenate_pair_apply_left (t := S1700000) (s₁ := S1600000) (s₂ := S100000) 0 y _
      concatenates_S1600000_S100000_S1700000_d0 (ix1 p) rfl (ix1 ⟨p.val, h⟩) (fun b => by
        match b with
        | ⟨0, _⟩ => rfl)
  · rw [dif_neg h]
    exact concatenate_pair_apply_right (t := S1700000) (s₁ := S1600000) (s₂ := S100000) 0 y _
      concatenates_S1600000_S100000_S1700000_d0 (ix1 p) rfl rfl (ix1 ⟨p.val - 1600000, by omega⟩)
      (fun b hb => by
        match b with
        | ⟨0, _⟩ => exact absurd rfl hb)
      (by show p.val - 1600000 + 1600000 = p.val; omega)

theorem srcw_apply (hs : ∀ e, x1 (ix2 0 e) = BitVec.ofNat 32 (src e).val) (p : Fin 1700000) :
    val_main_v3 (F := Ideal) x1 (ix1 p) = BitVec.ofNat 32 (srcL src p).val :=
  cat_apply _ src (fun e => by
    rw [val_main_v2_apply, val_main_v1_apply, ← hs]
    exact congrArg x1 (funext fun a => by
      match a with
      | ⟨0, _⟩ => rfl
      | ⟨1, _⟩ => exact Fin.ext (Nat.mod_eq_of_lt e.isLt))) p

theorem dstw_apply (hd : ∀ e, x1 (ix2 1 e) = BitVec.ofNat 32 (dst e).val) (p : Fin 1700000) :
    val_main_v6 (F := Ideal) x1 (ix1 p) = BitVec.ofNat 32 (dstL dst p).val :=
  cat_apply _ dst (fun e => by
    rw [val_main_v5_apply, val_main_v4_apply, ← hd]
    exact congrArg x1 (funext fun a => by
      match a with
      | ⟨0, _⟩ => rfl
      | ⟨1, _⟩ => exact Fin.ext (Nat.mod_eq_of_lt e.isLt))) p

-- The scatter of ones at the destination words counts, at a node, the edges with loops that end there.
theorem dinv_apply (hd : ∀ e, x1 (ix2 1 e) = BitVec.ofNat 32 (dst e).val) (q : Fin 100000) :
    val_main_v11 (F := Ideal) x1 (ix1 q) = dinvR dst q := by
  rw [val_main_v11_apply, Ideal.hostUnary_rsqrt_def]
  unfold val_main_v10
  rw [Cert.LibScatter.scatterAdd1_apply scatter_S100000_S1700000x1_S1700000_n_0_0_1 rfl rfl rfl (by norm_num),
    val_main_v8_apply, val_main_cst_0_apply, Ideal.ofBits_def, Ideal.ofBits_zero_f32, zero_add]
  refine congrArg Ideal.rsqrt (Finset.sum_congr (Finset.filter_congr fun e _ => ?_) fun e _ => ?_)
  · have := (dstL dst e).isLt
    rw [val_main_v9_apply, show idx_main_v9 (ix2 e (0 : Fin 1)) = ix1 e from eq_ix1 _,
      dstw_apply hd, BitVec.toNat_ofNat, Nat.mod_eq_of_lt (by omega)]
    exact Fin.val_inj
  · rw [val_main_v7_apply, val_main_cst_apply]; rfl

-- The wrap of a negative index leaves a node number as it is.
theorem wrap_apply (y : IVec S1700000 32) (n : Fin 100000) (e : Fin 1700000) (hy : y (ix1 e) = BitVec.ofNat 32 n.val) :
    broadcastInDim S1700000x1 ![0] bcast_S1700000_S1700000x1_0
      (select (cmpi .slt y (val_main_v12 (F := Ideal))) (addi y (val_main_v14 (F := Ideal))) y) (ix2 e 0) = BitVec.ofNat 32 n.val := by
  rw [broadcastInDim_apply _ bcast_S1700000_S1700000x1_0 _ (ix2 e 0) (ix1 e) (fun a => match a with
    | ⟨0, _⟩ => by show e.val = if (1700000 : Nat) = 1 then 0 else e.val; rw [if_neg (by decide)])]
  show Scalar.select (IntOp.cmpi .slt (y (ix1 e)) (val_main_v12 (F := Ideal) (ix1 e))) (IntOp.addi (y (ix1 e)) _) (y (ix1 e)) = _
  rw [hy, val_main_v12_apply, val_main_c_apply]
  exact Cert.LibScatter.wrap_select _ _ (by rw [BitVec.toNat_ofNat]; have := n.isLt; omega)

-- The take of the per-node factors at a column of node numbers.
theorem gat_apply (hd : ∀ e, x1 (ix2 1 e) = BitVec.ofNat 32 (dst e).val) (w : IVec S1700000x1 32) (n : Fin 100000)
    (e : Fin 1700000) (hw : w (ix2 e 0) = BitVec.ofNat 32 n.val) :
    Host.gather gather_S100000_S1700000x1_S1700000_n_0_n_n_0_1_1 (val_main_v11 (F := Ideal) x1) w (ix1 e) = dinvR dst n := by
  have hn : (w (ix2 e 0)).toNat = n.val := by rw [hw, BitVec.toNat_ofNat]; have := n.isLt; omega
  rw [Cert.LibIndex.gather_flat_inrange _ rfl rfl rfl rfl _ _ e (by norm_num) (hn ▸ n.isLt)]
  exact (congrArg _ (congrArg ix1 (Fin.ext hn))).trans (dinv_apply hd n)

private theorem word_eq (w : BitVec 32) : w = BitVec.ofNat 32 w.toNat := by simp

variable (x0 : FVec Ideal S100000x128 .f32) (x1 : IVec S2x1600000 32) (x2 : IVec S100000 32)
  (x3 : FVec Ideal S3x128x128 .f32) (x4 x5 x6 : FVec Ideal S3x128 .f32) (x7 : FVec Ideal S128x128 .f32)
  (x8 : FVec Ideal S128 .f32) (x9 : FVec Ideal S128x1 .f32) (x10 : FVec Ideal S1 .f32)
  (x11 : FVec Ideal S128x128 .f32) (x12 : FVec Ideal S128 .f32) (x13 : FVec Ideal S128x128 .f32)
  (x14 : FVec Ideal S128 .f32) (hr : InRange x1 x2)

theorem graph_srcw : val_main_v3 (F := Ideal) x1 = (fun i => BitVec.ofNat 32 (srcL (ofArrays x0 x1 x2 x3 x4 x5 x6 x7 x8 x9 x10 x11 x12 x13 x14 hr).src (i 0)).val) :=
  funext fun i => (congrArg _ (eq_ix1 i)).trans (srcw_apply (fun _ => word_eq _) (i 0))

theorem graph_dstw : val_main_v6 (F := Ideal) x1 = (fun i => BitVec.ofNat 32 (dstL (ofArrays x0 x1 x2 x3 x4 x5 x6 x7 x8 x9 x10 x11 x12 x13 x14 hr).dst (i 0)).val) :=
  funext fun i => (congrArg _ (eq_ix1 i)).trans (dstw_apply (fun _ => word_eq _) (i 0))

theorem graph_norm : val_main_v27 (F := Ideal) x1
    = colArr (fun e => dinvR (ofArrays x0 x1 x2 x3 x4 x5 x6 x7 x8 x9 x10 x11 x12 x13 x14 hr).dst (srcL (ofArrays x0 x1 x2 x3 x4 x5 x6 x7 x8 x9 x10 x11 x12 x13 x14 hr).src e) * dinvR (ofArrays x0 x1 x2 x3 x4 x5 x6 x7 x8 x9 x10 x11 x12 x13 x14 hr).dst (dstL (ofArrays x0 x1 x2 x3 x4 x5 x6 x7 x8 x9 x10 x11 x12 x13 x14 hr).dst e)) := by
  funext i
  obtain ⟨e, rfl⟩ : ∃ e : Fin 1700000, i = ix2 e (0 : Fin 1) :=
    ⟨i 0, (eq_ix2 i).trans (congrArg (ix2 (i 0)) (Fin.ext (by have := idx2_lt1 i; show (i 1).val = 0; omega)))⟩
  rw [val_main_v27_apply, val_main_v26_apply, Ideal.mulf_def,
    show idx_main_v27 (ix2 e (0 : Fin 1)) = ix1 e from eq_ix1 _]
  exact congrArg₂ (· * ·)
    (gat_apply (fun _ => word_eq _) _ _ e (wrap_apply _ _ e (srcw_apply (fun _ => word_eq _) e)))
    (gat_apply (fun _ => word_eq _) _ _ e (wrap_apply _ _ e (dstw_apply (fun _ => word_eq _) e)))

end Cert.ReferenceIdeal.RefValue

end
-- ==== Proof.RLayerLib.lean ====
import proofs.«401495_j83210696393026_3_alg».proof.Proof.Spec
import Idealize.ShloMosaic.Lib.Pipeline.Value

noncomputable section

namespace Cert.ReferenceIdeal.RefValue

open Idealize.ShloMosaic Idealize.ShloMosaic.TcCoe Idealize.ShloMosaic.ValueIdx
open Cert.Spec

theorem ix2_eq {n m : Nat} (j : (⟨2, ![n, m]⟩ : Shape).Idx) (p : Fin n) (q : Fin m) (h0 : j 0 = p) (h1 : j 1 = q) : j = ix2 p q := by
  funext a
  match a with
  | ⟨0, _⟩ => exact h0
  | ⟨1, _⟩ => exact h1

theorem ix3_of (l : Fin 3) (k q : Fin 128) (j : (⟨3, ![3, 128, 128]⟩ : Shape).Idx) (h0 : j 0 = l)
    (h1 : (j 1).val = (k.val * 128 + q.val) / 128 % 128) (h2 : (j 2).val = (k.val * 128 + q.val) % 128) : j = ix3 l k q := by
  have := k.isLt; have := q.isLt
  funext a
  match a with
  | ⟨0, _⟩ => exact h0
  | ⟨1, _⟩ => exact Fin.ext (h1.trans (by show _ = k.val; omega))
  | ⟨2, _⟩ => exact Fin.ext (h2.trans (by show _ = q.val; omega))

theorem ix2_of (l : Fin 3) (q : Fin 128) (j : (⟨2, ![3, 128]⟩ : Shape).Idx) (h0 : j 0 = l) (h1 : (j 1).val = q.val % 128) : j = ix2 l q :=
  ix2_eq j l q h0 (Fin.ext (h1.trans (Nat.mod_eq_of_lt q.isLt)))

-- The entrywise sum of two arrays given by their entries.
theorem rl_res (L Hp : Fin 100000 → Fin 128 → EReal) (a b : FVec Ideal ⟨2, ![100000, 128]⟩ .f32) (ha : a = arr2 L) (hb : b = arr2 Hp) :
    addf a b = arr2 (fun i j => L i j + Hp i j) := by
  subst ha hb; rfl

end Cert.ReferenceIdeal.RefValue

end
-- ==== Proof.RLayer0Core.lean ====
import proofs.«401495_j83210696393026_3_alg».proof.Proof.ReadP
import proofs.«401495_j83210696393026_3_alg».proof.Proof.Spec
import proofs.«401495_j83210696393026_3_alg».proof.Proof.LibScatter
import proofs.«401495_j83210696393026_3_alg».proof.Proof.LibIndex
import proofs.«401495_j83210696393026_3_alg».proof.Proof.RLayerLib

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

-- A row laid along every row of the rectangle.
def bc (v : FVec Ideal S128 .f32) : FVec Ideal S100000x128 .f32 :=
  broadcastInDim S100000x128 ![0, 1] bcast_S1x128_S100000x128_0_1 (broadcastInDim S1x128 ![1] bcast_S128_S1x128_1 v)

theorem bc_apply (v : FVec Ideal S128 .f32) (p : Fin 100000) (q : Fin 128) : bc v (ix2 p q) = v (ix1 q) :=
  (StableHlo.Predicate.bcast_cols _ _ v p q).trans (congrArg v (eq_ix1 _))

-- The column means over all nodes.
def cmean (A : FVec Ideal S100000x128 .f32) : FVec Ideal S128 .f32 :=
  Host.divf (Host.reduceAdd A (val_main_cst_7 (F := Ideal)) reducesTo_S100000x128_S128_d0 h_S_) (val_main_v49 (F := Ideal))

theorem cmean_apply (A : FVec Ideal S100000x128 .f32) (q : Fin 128) :
    cmean A (ix1 q) = Ideal.div (∑ k : Fin 100000, A (ix2 k q)) cN := by
  show FloatOps.hostDivf (Host.reduceAdd A _ _ _ (ix1 q)) (val_main_v49 (F := Ideal) (ix1 q)) = _
  rw [val_main_v49_apply, val_main_cst_8_apply, Ideal.hostDivf_def]
  simp only [Host.reduceAdd, Ideal.hostReduceAdd_def]
  rw [Ideal.hostReduceAdd_single reducesTo_S100000x128_S128_d0 (by decide), val_main_cst_7_apply, Ideal.ofBits_def,
    Ideal.ofBits_zero_f32, zero_add]
  exact congrArg (Ideal.div · cN) (Finset.sum_congr rfl fun k _ => congrArg A (eq_ix2 _))

-- Centring by the column means, scaling by the inverse root of the guarded two-pass variance, the affine map and the rectifier.
theorem rl_bn (a : Fin 100000 → Fin 128 → EReal) (g β : Fin 128 → EReal) (A : FVec Ideal S100000x128 .f32)
    (gv βv : FVec Ideal S128 .f32) (hA : A = arr2 a) (hg : ∀ q, gv (ix1 q) = g q) (hβ : ∀ q, βv (ix1 q) = β q) :
    maximumf (addf (mulf (mulf (subf A (bc (cmean A))) (bc (Host.rsqrt (addf (cmean (mulf (subf A (bc (cmean A)))
      (subf A (bc (cmean A))))) (val_main_v61 (F := Ideal)))))) (bc gv)) (bc βv)) (val_main_call0_v0 (F := Ideal))
      = arr2 (bnR a g β) := by
  subst hA
  have hm : ∀ q, cmean (arr2 a) (ix1 q) = meanOf a q := fun q => cmean_apply _ q
  have hv : ∀ q, cmean (mulf (subf (arr2 a) (bc (cmean (arr2 a)))) (subf (arr2 a) (bc (cmean (arr2 a))))) (ix1 q)
      = varR a q := fun q => by
    rw [cmean_apply]
    refine congrArg (Ideal.div · cN) (Finset.sum_congr rfl fun k _ => ?_)
    rw [mulf_apply, subf_apply, bc_apply, hm]; rfl
  funext i
  obtain ⟨p, q, rfl⟩ : ∃ (p : Fin 100000) (q : Fin 128), i = ix2 p q := ⟨i 0, i 1, eq_ix2 i⟩
  rw [maximumf_apply, addf_apply, mulf_apply, mulf_apply, subf_apply, bc_apply, bc_apply, bc_apply, bc_apply, hm, hg, hβ,
    val_main_call0_v0_apply, val_main_call0_cst_apply, Ideal.ofBits_def, Ideal.ofBits_zero_f32]
  show max ((_ - _) * Ideal.rsqrt (cmean _ (ix1 q) + (val_main_v61 (F := Ideal) (ix1 q) : EReal)) * _ + _) 0 = _
  rw [hv, val_main_v61_apply, val_main_cst_11_apply, Ideal.ofBits_def]
  rfl

-- Rows taken at the source words, weighted, summed at the destination words, plus the bias: the aggregate over the edges with loops.
theorem rl_agg (x1 : IVec S2x1600000 32) (src dst : Fin 1600000 → Fin 100000) (d : Fin 100000 → EReal)
    (H : Fin 100000 → Fin 128 → EReal) (W : Fin 128 → Fin 128 → EReal) (b : Fin 128 → EReal)
    (z : FVec Ideal S100000x128 .f32) (bv : FVec Ideal S128 .f32)
    (hz : ∀ p q, z (ix2 p q) = feat H W p q) (hb : ∀ q, bv (ix1 q) = b q)
    (hsw : val_main_v3 (F := Ideal) x1 = (fun i => BitVec.ofNat 32 (srcL src (i 0)).val))
    (hdw : val_main_v6 (F := Ideal) x1 = (fun i => BitVec.ofNat 32 (dstL dst (i 0)).val))
    (hnm : val_main_v27 (F := Ideal) x1 = colArr (fun e => d (srcL src e) * d (dstL dst e))) :
    addf (Host.scatterAdd scatter_S100000x128_S1700000x1_S1700000x128_1_0_0_1 (val_main_v40 (F := Ideal))
      (val_main_v41 (F := Ideal) x1) (mulf (Host.gather gather_S100000x128_S1700000x1_S1700000x128_1_0_n_n_0_1_1128 z
      (val_main_v36 (F := Ideal) x1)) (val_main_v38 (F := Ideal) x1))) (bc bv) = arr2 (aggR src dst H W d b) := by
  have he : ∀ e : Fin 1700000, idx_main_v36 (ix2 e (0 : Fin 1)) = ix1 e := fun e => eq_ix1 _
  have hD : ∀ e : Fin 1700000, (val_main_v41 (F := Ideal) x1 (ix2 e 0)).toNat = (dstL dst e).val := fun e => by
    have hlt := (dstL dst e).isLt
    have hw : val_main_v6 (F := Ideal) x1 (ix1 e) = BitVec.ofNat 32 (dstL dst e).val := congrFun hdw (ix1 e)
    rw [val_main_v41_apply, show idx_main_v41 (ix2 e (0 : Fin 1)) = ix1 e from he e, hw, BitVec.toNat_ofNat]; omega
  have hS : ∀ e : Fin 1700000, (val_main_v36 (F := Ideal) x1 (ix2 e 0)).toNat = (srcL src e).val := fun e => by
    have hlt := (srcL src e).isLt
    have hw : val_main_v3 (F := Ideal) x1 (ix1 e) = BitVec.ofNat 32 (srcL src e).val := congrFun hsw (ix1 e)
    rw [val_main_v36_apply, val_main_v35_apply, val_main_v32_apply, val_main_v34_apply, val_main_v31_apply,
      val_main_c_4_apply, he e, hw, Cert.LibScatter.wrap_select _ _ (by rw [BitVec.toNat_ofNat]; omega), BitVec.toNat_ofNat]
    omega
  funext i
  obtain ⟨p, q, rfl⟩ : ∃ (p : Fin 100000) (q : Fin 128), i = ix2 p q := ⟨i 0, i 1, eq_ix2 i⟩
  rw [addf_apply, Cert.LibScatter.scatterAdd2_apply _ rfl rfl rfl rfl (by norm_num), val_main_v40_apply,
    val_main_cst_6_apply, Ideal.ofBits_def, Ideal.ofBits_zero_f32, zero_add, bc_apply, hb]
  refine congrArg (· + b q) (Finset.sum_congr (Finset.filter_congr fun e _ => ?_) fun e _ => ?_)
  · rw [hD e]; exact Fin.val_inj
  · have hw : (val_main_v36 (F := Ideal) x1 (ix2 e (0 : Fin 1))).toNat < 100000 := by rw [hS e]; exact (srcL src e).isLt
    rw [mulf_apply, Cert.LibIndex.gather_rows_inrange _ rfl rfl rfl rfl rfl _ _ e q (by norm_num) hw,
      show (⟨_, hw⟩ : Fin 100000) = srcL src e from Fin.ext (hS e), hz, val_main_v38_apply, hnm]
    rfl

end Cert.ReferenceIdeal.RefValue

end
-- ==== Proof.RLayer0.lean ====
import proofs.«401495_j83210696393026_3_alg».proof.Proof.ReadP
import proofs.«401495_j83210696393026_3_alg».proof.Proof.Spec
import proofs.«401495_j83210696393026_3_alg».proof.Proof.RGraph
import proofs.«401495_j83210696393026_3_alg».proof.Proof.RLayer0Core

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

variable (x0 : FVec Ideal S100000x128 .f32) (x1 : IVec S2x1600000 32) (x2 : IVec S100000 32)
  (x3 : FVec Ideal S3x128x128 .f32) (x4 x5 x6 : FVec Ideal S3x128 .f32) (x7 : FVec Ideal S128x128 .f32)
  (x8 : FVec Ideal S128 .f32) (x9 : FVec Ideal S128x1 .f32) (x10 : FVec Ideal S1 .f32)
  (x11 : FVec Ideal S128x128 .f32) (x12 : FVec Ideal S128 .f32) (x13 : FVec Ideal S128x128 .f32)
  (x14 : FVec Ideal S128 .f32) (hr : InRange x1 x2)

theorem layer0 : val_main_v77 (F := Ideal) x0 x1 x3 x4 x5 x6 = arr2 (layerR (ofArrays x0 x1 x2 x3 x4 x5 x6 x7 x8 x9 x10 x11 x12 x13 x14 hr).src (ofArrays x0 x1 x2 x3 x4 x5 x6 x7 x8 x9 x10 x11 x12 x13 x14 hr).dst (ofArrays x0 x1 x2 x3 x4 x5 x6 x7 x8 x9 x10 x11 x12 x13 x14 hr).cw (ofArrays x0 x1 x2 x3 x4 x5 x6 x7 x8 x9 x10 x11 x12 x13 x14 hr).cb (ofArrays x0 x1 x2 x3 x4 x5 x6 x7 x8 x9 x10 x11 x12 x13 x14 hr).bg (ofArrays x0 x1 x2 x3 x4 x5 x6 x7 x8 x9 x10 x11 x12 x13 x14 hr).bb 0 (ofArrays x0 x1 x2 x3 x4 x5 x6 x7 x8 x9 x10 x11 x12 x13 x14 hr).x) :=
  rl_bn _ _ _ _ _ _ (rl_agg _ _ _ _ _ _ _ _ _
      (fun p q => by
        rw [val_main_v30_apply]
        exact Finset.sum_congr rfl fun k _ => by
          rw [val_main_v29_apply, val_main_v28_apply]; exact congrArg₂ (· * ·) (congrArg x0 (eq_ix2 _)) (congrArg x3 (ix3_of 0 k q _ rfl rfl rfl)))
      (fun q => by rw [val_main_v44_apply, val_main_v43_apply]; exact congrArg x4 (ix2_of 0 q _ rfl rfl))
      (graph_srcw x0 x1 x2 x3 x4 x5 x6 x7 x8 x9 x10 x11 x12 x13 x14 hr) (graph_dstw x0 x1 x2 x3 x4 x5 x6 x7 x8 x9 x10 x11 x12 x13 x14 hr) (graph_norm x0 x1 x2 x3 x4 x5 x6 x7 x8 x9 x10 x11 x12 x13 x14 hr))
    (fun q => by rw [val_main_v68_apply, val_main_v67_apply]; exact congrArg x5 (ix2_of 0 q _ rfl rfl))
    (fun q => by rw [val_main_v73_apply, val_main_v72_apply]; exact congrArg x6 (ix2_of 0 q _ rfl rfl))

end Cert.ReferenceIdeal.RefValue

end
-- ==== Proof.RLayer1.lean ====
import proofs.«401495_j83210696393026_3_alg».proof.Proof.ReadP
import proofs.«401495_j83210696393026_3_alg».proof.Proof.Spec
import proofs.«401495_j83210696393026_3_alg».proof.Proof.RGraph
import proofs.«401495_j83210696393026_3_alg».proof.Proof.RLayer0

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

variable (x0 : FVec Ideal S100000x128 .f32) (x1 : IVec S2x1600000 32) (x2 : IVec S100000 32)
  (x3 : FVec Ideal S3x128x128 .f32) (x4 x5 x6 : FVec Ideal S3x128 .f32) (x7 : FVec Ideal S128x128 .f32)
  (x8 : FVec Ideal S128 .f32) (x9 : FVec Ideal S128x1 .f32) (x10 : FVec Ideal S1 .f32)
  (x11 : FVec Ideal S128x128 .f32) (x12 : FVec Ideal S128 .f32) (x13 : FVec Ideal S128x128 .f32)
  (x14 : FVec Ideal S128 .f32) (hr : InRange x1 x2)

theorem layer1 : val_main_v128 (F := Ideal) x0 x1 x3 x4 x5 x6
    = arr2 (h2R (ofArrays x0 x1 x2 x3 x4 x5 x6 x7 x8 x9 x10 x11 x12 x13 x14 hr).src (ofArrays x0 x1 x2 x3 x4 x5 x6 x7 x8 x9 x10 x11 x12 x13 x14 hr).dst (ofArrays x0 x1 x2 x3 x4 x5 x6 x7 x8 x9 x10 x11 x12 x13 x14 hr).cw (ofArrays x0 x1 x2 x3 x4 x5 x6 x7 x8 x9 x10 x11 x12 x13 x14 hr).cb (ofArrays x0 x1 x2 x3 x4 x5 x6 x7 x8 x9 x10 x11 x12 x13 x14 hr).bg (ofArrays x0 x1 x2 x3 x4 x5 x6 x7 x8 x9 x10 x11 x12 x13 x14 hr).bb (ofArrays x0 x1 x2 x3 x4 x5 x6 x7 x8 x9 x10 x11 x12 x13 x14 hr).x) :=
  rl_res _ _ _ _ (rl_bn _ _ _ _ _ _ (rl_agg _ _ _ _ _ _ _ _ _
      (fun p q => by
        rw [val_main_v80_apply, layer0 x0 x1 x2 x3 x4 x5 x6 x7 x8 x9 x10 x11 x12 x13 x14 hr]
        exact Finset.sum_congr rfl fun k _ => by
          rw [val_main_v79_apply, val_main_v78_apply]; exact congrArg₂ (· * ·) rfl (congrArg x3 (ix3_of 1 k q _ rfl rfl rfl)))
      (fun q => by rw [val_main_v94_apply, val_main_v93_apply]; exact congrArg x4 (ix2_of 1 q _ rfl rfl))
      (graph_srcw x0 x1 x2 x3 x4 x5 x6 x7 x8 x9 x10 x11 x12 x13 x14 hr) (graph_dstw x0 x1 x2 x3 x4 x5 x6 x7 x8 x9 x10 x11 x12 x13 x14 hr) (graph_norm x0 x1 x2 x3 x4 x5 x6 x7 x8 x9 x10 x11 x12 x13 x14 hr))
    (fun q => by rw [val_main_v118_apply, val_main_v117_apply]; exact congrArg x5 (ix2_of 1 q _ rfl rfl))
    (fun q => by rw [val_main_v123_apply, val_main_v122_apply]; exact congrArg x6 (ix2_of 1 q _ rfl rfl))) (layer0 x0 x1 x2 x3 x4 x5 x6 x7 x8 x9 x10 x11 x12 x13 x14 hr)

end Cert.ReferenceIdeal.RefValue

end
-- ==== Proof.RLayer2.lean ====
import proofs.«401495_j83210696393026_3_alg».proof.Proof.ReadP
import proofs.«401495_j83210696393026_3_alg».proof.Proof.Spec
import proofs.«401495_j83210696393026_3_alg».proof.Proof.RGraph
import proofs.«401495_j83210696393026_3_alg».proof.Proof.RLayer1

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

variable (x0 : FVec Ideal S100000x128 .f32) (x1 : IVec S2x1600000 32) (x2 : IVec S100000 32)
  (x3 : FVec Ideal S3x128x128 .f32) (x4 x5 x6 : FVec Ideal S3x128 .f32) (x7 : FVec Ideal S128x128 .f32)
  (x8 : FVec Ideal S128 .f32) (x9 : FVec Ideal S128x1 .f32) (x10 : FVec Ideal S1 .f32)
  (x11 : FVec Ideal S128x128 .f32) (x12 : FVec Ideal S128 .f32) (x13 : FVec Ideal S128x128 .f32)
  (x14 : FVec Ideal S128 .f32) (hr : InRange x1 x2)

theorem layer2 : val_main_v179 (F := Ideal) x0 x1 x3 x4 x5 x6
    = arr2 (h3R (ofArrays x0 x1 x2 x3 x4 x5 x6 x7 x8 x9 x10 x11 x12 x13 x14 hr).src (ofArrays x0 x1 x2 x3 x4 x5 x6 x7 x8 x9 x10 x11 x12 x13 x14 hr).dst (ofArrays x0 x1 x2 x3 x4 x5 x6 x7 x8 x9 x10 x11 x12 x13 x14 hr).cw (ofArrays x0 x1 x2 x3 x4 x5 x6 x7 x8 x9 x10 x11 x12 x13 x14 hr).cb (ofArrays x0 x1 x2 x3 x4 x5 x6 x7 x8 x9 x10 x11 x12 x13 x14 hr).bg (ofArrays x0 x1 x2 x3 x4 x5 x6 x7 x8 x9 x10 x11 x12 x13 x14 hr).bb (ofArrays x0 x1 x2 x3 x4 x5 x6 x7 x8 x9 x10 x11 x12 x13 x14 hr).x) :=
  rl_res _ _ _ _ (rl_bn _ _ _ _ _ _ (rl_agg _ _ _ _ _ _ _ _ _
      (fun p q => by
        rw [val_main_v131_apply, layer1 x0 x1 x2 x3 x4 x5 x6 x7 x8 x9 x10 x11 x12 x13 x14 hr]
        exact Finset.sum_congr rfl fun k _ => by
          rw [val_main_v130_apply, val_main_v129_apply]; exact congrArg₂ (· * ·) rfl (congrArg x3 (ix3_of 2 k q _ rfl rfl rfl)))
      (fun q => by rw [val_main_v145_apply, val_main_v144_apply]; exact congrArg x4 (ix2_of 2 q _ rfl rfl))
      (graph_srcw x0 x1 x2 x3 x4 x5 x6 x7 x8 x9 x10 x11 x12 x13 x14 hr) (graph_dstw x0 x1 x2 x3 x4 x5 x6 x7 x8 x9 x10 x11 x12 x13 x14 hr) (graph_norm x0 x1 x2 x3 x4 x5 x6 x7 x8 x9 x10 x11 x12 x13 x14 hr))
    (fun q => by rw [val_main_v169_apply, val_main_v168_apply]; exact congrArg x5 (ix2_of 2 q _ rfl rfl))
    (fun q => by rw [val_main_v174_apply, val_main_v173_apply]; exact congrArg x6 (ix2_of 2 q _ rfl rfl))) (layer1 x0 x1 x2 x3 x4 x5 x6 x7 x8 x9 x10 x11 x12 x13 x14 hr)

end Cert.ReferenceIdeal.RefValue

end
-- ==== Proof.RTail.lean ====
import proofs.«401495_j83210696393026_3_alg».proof.Proof.ReadP
import proofs.«401495_j83210696393026_3_alg».proof.Proof.Spec
import proofs.«401495_j83210696393026_3_alg».proof.Proof.RGraph
import proofs.«401495_j83210696393026_3_alg».proof.Proof.RLayer2
import proofs.«401495_j83210696393026_3_alg».proof.Proof.LibScatter

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec
open scoped BigOperators

-- The maximum of a column over its rows is the fold of `max` from the initial value.
private theorem hostReduce_max_col {n : Nat} (x : FVec Ideal (⟨2, ![n, 1]⟩ : Shape) .f32) (init : FVec Ideal (⟨0, ![]⟩ : Shape) .f32)
    (h' : (⟨2, ![n, 1]⟩ : Shape).ReducesTo [0] (⟨1, ![1]⟩ : Shape)) (hu : 0 < (⟨0, ![]⟩ : Shape).numel)
    (j : (⟨1, ![1]⟩ : Shape).Idx) :
    Host.reduce FloatOps.maximumf x init h' hu j
      = (Finset.univ : Finset (Fin n)).fold max (init (Shape.Idx.first hu)) (fun k => x (ix2 k 0)) := by
  have h : (⟨2, ![n, 1]⟩ : Shape).Reduces [0] (⟨1, ![1]⟩ : Shape) := h'.elim fun h1 h2 => ⟨h1, Nat.one_pos, h2⟩
  rw [Host.reduce_eq_fold_single FloatOps.maximumf x init h' h hu j]
  exact congrArg (fun f => Finset.fold max (init (Shape.Idx.first hu)) f (Finset.univ : Finset (Fin n)))
    (funext fun k => congrArg x (funext fun c => Fin.ext (by
      match c with
      | ⟨0, _⟩ => rfl
      | ⟨1, _⟩ => exact Nat.lt_one_iff.1 (j _).isLt)))

section Indices
variable (p q : Fin 100000) (g : Fin 64) (k l c j : Fin 128)

private theorem li180 : lidx_main_v180 (ix2 p k) l = ix2 p l := eq_ix2 _
private theorem ri180 : ridx_main_v180 (ix2 p k) l = ix2 l k := eq_ix2 _
private theorem i182 : idx_main_v182 (ix2 p k) = ix2 0 k := eq_ix2 _
private theorem i181 : idx_main_v181 (ix2 0 k) = ix1 k := eq_ix1 _
private theorem li185 : lidx_main_v185 (ix2 p 0) k = ix2 p k := eq_ix2 _
private theorem ri185 : ridx_main_v185 (ix2 p 0) k = ix2 k 0 := eq_ix2 _
private theorem i187 : idx_main_v187 (ix2 p 0) = ix2 0 0 := eq_ix2 _
private theorem i186 : idx_main_v186 (ix2 0 0) = ix1 0 := eq_ix1 _
private theorem i196 : idx_main_v196 (idx_main_v197 (idx_main_v198 (ix2 p 0))) q = ix2 q 0 := eq_ix2 _
private theorem i200 : idx_main_v200 (ix2 p c) = ix2 p 0 := eq_ix2 _
private theorem i203 : idx_main_v203 (ix2 p 0) = ix1 p := eq_ix1 _
private theorem i207 : idx_main_v207 (ix2 p 0) = ix1 p := eq_ix1 _
private theorem i211 : idx_main_v211 (ix2 g c) = ix2 g 0 := eq_ix2 _
private theorem li213 : lidx_main_v213 (ix2 g k) l = ix2 g l := eq_ix2 _
private theorem ri213 : ridx_main_v213 (ix2 g k) l = ix2 l k := eq_ix2 _
private theorem i215 : idx_main_v215 (ix2 g k) = ix2 0 k := eq_ix2 _
private theorem i214 : idx_main_v214 (ix2 0 k) = ix1 k := eq_ix1 _
private theorem li218 : lidx_main_v218 (ix2 g j) k = ix2 g k := eq_ix2 _
private theorem ri218 : ridx_main_v218 (ix2 g j) k = ix2 k j := eq_ix2 _
private theorem i220 : idx_main_v220 (ix2 g j) = ix2 0 j := eq_ix2 _
private theorem i219 : idx_main_v219 (ix2 0 j) = ix1 j := eq_ix1 _

end Indices

variable {x0 : FVec Ideal S100000x128 .f32} {x1 : IVec S2x1600000 32} {x2 : IVec S100000 32}
  {x3 : FVec Ideal S3x128x128 .f32} {x4 x5 x6 : FVec Ideal S3x128 .f32} {x7 : FVec Ideal S128x128 .f32}
  {x8 : FVec Ideal S128 .f32} {x9 : FVec Ideal S128x1 .f32} {x10 : FVec Ideal S1 .f32}
  {x11 : FVec Ideal S128x128 .f32} {x12 : FVec Ideal S128 .f32} {x13 : FVec Ideal S128x128 .f32}
  {x14 : FVec Ideal S128 .f32}
variable {h : Fin 100000 → Fin 128 → EReal} {s : Fin 100000 → EReal} {bat : Fin 100000 → Fin 64}
  (hL : val_main_v179 (F := Ideal) x0 x1 x3 x4 x5 x6 = arr2 h)
  (hs : ∀ p, val_main_v188 (F := Ideal) x0 x1 x3 x4 x5 x6 x7 x8 x9 x10 (ix2 p 0) = s p)

include hL in
private theorem score_read (p : Fin 100000) :
    val_main_v188 (F := Ideal) x0 x1 x3 x4 x5 x6 x7 x8 x9 x10 (ix2 p 0) = score h (mat2 x7) (vec1 x8) (col x9) (x10 (ix1 0)) p := by
  rw [val_main_v188_apply, val_main_v185_apply, val_main_v187_apply, val_main_v186_apply, i187, i186, Ideal.addf_def]
  refine congrArg (· + x10 (ix1 0)) (Finset.sum_congr rfl fun k _ => ?_)
  rw [li185, ri185, val_main_v184_apply, val_main_v183_apply, val_main_v180_apply, val_main_v182_apply,
    val_main_v181_apply, i182, i181, Ideal.hostUnary_tanh_def, Ideal.addf_def]
  refine congrArg (fun t => Ideal.tanh (t + x8 (ix1 k)) * x9 (ix2 k 0)) (Finset.sum_congr rfl fun l _ => ?_)
  rw [li180, ri180, hL]
  rfl

include hs
private theorem exp_read (q : Fin 100000) :
    val_main_v195 (F := Ideal) x0 x1 x3 x4 x5 x6 x7 x8 x9 x10 (ix2 q 0)
      = Ideal.exp (s q - max cNegInf ((Finset.univ : Finset (Fin 100000)).fold max cNegInf s)) := by
  rw [val_main_v195_apply, val_main_v194_apply, val_main_v193_apply, val_main_v192_apply, val_main_v191_apply,
    val_main_v190_apply, val_main_cst_29_apply, Ideal.maximumf_def, hs, Ideal.hostUnary_exp_def, Ideal.subf_def]
  unfold val_main_v189
  rw [hostReduce_max_col, val_main_cst_28_apply, show (fun k : Fin 100000 => val_main_v188 (F := Ideal) x0 x1 x3 x4 x5 x6 x7 x8 x9 x10 (ix2 k 0)) = s from funext hs]
  rfl

private theorem softmax_read (p : Fin 100000) :
    val_main_v199 (F := Ideal) x0 x1 x3 x4 x5 x6 x7 x8 x9 x10 (ix2 p 0) = softmax s p := by
  rw [val_main_v199_apply, val_main_v198_apply, val_main_v197_apply, val_main_v196_apply, val_main_cst_30_apply,
    Ideal.ofBits_def, Ideal.ofBits_zero_f32, zero_add, Ideal.hostDivf_def, exp_read hs]
  unfold softmax
  refine congrArg (Ideal.div _) (Finset.sum_congr rfl fun q _ => ?_)
  rw [i196, exp_read hs]

include hL
private theorem weighted_read (p : Fin 100000) (c : Fin 128) :
    val_main_v201 (F := Ideal) x0 x1 x3 x4 x5 x6 x7 x8 x9 x10 (ix2 p c) = h p c * softmax s p := by
  rw [val_main_v201_apply, val_main_v200_apply, i200, softmax_read hs, hL, Ideal.mulf_def]
  rfl

private theorem pooled_read (hB : ∀ p, (x2 (ix1 p)).toNat = (bat p).val) (g : Fin 64) (c : Fin 128) :
    val_main_v212 (F := Ideal) x0 x1 x2 x3 x4 x5 x6 x7 x8 x9 x10 (ix2 g c)
      = pooled (poolSumR bat h (softmax s)) (poolCntR bat) g c := by
  rw [val_main_v212_apply, val_main_v211_apply, i211, val_main_v210_apply, val_main_v209_apply, val_main_cst_34_apply,
    Ideal.hostDivf_def, Ideal.maximumf_def]
  unfold val_main_v204 val_main_v208
  rw [Cert.LibScatter.scatterAdd2_apply scatter_S64x128_S100000x1_S100000x128_1_0_0_1 rfl rfl rfl rfl (by norm_num),
    Cert.LibScatter.scatterAdd2_apply scatter_S64x1_S100000x1_S100000x1_1_0_0_1 rfl rfl rfl rfl (by norm_num),
    val_main_v202_apply, val_main_cst_31_apply, val_main_v206_apply, val_main_cst_33_apply, Ideal.ofBits_def,
    Ideal.ofBits_zero_f32, zero_add, zero_add]
  refine congrArg₂ (fun a b => Ideal.div a (max b cOne))
    (Finset.sum_congr (Finset.filter_congr fun p _ => ?_) fun p _ => weighted_read hL hs p c)
    (Finset.sum_congr (Finset.filter_congr fun p _ => ?_) fun p _ => ?_)
  · rw [val_main_v203_apply, i203, hB]; exact Fin.val_inj
  · rw [val_main_v207_apply, i207, hB]; exact Fin.val_inj
  · rw [val_main_v205_apply, val_main_cst_32_apply]; rfl

omit hL hs
variable (x0 : FVec Ideal S100000x128 .f32) (x1 : IVec S2x1600000 32) (x2 : IVec S100000 32)
  (x3 : FVec Ideal S3x128x128 .f32) (x4 x5 x6 : FVec Ideal S3x128 .f32) (x7 : FVec Ideal S128x128 .f32)
  (x8 : FVec Ideal S128 .f32) (x9 : FVec Ideal S128x1 .f32) (x10 : FVec Ideal S1 .f32)
  (x11 : FVec Ideal S128x128 .f32) (x12 : FVec Ideal S128 .f32) (x13 : FVec Ideal S128x128 .f32)
  (x14 : FVec Ideal S128 .f32) (hr : InRange x1 x2)
theorem tail : val_main_v221 (F := Ideal) x0 x1 x2 x3 x4 x5 x6 x7 x8 x9 x10 x11 x12 x13 x14 = arr2 (ofArrays x0 x1 x2 x3 x4 x5 x6 x7 x8 x9 x10 x11 x12 x13 x14 hr).outR := by
  funext i
  obtain ⟨g, j, rfl⟩ : ∃ (g : Fin 64) (j : Fin 128), i = ix2 g j := ⟨i 0, i 1, eq_ix2 i⟩
  rw [val_main_v221_apply, val_main_v218_apply, val_main_v220_apply, val_main_v219_apply, i220, i219, Ideal.addf_def]
  refine congrArg (· + x14 (ix1 j)) (Finset.sum_congr rfl fun k _ => ?_)
  rw [li218, ri218, val_main_v217_apply, val_main_v216_apply, val_main_v213_apply, val_main_v215_apply,
    val_main_v214_apply, i215, i214, val_main_call3_v0_apply, val_main_call3_cst_apply, Ideal.maximumf_def,
    Ideal.addf_def, Ideal.ofBits_def, Ideal.ofBits_zero_f32]
  refine congrArg (fun t => max (t + x12 (ix1 k)) 0 * x13 (ix2 k j)) (Finset.sum_congr rfl fun l _ => ?_)
  rw [li213, ri213, pooled_read (bat := (ofArrays x0 x1 x2 x3 x4 x5 x6 x7 x8 x9 x10 x11 x12 x13 x14 hr).bat) (layer2 x0 x1 x2 x3 x4 x5 x6 x7 x8 x9 x10 x11 x12 x13 x14 hr) (score_read (layer2 x0 x1 x2 x3 x4 x5 x6 x7 x8 x9 x10 x11 x12 x13 x14 hr)) (fun _ => rfl)]
  rfl

end Cert.ReferenceIdeal.RefValue

end
-- ==== Proof.lean ====
import proofs.«401495_j83210696393026_3_alg».proof.Defs
import proofs.«401495_j83210696393026_3_alg».proof.Proof.Gen.Kernel
import proofs.«401495_j83210696393026_3_alg».proof.Proof.Gen.Kernel.Frame
import proofs.«401495_j83210696393026_3_alg».proof.Proof.Gen.KernelIdeal
import proofs.«401495_j83210696393026_3_alg».proof.Proof.Gen.KernelIdeal.Frame
import proofs.«401495_j83210696393026_3_alg».proof.Proof.Gen.ReferenceIdeal
import proofs.«401495_j83210696393026_3_alg».proof.Proof.RefRun
import proofs.«401495_j83210696393026_3_alg».proof.Proof.Gen.Pre_finite_inputs
import proofs.«401495_j83210696393026_3_alg».proof.Proof.Spec
import proofs.«401495_j83210696393026_3_alg».proof.Proof.PreFacts
import proofs.«401495_j83210696393026_3_alg».proof.Proof.Algebra
import proofs.«401495_j83210696393026_3_alg».proof.Proof.FrameV
import proofs.«401495_j83210696393026_3_alg».proof.Proof.KFacts
import proofs.«401495_j83210696393026_3_alg».proof.Proof.KValue
import proofs.«401495_j83210696393026_3_alg».proof.Proof.RTail
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run (F := Ideal) m ρ)

theorem algebraic : Cert.algebraic_KernelIdeal_ReferenceIdeal := by
  intro m ρ m' ρ' hpre hagree
  have hdec : ∀ c : Dev Cert.KernelIdeal.nD, ∃ hr : InRange (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
      (ofArrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) hr).Real :=
    fun c => Cert.PreFacts.decode _ _ _ _ _ _ _ _ _ _ _ _ _ _ _ (hpre c)
  refine ⟨fun c => arr2 (Cert.KernelIdeal.Chain.ins m c (hdec c).choose).outK, ?_, ?_⟩
  · exact (θ_run Cert.KernelIdeal.defs _ _).mono
      (fun r h c => ⟨(h c).1.trans (Cert.KernelIdeal.Chain.kernel_value m ρ c (hdec c).choose), (h c).2⟩)
      (Cert.KernelIdeal.Gen.run_result m ρ)
  · refine (θ_run Cert.ReferenceIdeal.defs _ _).mono (fun r h c => ⟨(h c).1.trans ?_, (h c).2⟩)
      (Cert.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    rw [Cert.ReferenceIdeal.RefValue.tail _ _ _ _ _ _ _ _ _ _ _ _ _ _ _ (hdec c).choose]
    exact congrArg arr2 (Cert.Algebra.out_eq _ (hdec c).choose_spec).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
